-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x4096 : Shape := ⟨2, ![1024, 4096]⟩
abbrev S32x32 : Shape := ⟨2, ![32, 32]⟩
abbrev S32 : Shape := ⟨1, ![32]⟩
abbrev S1024 : Shape := ⟨1, ![1024]⟩
abbrev S_ : Shape := ⟨0, ![]⟩

class Facts : Prop where
  bcast_S_S1024x4096 : S_.BroadcastsInDim S1024x4096 (![] : Fin 0 → Fin S1024x4096.rank)
  reducesTo_S1024x4096_S_d0_1 : S1024x4096.ReducesTo [0, 1] S_
  h_S_ : 0 < S_.numel
  bcast_S_S32x32 : S_.BroadcastsInDim S32x32 (![] : Fin 0 → Fin S32x32.rank)
  reducesTo_S32x32_S_d0_1 : S32x32.ReducesTo [0, 1] S_
  bcast_S_S32 : S_.BroadcastsInDim S32 (![] : Fin 0 → Fin S32.rank)
  reducesTo_S32_S_d0 : S32.ReducesTo [0] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg6 : IVec S1024 32) (main_v30 : IVec S_ 1) (main_v32 : IVec S1024 1) (main_c_12 : IVec S_ 32) : IVec S_ 1 :=
  let main_v33 : IVec S1024 32 := broadcastInDim S1024 ![] bcast_S_S1024 main_c_12
  let main_v34 : IVec S1024 1 := cmpi .slt main_arg6 main_v33
  let main_v35 : IVec S1024 1 := andi main_v32 main_v34
  let main_c_13 : IVec S_ 1 := constantI S_ 1 1#1
  let main_v36 : IVec S_ 1 := (fun x v => Host.reduce IntOp.andi x v reducesTo_S1024_S_d0 h_S_) main_v35 main_c_13
  let main_v37 : IVec S_ 1 := andi main_v30 main_v36
  main_v37

def fn_part1 {F : FTy → Type} [FloatOps F] (main_arg4 : FVec F S32 .f32) (main_arg5 : IVec S1024 32) (main_arg6 : IVec S1024 32) (main_v13 : IVec S_ 1) (main_v16 : IVec S32x32 1) : IVec S_ 1 :=
  let main_c_5 : IVec S_ 1 := constantI S_ 1 1#1
  let main_v17 : IVec S_ 1 := (fun x v => Host.reduce IntOp.andi x v reducesTo_S32x32_S_d0_1 h_S_) main_v16 main_c_5
  let main_v18 : IVec S_ 1 := andi main_v13 main_v17
  let main_v19 : FVec F S32 .f32 := Host.absf main_arg4
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_c_8 : IVec S_ 32 := constantI S_ 32 0#32
  let main_v24 : IVec S1024 32 := broadcastInDim S1024 ![] bcast_S_S1024 main_c_8
  let main_v25 : IVec S1024 1 := cmpi .sge main_arg5 main_v24
  let main_c_9 : IVec S_ 32 := constantI S_ 32 128#32
  let main_v26 : IVec S1024 32 := broadcastInDim S1024 ![] bcast_S_S1024 main_c_9
  let main_v27 : IVec S1024 1 := cmpi .slt main_arg5 main_v26
  let main_v28 : IVec S1024 1 := andi main_v25 main_v27
  let main_c_10 : IVec S_ 1 := constantI S_ 1 1#1
  let main_v29 : IVec S_ 1 := (fun x v => Host.reduce IntOp.andi x v reducesTo_S1024_S_d0 h_S_) main_v28 main_c_10
  let main_v30 : IVec S_ 1 := andi main_v23 main_v29
  let main_c_11 : IVec S_ 32 := constantI S_ 32 0#32
  let main_v31 : IVec S1024 32 := broadcastInDim S1024 ![] bcast_S_S1024 main_c_11
  let main_v32 : IVec S1024 1 := cmpi .sge main_arg6 main_v31
  let main_c_12 : IVec S_ 32 := constantI S_ 32 128#32
  fn_part2 (F := F) main_arg6 main_v30 main_v32 main_c_12

def fn {F : FTy → Type} [FloatOps F] (main_arg0 : FVec F S1024x4096 .f32) (main_arg1 : FVec F S32x32 .f32) (main_arg2 : FVec F S32 .f32) (main_arg3 : FVec F S32x32 .f32) (main_arg4 : FVec F S32 .f32) (main_arg5 : IVec S1024 32) (main_arg6 : IVec S1024 32) : IVec S_ 1 :=
  let main_v0 : FVec F S1024x4096 .f32 := Host.absf main_arg0
  let main_cst : FVec F S_ .f32 := constant S_ .f32 0x7F800000#32
  let main_v1 : FVec F S1024x4096 .f32 := broadcastInDim S1024x4096 ![] bcast_S_S1024x4096 main_cst
  let main_v2 : IVec S1024x4096 1 := cmpf .olt main_v0 main_v1
  let main_c : IVec S_ 1 := constantI S_ 1 1#1
  let main_v3 : IVec S_ 1 := (fun x v => Host.reduce IntOp.andi x v reducesTo_S1024x4096_S_d0_1 h_S_) main_v2 main_c
  let main_v4 : FVec F S32x32 .f32 := Host.absf main_arg1
  let main_cst_0 : FVec F S_ .f32 := constant S_ .f32 0x7F800000#32
  let main_v5 : FVec F S32x32 .f32 := broadcastInDim S32x32 ![] bcast_S_S32x32 main_cst_0
  let main_v6 : IVec S32x32 1 := cmpf .olt main_v4 main_v5
  let main_c_1 : IVec S_ 1 := constantI S_ 1 1#1
  let main_v7 : IVec S_ 1 := (fun x v => Host.reduce IntOp.andi x v reducesTo_S32x32_S_d0_1 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x32 .f32 := Host.absf main_arg3
  let main_cst_4 : FVec F S_ .f32 := constant S_ .f32 0x7F800000#32
  let main_v15 : FVec F S32x32 .f32 := broadcastInDim S32x32 ![] bcast_S_S32x32 main_cst_4
  let main_v16 : IVec S32x32 1 := cmpf .olt main_v14 main_v15
  fn_part1 (F := F) main_arg4 main_arg5 main_arg6 main_v13 main_v16
-- ==== Kernel.lean ====
abbrev S1024x4096 : Shape := ⟨2, ![1024, 4096]⟩
abbrev S32x32 : Shape := ⟨2, ![32, 32]⟩
abbrev S32 : Shape := ⟨1, ![32]⟩
abbrev S1024 : Shape := ⟨1, ![1024]⟩
abbrev S128x128 : Shape := ⟨2, ![128, 128]⟩
abbrev S8192 : Shape := ⟨1, ![8192]⟩
abbrev S4x128 : Shape := ⟨2, ![4, 128]⟩
abbrev S_ : Shape := ⟨0, ![]⟩
abbrev S16 : Shape := ⟨1, ![16]⟩
abbrev S1x16 : Shape := ⟨2, ![1, 16]⟩
abbrev S1x32 : Shape := ⟨2, ![1, 32]⟩
abbrev S131072x32 : Shape := ⟨2, ![131072, 32]⟩
abbrev S128x4096 : Shape := ⟨2, ![128, 4096]⟩
abbrev S16384x32 : Shape := ⟨2, ![16384, 32]⟩
abbrev S128x32 : Shape := ⟨2, ![128, 32]⟩
abbrev S128 : Shape := ⟨1, ![128]⟩
abbrev S128x1 : Shape := ⟨2, ![128, 1]⟩
abbrev S1x128 : Shape := ⟨2, ![1, 128]⟩
abbrev S4096x128 : Shape := ⟨2, ![4096, 128]⟩
abbrev S128x32x128 : Shape := ⟨3, ![128, 32, 128]⟩
abbrev S128x128x32 : Shape := ⟨3, ![128, 128, 32]⟩
abbrev S1x128x32 : Shape := ⟨3, ![1, 128, 32]⟩

abbrev nBuf : Table → Nat
  | .hbm => 11
  | .local .tc .vmem => 12
  | .local .scVector .vmem => 4
  | _ => 0

abbrev bufTy : (tb : Table) → Fin (nBuf tb) → BufTy
  | .hbm, ⟨0, _⟩ => ⟨S1024x4096, .f32⟩
  | .hbm, ⟨1, _⟩ => ⟨S32x32, .f32⟩
  | .hbm, ⟨2, _⟩ => ⟨S32, .f32⟩
  | .hbm, ⟨3, _⟩ => ⟨S32x32, .f32⟩
  | .hbm, ⟨4, _⟩ => ⟨S32, .f32⟩
  | .hbm, ⟨5, _⟩ => ⟨S1024, .i32⟩
  | .hbm, ⟨6, _⟩ => ⟨S1024, .i32⟩
  | .hbm, ⟨7, _⟩ => ⟨S128x128, .f32⟩
  | .hbm, ⟨8, _⟩ => ⟨S1x32, .f32⟩
  | .hbm, ⟨9, _⟩ => ⟨S1x32, .f32⟩
  | .hbm, ⟨10, _⟩ => ⟨S131072x32, .f32⟩
  | .local .tc .vmem, ⟨0, _⟩ => ⟨S128x128, .f32⟩
  | .local .tc .vmem, ⟨1, _⟩ => ⟨S32x32, .f32⟩
  | .local .tc .vmem, ⟨2, _⟩ => ⟨S1x32, .f32⟩
  | .local .tc .vmem, ⟨3, _⟩ => ⟨S32x32, .f32⟩
  | .local .tc .vmem, ⟨4, _⟩ => ⟨S1x32, .f32⟩
  | .local .tc .vmem, ⟨5, _⟩ => ⟨S128x4096, .f32⟩
  | .local .tc .vmem, ⟨6, _⟩ => ⟨S128x4096, .f32⟩
  | .local .tc .vmem, ⟨7, _⟩ => ⟨S16384x32, .f32⟩
  | .local .tc .vmem, ⟨8, _⟩ => ⟨S16384x32, .f32⟩
  | .local .tc .vmem, ⟨9, _⟩ => ⟨S128x128, .f32⟩
  | .local .tc .vmem, ⟨10, _⟩ => ⟨S32x32, .f32⟩
  | .local .tc .vmem, ⟨11, _⟩ => ⟨S128x32, .f32⟩
  | .local .scVector .vmem, ⟨0, _⟩ => ⟨S1024, .i32⟩
  | .local .scVector .vmem, ⟨1, _⟩ => ⟨S1024, .i32⟩
  | .local .scVector .vmem, ⟨2, _⟩ => ⟨S8192, .f32⟩
  | .local .scVector .vmem, ⟨3, _⟩ => ⟨S4x128, .f32⟩
  | _, _ => ⟨S1024x4096, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 12 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTables nBuf rfl bufTy 4 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_arg5_scv : Ref sig .scVector := ⟨.hbm, 5, rfl⟩
abbrev main_arg6_scv : Ref sig .scVector := ⟨.hbm, 6, rfl⟩
abbrev main_v0_scv : Ref sig .scVector := ⟨.hbm, 7, rfl⟩
abbrev cc1_stg0_0 : Ref sig .tc := ⟨.vmem, 0, rfl⟩
abbrev cc1_stg1_0 : Ref sig .tc := ⟨.vmem, 1, rfl⟩
abbrev cc1_stg2_0 : Ref sig .tc := ⟨.vmem, 2, rfl⟩
abbrev cc1_stg3_0 : Ref sig .tc := ⟨.vmem, 3, rfl⟩
abbrev cc1_stg4_0 : Ref sig .tc := ⟨.vmem, 4, rfl⟩
abbrev cc1_stg5_0 : Ref sig .tc := ⟨.vmem, 5, rfl⟩
abbrev cc1_stg5_1 : Ref sig .tc := ⟨.vmem, 6, rfl⟩
abbrev cc1_stg6_0 : Ref sig .tc := ⟨.vmem, 7, rfl⟩
abbrev cc1_stg6_1 : Ref sig .tc := ⟨.vmem, 8, rfl⟩
abbrev cc1_scratch0 : Ref sig .tc := ⟨.vmem, 9, rfl⟩
abbrev cc1_scratch1 : Ref sig .tc := ⟨.vmem, 10, rfl⟩
abbrev cc1_scratch2 : Ref sig .tc := ⟨.vmem, 11, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc1_sem0_0 : DmaSem sig := 3
abbrev cc1_sem1_0 : DmaSem sig := 4
abbrev cc1_sem2_0 : DmaSem sig := 5
abbrev cc1_sem3_0 : DmaSem sig := 6
abbrev cc1_sem4_0 : DmaSem sig := 7
abbrev cc1_sem5_0 : DmaSem sig := 8
abbrev cc1_sem5_1 : DmaSem sig := 9
abbrev cc1_sem6_0 : DmaSem sig := 10
abbrev cc1_sem6_1 : DmaSem sig := 11
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_chk1 (v535 : IVec S16 32) : Prop :=
  (∀ a x, ((![v535] : Fin 1 → IVec S16 32) a x).toNat < S8192.size a)
instance k0_chk1.dec : ∀ (v535 : IVec S16 32), Decidable (k0_chk1 v535) := fun v535 => decidable_of_iff' _ (Iff.of_eq (k0_chk1.eq_1 v535))
theorem k0_idx1_inb : ∀ (v535 : IVec S16 32) (k0_hw1 : k0_chk1 v535), ∀ a x, ((![v535] : Fin 1 → IVec S16 32) a x).toNat < S8192.size a := fun v535 k0_hw1 => k0_hw1

def k0_chk2 (v553 : IVec S16 32) : Prop :=
  (∀ a x, ((![v553] : Fin 1 → IVec S16 32) a x).toNat < S8192.size a)
instance k0_chk2.dec : ∀ (v553 : IVec S16 32), Decidable (k0_chk2 v553) := fun v553 => decidable_of_iff' _ (Iff.of_eq (k0_chk2.eq_1 v553))
theorem k0_idx2_inb : ∀ (v553 : IVec S16 32) (k0_hw2 : k0_chk2 v553), ∀ a x, ((![v553] : Fin 1 → IVec S16 32) a x).toNat < S8192.size a := fun v553 k0_hw2 => k0_hw2

def k0_chk3 (v571 : IVec S16 32) : Prop :=
  (∀ a x, ((![v571] : Fin 1 → IVec S16 32) a x).toNat < S8192.size a)
instance k0_chk3.dec : ∀ (v571 : IVec S16 32), Decidable (k0_chk3 v571) := fun v571 => decidable_of_iff' _ (Iff.of_eq (k0_chk3.eq_1 v571))
theorem k0_idx3_inb : ∀ (v571 : IVec S16 32) (k0_hw3 : k0_chk3 v571), ∀ a x, ((![v571] : Fin 1 → IVec S16 32) a x).toNat < S8192.size a := fun v571 k0_hw3 => k0_hw3

def k0_chk4 (v589 : IVec S16 32) : Prop :=
  (∀ a x, ((![v589] : Fin 1 → IVec S16 32) a x).toNat < S8192.size a)
instance k0_chk4.dec : ∀ (v589 : IVec S16 32), Decidable (k0_chk4 v589) := fun v589 => decidable_of_iff' _ (Iff.of_eq (k0_chk4.eq_1 v589))
theorem k0_idx4_inb : ∀ (v589 : IVec S16 32) (k0_hw4 : k0_chk4 v589), ∀ a x, ((![v589] : Fin 1 → IVec S16 32) a x).toNat < S8192.size a := fun v589 k0_hw4 => k0_hw4

def k0_chk5 (v607 : IVec S16 32) : Prop :=
  (∀ a x, ((![v607] : Fin 1 → IVec S16 32) a x).toNat < S8192.size a)
instance k0_chk5.dec : ∀ (v607 : IVec S16 32), Decidable (k0_chk5 v607) := fun v607 => decidable_of_iff' _ (Iff.of_eq (k0_chk5.eq_1 v607))
theorem k0_idx5_inb : ∀ (v607 : IVec S16 32) (k0_hw5 : k0_chk5 v607), ∀ a x, ((![v607] : Fin 1 → IVec S16 32) a x).toNat < S8192.size a := fun v607 k0_hw5 => k0_hw5

def k0_chk6 (v625 : IVec S16 32) : Prop :=
  (∀ a x, ((![v625] : Fin 1 → IVec S16 32) a x).toNat < S8192.size a)
instance k0_chk6.dec : ∀ (v625 : IVec S16 32), Decidable (k0_chk6 v625) := fun v625 => decidable_of_iff' _ (Iff.of_eq (k0_chk6.eq_1 v625))
theorem k0_idx6_inb : ∀ (v625 : IVec S16 32) (k0_hw6 : k0_chk6 v625), ∀ a x, ((![v625] : Fin 1 → IVec S16 32) a x).toNat < S8192.size a := fun v625 k0_hw6 => k0_hw6

def k0_chk7 (v643 : IVec S16 32) : Prop :=
  (∀ a x, ((![v643] : Fin 1 → IVec S16 32) a x).toNat < S8192.size a)
instance k0_chk7.dec : ∀ (v643 : IVec S16 32), Decidable (k0_chk7 v643) := fun v643 => decidable_of_iff' _ (Iff.of_eq (k0_chk7.eq_1 v643))
theorem k0_idx7_inb : ∀ (v643 : IVec S16 32) (k0_hw7 : k0_chk7 v643), ∀ a x, ((![v643] : Fin 1 → IVec S16 32) a x).toNat < S8192.size a := fun v643 k0_hw7 => k0_hw7

def k0_chk8 (v661 : IVec S16 32) : Prop :=
  (∀ a x, ((![v661] : Fin 1 → IVec S16 32) a x).toNat < S8192.size a)
instance k0_chk8.dec : ∀ (v661 : IVec S16 32), Decidable (k0_chk8 v661) := fun v661 => decidable_of_iff' _ (Iff.of_eq (k0_chk8.eq_1 v661))
theorem k0_idx8_inb : ∀ (v661 : IVec S16 32) (k0_hw8 : k0_chk8 v661), ∀ a x, ((![v661] : Fin 1 → IVec S16 32) a x).toNat < S8192.size a := fun v661 k0_hw8 => k0_hw8

def k0_chk9 (v679 : IVec S16 32) : Prop :=
  (∀ a x, ((![v679] : Fin 1 → IVec S16 32) a x).toNat < S8192.size a)
instance k0_chk9.dec : ∀ (v679 : IVec S16 32), Decidable (k0_chk9 v679) := fun v679 => decidable_of_iff' _ (Iff.of_eq (k0_chk9.eq_1 v679))
theorem k0_idx9_inb : ∀ (v679 : IVec S16 32) (k0_hw9 : k0_chk9 v679), ∀ a x, ((![v679] : Fin 1 → IVec S16 32) a x).toNat < S8192.size a := fun v679 k0_hw9 => k0_hw9

def k0_chk10 (v697 : IVec S16 32) : Prop :=
  (∀ a x, ((![v697] : Fin 1 → IVec S16 32) a x).toNat < S8192.size a)
instance k0_chk10.dec : ∀ (v697 : IVec S16 32), Decidable (k0_chk10 v697) := fun v697 => decidable_of_iff' _ (Iff.of_eq (k0_chk10.eq_1 v697))
theorem k0_idx10_inb : ∀ (v697 : IVec S16 32) (k0_hw10 : k0_chk10 v697), ∀ a x, ((![v697] : Fin 1 → IVec S16 32) a x).toNat < S8192.size a := fun v697 k0_hw10 => k0_hw10

def k0_chk11 (v715 : IVec S16 32) : Prop :=
  (∀ a x, ((![v715] : Fin 1 → IVec S16 32) a x).toNat < S8192.size a)
instance k0_chk11.dec : ∀ (v715 : IVec S16 32), Decidable (k0_chk11 v715) := fun v715 => decidable_of_iff' _ (Iff.of_eq (k0_chk11.eq_1 v715))
theorem k0_idx11_inb : ∀ (v715 : IVec S16 32) (k0_hw11 : k0_chk11 v715), ∀ a x, ((![v715] : Fin 1 → IVec S16 32) a x).toNat < S8192.size a := fun v715 k0_hw11 => k0_hw11

def k0_chk12 (v733 : IVec S16 32) : Prop :=
  (∀ a x, ((![v733] : Fin 1 → IVec S16 32) a x).toNat < S8192.size a)
instance k0_chk12.dec : ∀ (v733 : IVec S16 32), Decidable (k0_chk12 v733) := fun v733 => decidable_of_iff' _ (Iff.of_eq (k0_chk12.eq_1 v733))
theorem k0_idx12_inb : ∀ (v733 : IVec S16 32) (k0_hw12 : k0_chk12 v733), ∀ a x, ((![v733] : Fin 1 → IVec S16 32) a x).toNat < S8192.size a := fun v733 k0_hw12 => k0_hw12

def k0_chk13 (v751 : IVec S16 32) : Prop :=
  (∀ a x, ((![v751] : Fin 1 → IVec S16 32) a x).toNat < S8192.size a)
instance k0_chk13.dec : ∀ (v751 : IVec S16 32), Decidable (k0_chk13 v751) := fun v751 => decidable_of_iff' _ (Iff.of_eq (k0_chk13.eq_1 v751))
theorem k0_idx13_inb : ∀ (v751 : IVec S16 32) (k0_hw13 : k0_chk13 v751), ∀ a x, ((![v751] : Fin 1 → IVec S16 32) a x).toNat < S8192.size a := fun v751 k0_hw13 => k0_hw13

def k0_chk14 (v769 : IVec S16 32) : Prop :=
  (∀ a x, ((![v769] : Fin 1 → IVec S16 32) a x).toNat < S8192.size a)
instance k0_chk14.dec : ∀ (v769 : IVec S16 32), Decidable (k0_chk14 v769) := fun v769 => decidable_of_iff' _ (Iff.of_eq (k0_chk14.eq_1 v769))
theorem k0_idx14_inb : ∀ (v769 : IVec S16 32) (k0_hw14 : k0_chk14 v769), ∀ a x, ((![v769] : Fin 1 → IVec S16 32) a x).toNat < S8192.size a := fun v769 k0_hw14 => k0_hw14

def k0_chk15 (v787 : IVec S16 32) : Prop :=
  (∀ a x, ((![v787] : Fin 1 → IVec S16 32) a x).toNat < S8192.size a)
instance k0_chk15.dec : ∀ (v787 : IVec S16 32), Decidable (k0_chk15 v787) := fun v787 => decidable_of_iff' _ (Iff.of_eq (k0_chk15.eq_1 v787))
theorem k0_idx15_inb : ∀ (v787 : IVec S16 32) (k0_hw15 : k0_chk15 v787), ∀ a x, ((![v787] : Fin 1 → IVec S16 32) a x).toNat < S8192.size a := fun v787 k0_hw15 => k0_hw15

def k0_chk16 (v805 : IVec S16 32) : Prop :=
  (∀ a x, ((![v805] : Fin 1 → IVec S16 32) a x).toNat < S8192.size a)
instance k0_chk16.dec : ∀ (v805 : IVec S16 32), Decidable (k0_chk16 v805) := fun v805 => decidable_of_iff' _ (Iff.of_eq (k0_chk16.eq_1 v805))
theorem k0_idx16_inb : ∀ (v805 : IVec S16 32) (k0_hw16 : k0_chk16 v805), ∀ a x, ((![v805] : Fin 1 → IVec S16 32) a x).toNat < S8192.size a := fun v805 k0_hw16 => k0_hw16

def k0_chk17 (v823 : IVec S16 32) : Prop :=
  (∀ a x, ((![v823] : Fin 1 → IVec S16 32) a x).toNat < S8192.size a)
instance k0_chk17.dec : ∀ (v823 : IVec S16 32), Decidable (k0_chk17 v823) := fun v823 => decidable_of_iff' _ (Iff.of_eq (k0_chk17.eq_1 v823))
theorem k0_idx17_inb : ∀ (v823 : IVec S16 32) (k0_hw17 : k0_chk17 v823), ∀ a x, ((![v823] : Fin 1 → IVec S16 32) a x).toNat < S8192.size a := fun v823 k0_hw17 => k0_hw17

def k0_chk18 (v841 : IVec S16 32) : Prop :=
  (∀ a x, ((![v841] : Fin 1 → IVec S16 32) a x).toNat < S8192.size a)
instance k0_chk18.dec : ∀ (v841 : IVec S16 32), Decidable (k0_chk18 v841) := fun v841 => decidable_of_iff' _ (Iff.of_eq (k0_chk18.eq_1 v841))
theorem k0_idx18_inb : ∀ (v841 : IVec S16 32) (k0_hw18 : k0_chk18 v841), ∀ a x, ((![v841] : Fin 1 → IVec S16 32) a x).toNat < S8192.size a := fun v841 k0_hw18 => k0_hw18

def k0_chk19 (v859 : IVec S16 32) : Prop :=
  (∀ a x, ((![v859] : Fin 1 → IVec S16 32) a x).toNat < S8192.size a)
instance k0_chk19.dec : ∀ (v859 : IVec S16 32), Decidable (k0_chk19 v859) := fun v859 => decidable_of_iff' _ (Iff.of_eq (k0_chk19.eq_1 v859))
theorem k0_idx19_inb : ∀ (v859 : IVec S16 32) (k0_hw19 : k0_chk19 v859), ∀ a x, ((![v859] : Fin 1 → IVec S16 32) a x).toNat < S8192.size a := fun v859 k0_hw19 => k0_hw19

def k0_chk20 (v877 : IVec S16 32) : Prop :=
  (∀ a x, ((![v877] : Fin 1 → IVec S16 32) a x).toNat < S8192.size a)
instance k0_chk20.dec : ∀ (v877 : IVec S16 32), Decidable (k0_chk20 v877) := fun v877 => decidable_of_iff' _ (Iff.of_eq (k0_chk20.eq_1 v877))
theorem k0_idx20_inb : ∀ (v877 : IVec S16 32) (k0_hw20 : k0_chk20 v877), ∀ a x, ((![v877] : Fin 1 → IVec S16 32) a x).toNat < S8192.size a := fun v877 k0_hw20 => k0_hw20

def k0_chk21 (v895 : IVec S16 32) : Prop :=
  (∀ a x, ((![v895] : Fin 1 → IVec S16 32) a x).toNat < S8192.size a)
instance k0_chk21.dec : ∀ (v895 : IVec S16 32), Decidable (k0_chk21 v895) := fun v895 => decidable_of_iff' _ (Iff.of_eq (k0_chk21.eq_1 v895))
theorem k0_idx21_inb : ∀ (v895 : IVec S16 32) (k0_hw21 : k0_chk21 v895), ∀ a x, ((![v895] : Fin 1 → IVec S16 32) a x).toNat < S8192.size a := fun v895 k0_hw21 => k0_hw21

def k0_chk22 (v913 : IVec S16 32) : Prop :=
  (∀ a x, ((![v913] : Fin 1 → IVec S16 32) a x).toNat < S8192.size a)
instance k0_chk22.dec : ∀ (v913 : IVec S16 32), Decidable (k0_chk22 v913) := fun v913 => decidable_of_iff' _ (Iff.of_eq (k0_chk22.eq_1 v913))
theorem k0_idx22_inb : ∀ (v913 : IVec S16 32) (k0_hw22 : k0_chk22 v913), ∀ a x, ((![v913] : Fin 1 → IVec S16 32) a x).toNat < S8192.size a := fun v913 k0_hw22 => k0_hw22

def k0_chk23 (v931 : IVec S16 32) : Prop :=
  (∀ a x, ((![v931] : Fin 1 → IVec S16 32) a x).toNat < S8192.size a)
instance k0_chk23.dec : ∀ (v931 : IVec S16 32), Decidable (k0_chk23 v931) := fun v931 => decidable_of_iff' _ (Iff.of_eq (k0_chk23.eq_1 v931))
theorem k0_idx23_inb : ∀ (v931 : IVec S16 32) (k0_hw23 : k0_chk23 v931), ∀ a x, ((![v931] : Fin 1 → IVec S16 32) a x).toNat < S8192.size a := fun v931 k0_hw23 => k0_hw23

def k0_chk24 (v949 : IVec S16 32) : Prop :=
  (∀ a x, ((![v949] : Fin 1 → IVec S16 32) a x).toNat < S8192.size a)
instance k0_chk24.dec : ∀ (v949 : IVec S16 32), Decidable (k0_chk24 v949) := fun v949 => decidable_of_iff' _ (Iff.of_eq (k0_chk24.eq_1 v949))
theorem k0_idx24_inb : ∀ (v949 : IVec S16 32) (k0_hw24 : k0_chk24 v949), ∀ a x, ((![v949] : Fin 1 → IVec S16 32) a x).toNat < S8192.size a := fun v949 k0_hw24 => k0_hw24

def k0_chk25 (v967 : IVec S16 32) : Prop :=
  (∀ a x, ((![v967] : Fin 1 → IVec S16 32) a x).toNat < S8192.size a)
instance k0_chk25.dec : ∀ (v967 : IVec S16 32), Decidable (k0_chk25 v967) := fun v967 => decidable_of_iff' _ (Iff.of_eq (k0_chk25.eq_1 v967))
theorem k0_idx25_inb : ∀ (v967 : IVec S16 32) (k0_hw25 : k0_chk25 v967), ∀ a x, ((![v967] : Fin 1 → IVec S16 32) a x).toNat < S8192.size a := fun v967 k0_hw25 => k0_hw25

def k0_chk26 (v985 : IVec S16 32) : Prop :=
  (∀ a x, ((![v985] : Fin 1 → IVec S16 32) a x).toNat < S8192.size a)
instance k0_chk26.dec : ∀ (v985 : IVec S16 32), Decidable (k0_chk26 v985) := fun v985 => decidable_of_iff' _ (Iff.of_eq (k0_chk26.eq_1 v985))
theorem k0_idx26_inb : ∀ (v985 : IVec S16 32) (k0_hw26 : k0_chk26 v985), ∀ a x, ((![v985] : Fin 1 → IVec S16 32) a x).toNat < S8192.size a := fun v985 k0_hw26 => k0_hw26

def k0_chk27 (v1003 : IVec S16 32) : Prop :=
  (∀ a x, ((![v1003] : Fin 1 → IVec S16 32) a x).toNat < S8192.size a)
instance k0_chk27.dec : ∀ (v1003 : IVec S16 32), Decidable (k0_chk27 v1003) := fun v1003 => decidable_of_iff' _ (Iff.of_eq (k0_chk27.eq_1 v1003))
theorem k0_idx27_inb : ∀ (v1003 : IVec S16 32) (k0_hw27 : k0_chk27 v1003), ∀ a x, ((![v1003] : Fin 1 → IVec S16 32) a x).toNat < S8192.size a := fun v1003 k0_hw27 => k0_hw27

def k0_chk28 (v1021 : IVec S16 32) : Prop :=
  (∀ a x, ((![v1021] : Fin 1 → IVec S16 32) a x).toNat < S8192.size a)
instance k0_chk28.dec : ∀ (v1021 : IVec S16 32), Decidable (k0_chk28 v1021) := fun v1021 => decidable_of_iff' _ (Iff.of_eq (k0_chk28.eq_1 v1021))
theorem k0_idx28_inb : ∀ (v1021 : IVec S16 32) (k0_hw28 : k0_chk28 v1021), ∀ a x, ((![v1021] : Fin 1 → IVec S16 32) a x).toNat < S8192.size a := fun v1021 k0_hw28 => k0_hw28

def k0_chk29 (v1039 : IVec S16 32) : Prop :=
  (∀ a x, ((![v1039] : Fin 1 → IVec S16 32) a x).toNat < S8192.size a)
instance k0_chk29.dec : ∀ (v1039 : IVec S16 32), Decidable (k0_chk29 v1039) := fun v1039 => decidable_of_iff' _ (Iff.of_eq (k0_chk29.eq_1 v1039))
theorem k0_idx29_inb : ∀ (v1039 : IVec S16 32) (k0_hw29 : k0_chk29 v1039), ∀ a x, ((![v1039] : Fin 1 → IVec S16 32) a x).toNat < S8192.size a := fun v1039 k0_hw29 => k0_hw29

def k0_chk30 (v1057 : IVec S16 32) : Prop :=
  (∀ a x, ((![v1057] : Fin 1 → IVec S16 32) a x).toNat < S8192.size a)
instance k0_chk30.dec : ∀ (v1057 : IVec S16 32), Decidable (k0_chk30 v1057) := fun v1057 => decidable_of_iff' _ (Iff.of_eq (k0_chk30.eq_1 v1057))
theorem k0_idx30_inb : ∀ (v1057 : IVec S16 32) (k0_hw30 : k0_chk30 v1057), ∀ a x, ((![v1057] : Fin 1 → IVec S16 32) a x).toNat < S8192.size a := fun v1057 k0_hw30 => k0_hw30

def k0_chk31 (v1075 : IVec S16 32) : Prop :=
  (∀ a x, ((![v1075] : Fin 1 → IVec S16 32) a x).toNat < S8192.size a)
instance k0_chk31.dec : ∀ (v1075 : IVec S16 32), Decidable (k0_chk31 v1075) := fun v1075 => decidable_of_iff' _ (Iff.of_eq (k0_chk31.eq_1 v1075))
theorem k0_idx31_inb : ∀ (v1075 : IVec S16 32) (k0_hw31 : k0_chk31 v1075), ∀ a x, ((![v1075] : Fin 1 → IVec S16 32) a x).toNat < S8192.size a := fun v1075 k0_hw31 => k0_hw31

def k0_chk32 (v1093 : IVec S16 32) : Prop :=
  (∀ a x, ((![v1093] : Fin 1 → IVec S16 32) a x).toNat < S8192.size a)
instance k0_chk32.dec : ∀ (v1093 : IVec S16 32), Decidable (k0_chk32 v1093) := fun v1093 => decidable_of_iff' _ (Iff.of_eq (k0_chk32.eq_1 v1093))
theorem k0_idx32_inb : ∀ (v1093 : IVec S16 32) (k0_hw32 : k0_chk32 v1093), ∀ a x, ((![v1093] : Fin 1 → IVec S16 32) a x).toNat < S8192.size a := fun v1093 k0_hw32 => k0_hw32

def k0_chk33 (v1111 : IVec S16 32) : Prop :=
  (∀ a x, ((![v1111] : Fin 1 → IVec S16 32) a x).toNat < S8192.size a)
instance k0_chk33.dec : ∀ (v1111 : IVec S16 32), Decidable (k0_chk33 v1111) := fun v1111 => decidable_of_iff' _ (Iff.of_eq (k0_chk33.eq_1 v1111))
theorem k0_idx33_inb : ∀ (v1111 : IVec S16 32) (k0_hw33 : k0_chk33 v1111), ∀ a x, ((![v1111] : Fin 1 → IVec S16 32) a x).toNat < S8192.size a := fun v1111 k0_hw33 => k0_hw33

def k0_chk34 (v1129 : IVec S16 32) : Prop :=
  (∀ a x, ((![v1129] : Fin 1 → IVec S16 32) a x).toNat < S8192.size a)
instance k0_chk34.dec : ∀ (v1129 : IVec S16 32), Decidable (k0_chk34 v1129) := fun v1129 => decidable_of_iff' _ (Iff.of_eq (k0_chk34.eq_1 v1129))
theorem k0_idx34_inb : ∀ (v1129 : IVec S16 32) (k0_hw34 : k0_chk34 v1129), ∀ a x, ((![v1129] : Fin 1 → IVec S16 32) a x).toNat < S8192.size a := fun v1129 k0_hw34 => k0_hw34

def k0_chk35 (v1147 : IVec S16 32) : Prop :=
  (∀ a x, ((![v1147] : Fin 1 → IVec S16 32) a x).toNat < S8192.size a)
instance k0_chk35.dec : ∀ (v1147 : IVec S16 32), Decidable (k0_chk35 v1147) := fun v1147 => decidable_of_iff' _ (Iff.of_eq (k0_chk35.eq_1 v1147))
theorem k0_idx35_inb : ∀ (v1147 : IVec S16 32) (k0_hw35 : k0_chk35 v1147), ∀ a x, ((![v1147] : Fin 1 → IVec S16 32) a x).toNat < S8192.size a := fun v1147 k0_hw35 => k0_hw35

def k0_chk36 (v1165 : IVec S16 32) : Prop :=
  (∀ a x, ((![v1165] : Fin 1 → IVec S16 32) a x).toNat < S8192.size a)
instance k0_chk36.dec : ∀ (v1165 : IVec S16 32), Decidable (k0_chk36 v1165) := fun v1165 => decidable_of_iff' _ (Iff.of_eq (k0_chk36.eq_1 v1165))
theorem k0_idx36_inb : ∀ (v1165 : IVec S16 32) (k0_hw36 : k0_chk36 v1165), ∀ a x, ((![v1165] : Fin 1 → IVec S16 32) a x).toNat < S8192.size a := fun v1165 k0_hw36 => k0_hw36

def k0_chk37 (v1183 : IVec S16 32) : Prop :=
  (∀ a x, ((![v1183] : Fin 1 → IVec S16 32) a x).toNat < S8192.size a)
instance k0_chk37.dec : ∀ (v1183 : IVec S16 32), Decidable (k0_chk37 v1183) := fun v1183 => decidable_of_iff' _ (Iff.of_eq (k0_chk37.eq_1 v1183))
theorem k0_idx37_inb : ∀ (v1183 : IVec S16 32) (k0_hw37 : k0_chk37 v1183), ∀ a x, ((![v1183] : Fin 1 → IVec S16 32) a x).toNat < S8192.size a := fun v1183 k0_hw37 => k0_hw37

def k0_chk38 (v1201 : IVec S16 32) : Prop :=
  (∀ a x, ((![v1201] : Fin 1 → IVec S16 32) a x).toNat < S8192.size a)
instance k0_chk38.dec : ∀ (v1201 : IVec S16 32), Decidable (k0_chk38 v1201) := fun v1201 => decidable_of_iff' _ (Iff.of_eq (k0_chk38.eq_1 v1201))
theorem k0_idx38_inb : ∀ (v1201 : IVec S16 32) (k0_hw38 : k0_chk38 v1201), ∀ a x, ((![v1201] : Fin 1 → IVec S16 32) a x).toNat < S8192.size a := fun v1201 k0_hw38 => k0_hw38

def k0_chk39 (v1219 : IVec S16 32) : Prop :=
  (∀ a x, ((![v1219] : Fin 1 → IVec S16 32) a x).toNat < S8192.size a)
instance k0_chk39.dec : ∀ (v1219 : IVec S16 32), Decidable (k0_chk39 v1219) := fun v1219 => decidable_of_iff' _ (Iff.of_eq (k0_chk39.eq_1 v1219))
theorem k0_idx39_inb : ∀ (v1219 : IVec S16 32) (k0_hw39 : k0_chk39 v1219), ∀ a x, ((![v1219] : Fin 1 → IVec S16 32) a x).toNat < S8192.size a := fun v1219 k0_hw39 => k0_hw39

def k0_chk40 (v1237 : IVec S16 32) : Prop :=
  (∀ a x, ((![v1237] : Fin 1 → IVec S16 32) a x).toNat < S8192.size a)
instance k0_chk40.dec : ∀ (v1237 : IVec S16 32), Decidable (k0_chk40 v1237) := fun v1237 => decidable_of_iff' _ (Iff.of_eq (k0_chk40.eq_1 v1237))
theorem k0_idx40_inb : ∀ (v1237 : IVec S16 32) (k0_hw40 : k0_chk40 v1237), ∀ a x, ((![v1237] : Fin 1 → IVec S16 32) a x).toNat < S8192.size a := fun v1237 k0_hw40 => k0_hw40

def k0_chk41 (v1255 : IVec S16 32) : Prop :=
  (∀ a x, ((![v1255] : Fin 1 → IVec S16 32) a x).toNat < S8192.size a)
instance k0_chk41.dec : ∀ (v1255 : IVec S16 32), Decidable (k0_chk41 v1255) := fun v1255 => decidable_of_iff' _ (Iff.of_eq (k0_chk41.eq_1 v1255))
theorem k0_idx41_inb : ∀ (v1255 : IVec S16 32) (k0_hw41 : k0_chk41 v1255), ∀ a x, ((![v1255] : Fin 1 → IVec S16 32) a x).toNat < S8192.size a := fun v1255 k0_hw41 => k0_hw41

def k0_chk42 (v1273 : IVec S16 32) : Prop :=
  (∀ a x, ((![v1273] : Fin 1 → IVec S16 32) a x).toNat < S8192.size a)
instance k0_chk42.dec : ∀ (v1273 : IVec S16 32), Decidable (k0_chk42 v1273) := fun v1273 => decidable_of_iff' _ (Iff.of_eq (k0_chk42.eq_1 v1273))
theorem k0_idx42_inb : ∀ (v1273 : IVec S16 32) (k0_hw42 : k0_chk42 v1273), ∀ a x, ((![v1273] : Fin 1 → IVec S16 32) a x).toNat < S8192.size a := fun v1273 k0_hw42 => k0_hw42

def k0_chk43 (v1291 : IVec S16 32) : Prop :=
  (∀ a x, ((![v1291] : Fin 1 → IVec S16 32) a x).toNat < S8192.size a)
instance k0_chk43.dec : ∀ (v1291 : IVec S16 32), Decidable (k0_chk43 v1291) := fun v1291 => decidable_of_iff' _ (Iff.of_eq (k0_chk43.eq_1 v1291))
theorem k0_idx43_inb : ∀ (v1291 : IVec S16 32) (k0_hw43 : k0_chk43 v1291), ∀ a x, ((![v1291] : Fin 1 → IVec S16 32) a x).toNat < S8192.size a := fun v1291 k0_hw43 => k0_hw43

def k0_chk44 (v1309 : IVec S16 32) : Prop :=
  (∀ a x, ((![v1309] : Fin 1 → IVec S16 32) a x).toNat < S8192.size a)
instance k0_chk44.dec : ∀ (v1309 : IVec S16 32), Decidable (k0_chk44 v1309) := fun v1309 => decidable_of_iff' _ (Iff.of_eq (k0_chk44.eq_1 v1309))
theorem k0_idx44_inb : ∀ (v1309 : IVec S16 32) (k0_hw44 : k0_chk44 v1309), ∀ a x, ((![v1309] : Fin 1 → IVec S16 32) a x).toNat < S8192.size a := fun v1309 k0_hw44 => k0_hw44

def k0_chk45 (v1327 : IVec S16 32) : Prop :=
  (∀ a x, ((![v1327] : Fin 1 → IVec S16 32) a x).toNat < S8192.size a)
instance k0_chk45.dec : ∀ (v1327 : IVec S16 32), Decidable (k0_chk45 v1327) := fun v1327 => decidable_of_iff' _ (Iff.of_eq (k0_chk45.eq_1 v1327))
theorem k0_idx45_inb : ∀ (v1327 : IVec S16 32) (k0_hw45 : k0_chk45 v1327), ∀ a x, ((![v1327] : Fin 1 → IVec S16 32) a x).toNat < S8192.size a := fun v1327 k0_hw45 => k0_hw45

def k0_chk46 (v1345 : IVec S16 32) : Prop :=
  (∀ a x, ((![v1345] : Fin 1 → IVec S16 32) a x).toNat < S8192.size a)
instance k0_chk46.dec : ∀ (v1345 : IVec S16 32), Decidable (k0_chk46 v1345) := fun v1345 => decidable_of_iff' _ (Iff.of_eq (k0_chk46.eq_1 v1345))
theorem k0_idx46_inb : ∀ (v1345 : IVec S16 32) (k0_hw46 : k0_chk46 v1345), ∀ a x, ((![v1345] : Fin 1 → IVec S16 32) a x).toNat < S8192.size a := fun v1345 k0_hw46 => k0_hw46

def k0_chk47 (v1363 : IVec S16 32) : Prop :=
  (∀ a x, ((![v1363] : Fin 1 → IVec S16 32) a x).toNat < S8192.size a)
instance k0_chk47.dec : ∀ (v1363 : IVec S16 32), Decidable (k0_chk47 v1363) := fun v1363 => decidable_of_iff' _ (Iff.of_eq (k0_chk47.eq_1 v1363))
theorem k0_idx47_inb : ∀ (v1363 : IVec S16 32) (k0_hw47 : k0_chk47 v1363), ∀ a x, ((![v1363] : Fin 1 → IVec S16 32) a x).toNat < S8192.size a := fun v1363 k0_hw47 => k0_hw47

def k0_chk48 (v1381 : IVec S16 32) : Prop :=
  (∀ a x, ((![v1381] : Fin 1 → IVec S16 32) a x).toNat < S8192.size a)
instance k0_chk48.dec : ∀ (v1381 : IVec S16 32), Decidable (k0_chk48 v1381) := fun v1381 => decidable_of_iff' _ (Iff.of_eq (k0_chk48.eq_1 v1381))
theorem k0_idx48_inb : ∀ (v1381 : IVec S16 32) (k0_hw48 : k0_chk48 v1381), ∀ a x, ((![v1381] : Fin 1 → IVec S16 32) a x).toNat < S8192.size a := fun v1381 k0_hw48 => k0_hw48

def k0_chk49 (v1399 : IVec S16 32) : Prop :=
  (∀ a x, ((![v1399] : Fin 1 → IVec S16 32) a x).toNat < S8192.size a)
instance k0_chk49.dec : ∀ (v1399 : IVec S16 32), Decidable (k0_chk49 v1399) := fun v1399 => decidable_of_iff' _ (Iff.of_eq (k0_chk49.eq_1 v1399))
theorem k0_idx49_inb : ∀ (v1399 : IVec S16 32) (k0_hw49 : k0_chk49 v1399), ∀ a x, ((![v1399] : Fin 1 → IVec S16 32) a x).toNat < S8192.size a := fun v1399 k0_hw49 => k0_hw49

def k0_chk50 (v1417 : IVec S16 32) : Prop :=
  (∀ a x, ((![v1417] : Fin 1 → IVec S16 32) a x).toNat < S8192.size a)
instance k0_chk50.dec : ∀ (v1417 : IVec S16 32), Decidable (k0_chk50 v1417) := fun v1417 => decidable_of_iff' _ (Iff.of_eq (k0_chk50.eq_1 v1417))
theorem k0_idx50_inb : ∀ (v1417 : IVec S16 32) (k0_hw50 : k0_chk50 v1417), ∀ a x, ((![v1417] : Fin 1 → IVec S16 32) a x).toNat < S8192.size a := fun v1417 k0_hw50 => k0_hw50

def k0_chk51 (v1435 : IVec S16 32) : Prop :=
  (∀ a x, ((![v1435] : Fin 1 → IVec S16 32) a x).toNat < S8192.size a)
instance k0_chk51.dec : ∀ (v1435 : IVec S16 32), Decidable (k0_chk51 v1435) := fun v1435 => decidable_of_iff' _ (Iff.of_eq (k0_chk51.eq_1 v1435))
theorem k0_idx51_inb : ∀ (v1435 : IVec S16 32) (k0_hw51 : k0_chk51 v1435), ∀ a x, ((![v1435] : Fin 1 → IVec S16 32) a x).toNat < S8192.size a := fun v1435 k0_hw51 => k0_hw51

def k0_chk52 (v1453 : IVec S16 32) : Prop :=
  (∀ a x, ((![v1453] : Fin 1 → IVec S16 32) a x).toNat < S8192.size a)
instance k0_chk52.dec : ∀ (v1453 : IVec S16 32), Decidable (k0_chk52 v1453) := fun v1453 => decidable_of_iff' _ (Iff.of_eq (k0_chk52.eq_1 v1453))
theorem k0_idx52_inb : ∀ (v1453 : IVec S16 32) (k0_hw52 : k0_chk52 v1453), ∀ a x, ((![v1453] : Fin 1 → IVec S16 32) a x).toNat < S8192.size a := fun v1453 k0_hw52 => k0_hw52

def k0_chk53 (v1471 : IVec S16 32) : Prop :=
  (∀ a x, ((![v1471] : Fin 1 → IVec S16 32) a x).toNat < S8192.size a)
instance k0_chk53.dec : ∀ (v1471 : IVec S16 32), Decidable (k0_chk53 v1471) := fun v1471 => decidable_of_iff' _ (Iff.of_eq (k0_chk53.eq_1 v1471))
theorem k0_idx53_inb : ∀ (v1471 : IVec S16 32) (k0_hw53 : k0_chk53 v1471), ∀ a x, ((![v1471] : Fin 1 → IVec S16 32) a x).toNat < S8192.size a := fun v1471 k0_hw53 => k0_hw53

def k0_chk54 (v1489 : IVec S16 32) : Prop :=
  (∀ a x, ((![v1489] : Fin 1 → IVec S16 32) a x).toNat < S8192.size a)
instance k0_chk54.dec : ∀ (v1489 : IVec S16 32), Decidable (k0_chk54 v1489) := fun v1489 => decidable_of_iff' _ (Iff.of_eq (k0_chk54.eq_1 v1489))
theorem k0_idx54_inb : ∀ (v1489 : IVec S16 32) (k0_hw54 : k0_chk54 v1489), ∀ a x, ((![v1489] : Fin 1 → IVec S16 32) a x).toNat < S8192.size a := fun v1489 k0_hw54 => k0_hw54

def k0_chk55 (v1507 : IVec S16 32) : Prop :=
  (∀ a x, ((![v1507] : Fin 1 → IVec S16 32) a x).toNat < S8192.size a)
instance k0_chk55.dec : ∀ (v1507 : IVec S16 32), Decidable (k0_chk55 v1507) := fun v1507 => decidable_of_iff' _ (Iff.of_eq (k0_chk55.eq_1 v1507))
theorem k0_idx55_inb : ∀ (v1507 : IVec S16 32) (k0_hw55 : k0_chk55 v1507), ∀ a x, ((![v1507] : Fin 1 → IVec S16 32) a x).toNat < S8192.size a := fun v1507 k0_hw55 => k0_hw55

def k0_chk56 (v1525 : IVec S16 32) : Prop :=
  (∀ a x, ((![v1525] : Fin 1 → IVec S16 32) a x).toNat < S8192.size a)
instance k0_chk56.dec : ∀ (v1525 : IVec S16 32), Decidable (k0_chk56 v1525) := fun v1525 => decidable_of_iff' _ (Iff.of_eq (k0_chk56.eq_1 v1525))
theorem k0_idx56_inb : ∀ (v1525 : IVec S16 32) (k0_hw56 : k0_chk56 v1525), ∀ a x, ((![v1525] : Fin 1 → IVec S16 32) a x).toNat < S8192.size a := fun v1525 k0_hw56 => k0_hw56

def k0_chk57 (v1543 : IVec S16 32) : Prop :=
  (∀ a x, ((![v1543] : Fin 1 → IVec S16 32) a x).toNat < S8192.size a)
instance k0_chk57.dec : ∀ (v1543 : IVec S16 32), Decidable (k0_chk57 v1543) := fun v1543 => decidable_of_iff' _ (Iff.of_eq (k0_chk57.eq_1 v1543))
theorem k0_idx57_inb : ∀ (v1543 : IVec S16 32) (k0_hw57 : k0_chk57 v1543), ∀ a x, ((![v1543] : Fin 1 → IVec S16 32) a x).toNat < S8192.size a := fun v1543 k0_hw57 => k0_hw57

def k0_chk58 (v1561 : IVec S16 32) : Prop :=
  (∀ a x, ((![v1561] : Fin 1 → IVec S16 32) a x).toNat < S8192.size a)
instance k0_chk58.dec : ∀ (v1561 : IVec S16 32), Decidable (k0_chk58 v1561) := fun v1561 => decidable_of_iff' _ (Iff.of_eq (k0_chk58.eq_1 v1561))
theorem k0_idx58_inb : ∀ (v1561 : IVec S16 32) (k0_hw58 : k0_chk58 v1561), ∀ a x, ((![v1561] : Fin 1 → IVec S16 32) a x).toNat < S8192.size a := fun v1561 k0_hw58 => k0_hw58

def k0_chk59 (v1579 : IVec S16 32) : Prop :=
  (∀ a x, ((![v1579] : Fin 1 → IVec S16 32) a x).toNat < S8192.size a)
instance k0_chk59.dec : ∀ (v1579 : IVec S16 32), Decidable (k0_chk59 v1579) := fun v1579 => decidable_of_iff' _ (Iff.of_eq (k0_chk59.eq_1 v1579))
theorem k0_idx59_inb : ∀ (v1579 : IVec S16 32) (k0_hw59 : k0_chk59 v1579), ∀ a x, ((![v1579] : Fin 1 → IVec S16 32) a x).toNat < S8192.size a := fun v1579 k0_hw59 => k0_hw59

def k0_chk60 (v1597 : IVec S16 32) : Prop :=
  (∀ a x, ((![v1597] : Fin 1 → IVec S16 32) a x).toNat < S8192.size a)
instance k0_chk60.dec : ∀ (v1597 : IVec S16 32), Decidable (k0_chk60 v1597) := fun v1597 => decidable_of_iff' _ (Iff.of_eq (k0_chk60.eq_1 v1597))
theorem k0_idx60_inb : ∀ (v1597 : IVec S16 32) (k0_hw60 : k0_chk60 v1597), ∀ a x, ((![v1597] : Fin 1 → IVec S16 32) a x).toNat < S8192.size a := fun v1597 k0_hw60 => k0_hw60

def k0_chk61 (v1615 : IVec S16 32) : Prop :=
  (∀ a x, ((![v1615] : Fin 1 → IVec S16 32) a x).toNat < S8192.size a)
instance k0_chk61.dec : ∀ (v1615 : IVec S16 32), Decidable (k0_chk61 v1615) := fun v1615 => decidable_of_iff' _ (Iff.of_eq (k0_chk61.eq_1 v1615))
theorem k0_idx61_inb : ∀ (v1615 : IVec S16 32) (k0_hw61 : k0_chk61 v1615), ∀ a x, ((![v1615] : Fin 1 → IVec S16 32) a x).toNat < S8192.size a := fun v1615 k0_hw61 => k0_hw61

def k0_chk62 (v1633 : IVec S16 32) : Prop :=
  (∀ a x, ((![v1633] : Fin 1 → IVec S16 32) a x).toNat < S8192.size a)
instance k0_chk62.dec : ∀ (v1633 : IVec S16 32), Decidable (k0_chk62 v1633) := fun v1633 => decidable_of_iff' _ (Iff.of_eq (k0_chk62.eq_1 v1633))
theorem k0_idx62_inb : ∀ (v1633 : IVec S16 32) (k0_hw62 : k0_chk62 v1633), ∀ a x, ((![v1633] : Fin 1 → IVec S16 32) a x).toNat < S8192.size a := fun v1633 k0_hw62 => k0_hw62

def k0_chk63 (v1651 : IVec S16 32) : Prop :=
  (∀ a x, ((![v1651] : Fin 1 → IVec S16 32) a x).toNat < S8192.size a)
instance k0_chk63.dec : ∀ (v1651 : IVec S16 32), Decidable (k0_chk63 v1651) := fun v1651 => decidable_of_iff' _ (Iff.of_eq (k0_chk63.eq_1 v1651))
theorem k0_idx63_inb : ∀ (v1651 : IVec S16 32) (k0_hw63 : k0_chk63 v1651), ∀ a x, ((![v1651] : Fin 1 → IVec S16 32) a x).toNat < S8192.size a := fun v1651 k0_hw63 => k0_hw63

def k0_chk64 (v1669 : IVec S16 32) : Prop :=
  (∀ a x, ((![v1669] : Fin 1 → IVec S16 32) a x).toNat < S8192.size a)
instance k0_chk64.dec : ∀ (v1669 : IVec S16 32), Decidable (k0_chk64 v1669) := fun v1669 => decidable_of_iff' _ (Iff.of_eq (k0_chk64.eq_1 v1669))
theorem k0_idx64_inb : ∀ (v1669 : IVec S16 32) (k0_hw64 : k0_chk64 v1669), ∀ a x, ((![v1669] : Fin 1 → IVec S16 32) a x).toNat < S8192.size a := fun v1669 k0_hw64 => k0_hw64
def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v2 : BitVec 32 := Scalar.muli v1 c4_i32
  let c0_i32_956_r2 : BitVec 32 := 0#32
  ![v2.toNat, 0]
abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S128x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S32x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S32x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S128x4096 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S16384x32 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  iota_S16_d0_w32_scVector : S16.Iotas .scVector 32 [0]
  inb_S8192_S16_0 : ∀ a, (![0] : Fin 1 → Nat) a + S16.size a ≤ S8192.size a
  h_S16 : 0 < S16.numel
  inb_S8192_S16_16 : ∀ a, (![16] : Fin 1 → Nat) a + S16.size a ≤ S8192.size a
  inb_S8192_S16_32 : ∀ a, (![32] : Fin 1 → Nat) a + S16.size a ≤ S8192.size a
  inb_S8192_S16_48 : ∀ a, (![48] : Fin 1 → Nat) a + S16.size a ≤ S8192.size a
  inb_S8192_S16_64 : ∀ a, (![64] : Fin 1 → Nat) a + S16.size a ≤ S8192.size a
  inb_S8192_S16_80 : ∀ a, (![80] : Fin 1 → Nat) a + S16.size a ≤ S8192.size a
  inb_S8192_S16_96 : ∀ a, (![96] : Fin 1 → Nat) a + S16.size a ≤ S8192.size a
  inb_S8192_S16_112 : ∀ a, (![112] : Fin 1 → Nat) a + S16.size a ≤ S8192.size a
  inb_S8192_S16_128 : ∀ a, (![128] : Fin 1 → Nat) a + S16.size a ≤ S8192.size a
  inb_S8192_S16_144 : ∀ a, (![144] : Fin 1 → Nat) a + S16.size a ≤ S8192.size a
  inb_S8192_S16_160 : ∀ a, (![160] : Fin 1 → Nat) a + S16.size a ≤ S8192.size a
  inb_S8192_S16_176 : ∀ a, (![176] : Fin 1 → Nat) a + S16.size a ≤ S8192.size a
  inb_S8192_S16_192 : ∀ a, (![192] : Fin 1 → Nat) a + S16.size a ≤ S8192.size a
  inb_S8192_S16_208 : ∀ a, (![208] : Fin 1 → Nat) a + S16.size a ≤ S8192.size a
  inb_S8192_S16_224 : ∀ a, (![224] : Fin 1 → Nat) a + S16.size a ≤ S8192.size a
  inb_S8192_S16_240 : ∀ a, (![240] : Fin 1 → Nat) a + S16.size a ≤ S8192.size a
  inb_S8192_S16_256 : ∀ a, (![256] : Fin 1 → Nat) a + S16.size a ≤ S8192.size a
  inb_S8192_S16_272 : ∀ a, (![272] : Fin 1 → Nat) a + S16.size a ≤ S8192.size a
  inb_S8192_S16_288 : ∀ a, (![288] : Fin 1 → Nat) a + S16.size a ≤ S8192.size a
  inb_S8192_S16_304 : ∀ a, (![304] : Fin 1 → Nat) a + S16.size a ≤ S8192.size a
  inb_S8192_S16_320 : ∀ a, (![320] : Fin 1 → Nat) a + S16.size a ≤ S8192.size a
  inb_S8192_S16_336 : ∀ a, (![336] : Fin 1 → Nat) a + S16.size a ≤ S8192.size a
  inb_S8192_S16_352 : ∀ a, (![352] : Fin 1 → Nat) a + S16.size a ≤ S8192.size a
  inb_S8192_S16_368 : ∀ a, (![368] : Fin 1 → Nat) a + S16.size a ≤ S8192.size a
  inb_S8192_S16_384 : ∀ a, (![384] : Fin 1 → Nat) a + S16.size a ≤ S8192.size a
  inb_S8192_S16_400 : ∀ a, (![400] : Fin 1 → Nat) a + S16.size a ≤ S8192.size a
  inb_S8192_S16_416 : ∀ a, (![416] : Fin 1 → Nat) a + S16.size a ≤ S8192.size a
  inb_S8192_S16_432 : ∀ a, (![432] : Fin 1 → Nat) a + S16.size a ≤ S8192.size a
  inb_S8192_S16_448 : ∀ a, (![448] : Fin 1 → Nat) a + S16.size a ≤ S8192.size a
  inb_S8192_S16_464 : ∀ a, (![464] : Fin 1 → Nat) a + S16.size a ≤ S8192.size a
  inb_S8192_S16_480 : ∀ a, (![480] : Fin 1 → Nat) a + S16.size a ≤ S8192.size a
  inb_S8192_S16_496 : ∀ a, (![496] : Fin 1 → Nat) a + S16.size a ≤ S8192.size a
  inb_S8192_S16_512 : ∀ a, (![512] : Fin 1 → Nat) a + S16.size a ≤ S8192.size a
  inb_S8192_S16_528 : ∀ a, (![528] : Fin 1 → Nat) a + S16.size a ≤ S8192.size a
  inb_S8192_S16_544 : ∀ a, (![544] : Fin 1 → Nat) a + S16.size a ≤ S8192.size a
  inb_S8192_S16_560 : ∀ a, (![560] : Fin 1 → Nat) a + S16.size a ≤ S8192.size a
  inb_S8192_S16_576 : ∀ a, (![576] : Fin 1 → Nat) a + S16.size a ≤ S8192.size a
  inb_S8192_S16_592 : ∀ a, (![592] : Fin 1 → Nat) a + S16.size a ≤ S8192.size a
  inb_S8192_S16_608 : ∀ a, (![608] : Fin 1 → Nat) a + S16.size a ≤ S8192.size a
  inb_S8192_S16_624 : ∀ a, (![624] : Fin 1 → Nat) a + S16.size a ≤ S8192.size a
  inb_S8192_S16_640 : ∀ a, (![640] : Fin 1 → Nat) a + S16.size a ≤ S8192.size a
  inb_S8192_S16_656 : ∀ a, (![656] : Fin 1 → Nat) a + S16.size a ≤ S8192.size a
  inb_S8192_S16_672 : ∀ a, (![672] : Fin 1 → Nat) a + S16.size a ≤ S8192.size a
  inb_S8192_S16_688 : ∀ a, (![688] : Fin 1 → Nat) a + S16.size a ≤ S8192.size a
  inb_S8192_S16_704 : ∀ a, (![704] : Fin 1 → Nat) a + S16.size a ≤ S8192.size a
  inb_S8192_S16_720 : ∀ a, (![720] : Fin 1 → Nat) a + S16.size a ≤ S8192.size a
  inb_S8192_S16_736 : ∀ a, (![736] : Fin 1 → Nat) a + S16.size a ≤ S8192.size a
  inb_S8192_S16_752 : ∀ a, (![752] : Fin 1 → Nat) a + S16.size a ≤ S8192.size a
  inb_S8192_S16_768 : ∀ a, (![768] : Fin 1 → Nat) a + S16.size a ≤ S8192.size a
  inb_S8192_S16_784 : ∀ a, (![784] : Fin 1 → Nat) a + S16.size a ≤ S8192.size a
  inb_S8192_S16_800 : ∀ a, (![800] : Fin 1 → Nat) a + S16.size a ≤ S8192.size a
  inb_S8192_S16_816 : ∀ a, (![816] : Fin 1 → Nat) a + S16.size a ≤ S8192.size a
  inb_S8192_S16_832 : ∀ a, (![832] : Fin 1 → Nat) a + S16.size a ≤ S8192.size a
  inb_S8192_S16_848 : ∀ a, (![848] : Fin 1 → Nat) a + S16.size a ≤ S8192.size a
  inb_S8192_S16_864 : ∀ a, (![864] : Fin 1 → Nat) a + S16.size a ≤ S8192.size a
  inb_S8192_S16_880 : ∀ a, (![880] : Fin 1 → Nat) a + S16.size a ≤ S8192.size a
  inb_S8192_S16_896 : ∀ a, (![896] : Fin 1 → Nat) a + S16.size a ≤ S8192.size a
  inb_S8192_S16_912 : ∀ a, (![912] : Fin 1 → Nat) a + S16.size a ≤ S8192.size a
  inb_S8192_S16_928 : ∀ a, (![928] : Fin 1 → Nat) a + S16.size a ≤ S8192.size a
  inb_S8192_S16_944 : ∀ a, (![944] : Fin 1 → Nat) a + S16.size a ≤ S8192.size a
  inb_S8192_S16_960 : ∀ a, (![960] : Fin 1 → Nat) a + S16.size a ≤ S8192.size a
  inb_S8192_S16_976 : ∀ a, (![976] : Fin 1 → Nat) a + S16.size a ≤ S8192.size a
  inb_S8192_S16_992 : ∀ a, (![992] : Fin 1 → Nat) a + S16.size a ≤ S8192.size a
  inb_S8192_S16_1008 : ∀ a, (![1008] : Fin 1 → Nat) a + S16.size a ≤ S8192.size a
  inb_S8192_S16_1024 : ∀ a, (![1024] : Fin 1 → Nat) a + S16.size a ≤ S8192.size a
  inb_S8192_S16_1040 : ∀ a, (![1040] : Fin 1 → Nat) a + S16.size a ≤ S8192.size a
  inb_S8192_S16_1056 : ∀ a, (![1056] : Fin 1 → Nat) a + S16.size a ≤ S8192.size a
  inb_S8192_S16_1072 : ∀ a, (![1072] : Fin 1 → Nat) a + S16.size a ≤ S8192.size a
  inb_S8192_S16_1088 : ∀ a, (![1088] : Fin 1 → Nat) a + S16.size a ≤ S8192.size a
  inb_S8192_S16_1104 : ∀ a, (![1104] : Fin 1 → Nat) a + S16.size a ≤ S8192.size a
  inb_S8192_S16_1120 : ∀ a, (![1120] : Fin 1 → Nat) a + S16.size a ≤ S8192.size a
  inb_S8192_S16_1136 : ∀ a, (![1136] : Fin 1 → Nat) a + S16.size a ≤ S8192.size a
  inb_S8192_S16_1152 : ∀ a, (![1152] : Fin 1 → Nat) a + S16.size a ≤ S8192.size a
  inb_S8192_S16_1168 : ∀ a, (![1168] : Fin 1 → Nat) a + S16.size a ≤ S8192.size a
  inb_S8192_S16_1184 : ∀ a, (![1184] : Fin 1 → Nat) a + S16.size a ≤ S8192.size a
  inb_S8192_S16_1200 : ∀ a, (![1200] : Fin 1 → Nat) a + S16.size a ≤ S8192.size a
  inb_S8192_S16_1216 : ∀ a, (![1216] : Fin 1 → Nat) a + S16.size a ≤ S8192.size a
  inb_S8192_S16_1232 : ∀ a, (![1232] : Fin 1 → Nat) a + S16.size a ≤ S8192.size a
  inb_S8192_S16_1248 : ∀ a, (![1248] : Fin 1 → Nat) a + S16.size a ≤ S8192.size a
  inb_S8192_S16_1264 : ∀ a, (![1264] : Fin 1 → Nat) a + S16.size a ≤ S8192.size a
  inb_S8192_S16_1280 : ∀ a, (![1280] : Fin 1 → Nat) a + S16.size a ≤ S8192.size a
  inb_S8192_S16_1296 : ∀ a, (![1296] : Fin 1 → Nat) a + S16.size a ≤ S8192.size a
  inb_S8192_S16_1312 : ∀ a, (![1312] : Fin 1 → Nat) a + S16.size a ≤ S8192.size a
  inb_S8192_S16_1328 : ∀ a, (![1328] : Fin 1 → Nat) a + S16.size a ≤ S8192.size a
  inb_S8192_S16_1344 : ∀ a, (![1344] : Fin 1 → Nat) a + S16.size a ≤ S8192.size a
  inb_S8192_S16_1360 : ∀ a, (![1360] : Fin 1 → Nat) a + S16.size a ≤ S8192.size a
  inb_S8192_S16_1376 : ∀ a, (![1376] : Fin 1 → Nat) a + S16.size a ≤ S8192.size a
  inb_S8192_S16_1392 : ∀ a, (![1392] : Fin 1 → Nat) a + S16.size a ≤ S8192.size a
  inb_S8192_S16_1408 : ∀ a, (![1408] : Fin 1 → Nat) a + S16.size a ≤ S8192.size a
  inb_S8192_S16_1424 : ∀ a, (![1424] : Fin 1 → Nat) a + S16.size a ≤ S8192.size a
  inb_S8192_S16_1440 : ∀ a, (![1440] : Fin 1 → Nat) a + S16.size a ≤ S8192.size a
  inb_S8192_S16_1456 : ∀ a, (![1456] : Fin 1 → Nat) a + S16.size a ≤ S8192.size a
  inb_S8192_S16_1472 : ∀ a, (![1472] : Fin 1 → Nat) a + S16.size a ≤ S8192.size a
  inb_S8192_S16_1488 : ∀ a, (![1488] : Fin 1 → Nat) a + S16.size a ≤ S8192.size a
  inb_S8192_S16_1504 : ∀ a, (![1504] : Fin 1 → Nat) a + S16.size a ≤ S8192.size a
  inb_S8192_S16_1520 : ∀ a, (![1520] : Fin 1 → Nat) a + S16.size a ≤ S8192.size a
  inb_S8192_S16_1536 : ∀ a, (![1536] : Fin 1 → Nat) a + S16.size a ≤ S8192.size a
  inb_S8192_S16_1552 : ∀ a, (![1552] : Fin 1 → Nat) a + S16.size a ≤ S8192.size a
  inb_S8192_S16_1568 : ∀ a, (![1568] : Fin 1 → Nat) a + S16.size a ≤ S8192.size a
  inb_S8192_S16_1584 : ∀ a, (![1584] : Fin 1 → Nat) a + S16.size a ≤ S8192.size a
  inb_S8192_S16_1600 : ∀ a, (![1600] : Fin 1 → Nat) a + S16.size a ≤ S8192.size a
  inb_S8192_S16_1616 : ∀ a, (![1616] : Fin 1 → Nat) a + S16.size a ≤ S8192.size a
  inb_S8192_S16_1632 : ∀ a, (![1632] : Fin 1 → Nat) a + S16.size a ≤ S8192.size a
  inb_S8192_S16_1648 : ∀ a, (![1648] : Fin 1 → Nat) a + S16.size a ≤ S8192.size a
  inb_S8192_S16_1664 : ∀ a, (![1664] : Fin 1 → Nat) a + S16.size a ≤ S8192.size a
  inb_S8192_S16_1680 : ∀ a, (![1680] : Fin 1 → Nat) a + S16.size a ≤ S8192.size a
  inb_S8192_S16_1696 : ∀ a, (![1696] : Fin 1 → Nat) a + S16.size a ≤ S8192.size a
  inb_S8192_S16_1712 : ∀ a, (![1712] : Fin 1 → Nat) a + S16.size a ≤ S8192.size a
  inb_S8192_S16_1728 : ∀ a, (![1728] : Fin 1 → Nat) a + S16.size a ≤ S8192.size a
  inb_S8192_S16_1744 : ∀ a, (![1744] : Fin 1 → Nat) a + S16.size a ≤ S8192.size a
  inb_S8192_S16_1760 : ∀ a, (![1760] : Fin 1 → Nat) a + S16.size a ≤ S8192.size a
  inb_S8192_S16_1776 : ∀ a, (![1776] : Fin 1 → Nat) a + S16.size a ≤ S8192.size a
  inb_S8192_S16_1792 : ∀ a, (![1792] : Fin 1 → Nat) a + S16.size a ≤ S8192.size a
  inb_S8192_S16_1808 : ∀ a, (![1808] : Fin 1 → Nat) a + S16.size a ≤ S8192.size a
  inb_S8192_S16_1824 : ∀ a, (![1824] : Fin 1 → Nat) a + S16.size a ≤ S8192.size a
  inb_S8192_S16_1840 : ∀ a, (![1840] : Fin 1 → Nat) a + S16.size a ≤ S8192.size a
  inb_S8192_S16_1856 : ∀ a, (![1856] : Fin 1 → Nat) a + S16.size a ≤ S8192.size a
  inb_S8192_S16_1872 : ∀ a, (![1872] : Fin 1 → Nat) a + S16.size a ≤ S8192.size a
  inb_S8192_S16_1888 : ∀ a, (![1888] : Fin 1 → Nat) a + S16.size a ≤ S8192.size a
  inb_S8192_S16_1904 : ∀ a, (![1904] : Fin 1 → Nat) a + S16.size a ≤ S8192.size a
  inb_S8192_S16_1920 : ∀ a, (![1920] : Fin 1 → Nat) a + S16.size a ≤ S8192.size a
  inb_S8192_S16_1936 : ∀ a, (![1936] : Fin 1 → Nat) a + S16.size a ≤ S8192.size a
  inb_S8192_S16_1952 : ∀ a, (![1952] : Fin 1 → Nat) a + S16.size a ≤ S8192.size a
  inb_S8192_S16_1968 : ∀ a, (![1968] : Fin 1 → Nat) a + S16.size a ≤ S8192.size a
  inb_S8192_S16_1984 : ∀ a, (![1984] : Fin 1 → Nat) a + S16.size a ≤ S8192.size a
  inb_S8192_S16_2000 : ∀ a, (![2000] : Fin 1 → Nat) a + S16.size a ≤ S8192.size a
  inb_S8192_S16_2016 : ∀ a, (![2016] : Fin 1 → Nat) a + S16.size a ≤ S8192.size a
  inb_S8192_S16_2032 : ∀ a, (![2032] : Fin 1 → Nat) a + S16.size a ≤ S8192.size a
  inb_S8192_S16_2048 : ∀ a, (![2048] : Fin 1 → Nat) a + S16.size a ≤ S8192.size a
  inb_S8192_S16_2064 : ∀ a, (![2064] : Fin 1 → Nat) a + S16.size a ≤ S8192.size a
  inb_S8192_S16_2080 : ∀ a, (![2080] : Fin 1 → Nat) a + S16.size a ≤ S8192.size a
  inb_S8192_S16_2096 : ∀ a, (![2096] : Fin 1 → Nat) a + S16.size a ≤ S8192.size a
  inb_S8192_S16_2112 : ∀ a, (![2112] : Fin 1 → Nat) a + S16.size a ≤ S8192.size a
  inb_S8192_S16_2128 : ∀ a, (![2128] : Fin 1 → Nat) a + S16.size a ≤ S8192.size a
  inb_S8192_S16_2144 : ∀ a, (![2144] : Fin 1 → Nat) a + S16.size a ≤ S8192.size a
  inb_S8192_S16_2160 : ∀ a, (![2160] : Fin 1 → Nat) a + S16.size a ≤ S8192.size a
  inb_S8192_S16_2176 : ∀ a, (![2176] : Fin 1 → Nat) a + S16.size a ≤ S8192.size a
  inb_S8192_S16_2192 : ∀ a, (![2192] : Fin 1 → Nat) a + S16.size a ≤ S8192.size a
  inb_S8192_S16_2208 : ∀ a, (![2208] : Fin 1 → Nat) a + S16.size a ≤ S8192.size a
  inb_S8192_S16_2224 : ∀ a, (![2224] : Fin 1 → Nat) a + S16.size a ≤ S8192.size a
  inb_S8192_S16_2240 : ∀ a, (![2240] : Fin 1 → Nat) a + S16.size a ≤ S8192.size a
  inb_S8192_S16_2256 : ∀ a, (![2256] : Fin 1 → Nat) a + S16.size a ≤ S8192.size a
  inb_S8192_S16_2272 : ∀ a, (![2272] : Fin 1 → Nat) a + S16.size a ≤ S8192.size a
  inb_S8192_S16_2288 : ∀ a, (![2288] : Fin 1 → Nat) a + S16.size a ≤ S8192.size a
  inb_S8192_S16_2304 : ∀ a, (![2304] : Fin 1 → Nat) a + S16.size a ≤ S8192.size a
  inb_S8192_S16_2320 : ∀ a, (![2320] : Fin 1 → Nat) a + S16.size a ≤ S8192.size a
  inb_S8192_S16_2336 : ∀ a, (![2336] : Fin 1 → Nat) a + S16.size a ≤ S8192.size a
  inb_S8192_S16_2352 : ∀ a, (![2352] : Fin 1 → Nat) a + S16.size a ≤ S8192.size a
  inb_S8192_S16_2368 : ∀ a, (![2368] : Fin 1 → Nat) a + S16.size a ≤ S8192.size a
  inb_S8192_S16_2384 : ∀ a, (![2384] : Fin 1 → Nat) a + S16.size a ≤ S8192.size a
  inb_S8192_S16_2400 : ∀ a, (![2400] : Fin 1 → Nat) a + S16.size a ≤ S8192.size a
  inb_S8192_S16_2416 : ∀ a, (![2416] : Fin 1 → Nat) a + S16.size a ≤ S8192.size a
  inb_S8192_S16_2432 : ∀ a, (![2432] : Fin 1 → Nat) a + S16.size a ≤ S8192.size a
  inb_S8192_S16_2448 : ∀ a, (![2448] : Fin 1 → Nat) a + S16.size a ≤ S8192.size a
  inb_S8192_S16_2464 : ∀ a, (![2464] : Fin 1 → Nat) a + S16.size a ≤ S8192.size a
  inb_S8192_S16_2480 : ∀ a, (![2480] : Fin 1 → Nat) a + S16.size a ≤ S8192.size a
  inb_S8192_S16_2496 : ∀ a, (![2496] : Fin 1 → Nat) a + S16.size a ≤ S8192.size a
  inb_S8192_S16_2512 : ∀ a, (![2512] : Fin 1 → Nat) a + S16.size a ≤ S8192.size a
  inb_S8192_S16_2528 : ∀ a, (![2528] : Fin 1 → Nat) a + S16.size a ≤ S8192.size a
  inb_S8192_S16_2544 : ∀ a, (![2544] : Fin 1 → Nat) a + S16.size a ≤ S8192.size a
  inb_S8192_S16_2560 : ∀ a, (![2560] : Fin 1 → Nat) a + S16.size a ≤ S8192.size a
  inb_S8192_S16_2576 : ∀ a, (![2576] : Fin 1 → Nat) a + S16.size a ≤ S8192.size a
  inb_S8192_S16_2592 : ∀ a, (![2592] : Fin 1 → Nat) a + S16.size a ≤ S8192.size a
  inb_S8192_S16_2608 : ∀ a, (![2608] : Fin 1 → Nat) a + S16.size a ≤ S8192.size a
  inb_S8192_S16_2624 : ∀ a, (![2624] : Fin 1 → Nat) a + S16.size a ≤ S8192.size a
  inb_S8192_S16_2640 : ∀ a, (![2640] : Fin 1 → Nat) a + S16.size a ≤ S8192.size a
  inb_S8192_S16_2656 : ∀ a, (![2656] : Fin 1 → Nat) a + S16.size a ≤ S8192.size a
  inb_S8192_S16_2672 : ∀ a, (![2672] : Fin 1 → Nat) a + S16.size a ≤ S8192.size a
  inb_S8192_S16_2688 : ∀ a, (![2688] : Fin 1 → Nat) a + S16.size a ≤ S8192.size a
  inb_S8192_S16_2704 : ∀ a, (![2704] : Fin 1 → Nat) a + S16.size a ≤ S8192.size a
  inb_S8192_S16_2720 : ∀ a, (![2720] : Fin 1 → Nat) a + S16.size a ≤ S8192.size a
  inb_S8192_S16_2736 : ∀ a, (![2736] : Fin 1 → Nat) a + S16.size a ≤ S8192.size a
  inb_S8192_S16_2752 : ∀ a, (![2752] : Fin 1 → Nat) a + S16.size a ≤ S8192.size a
  inb_S8192_S16_2768 : ∀ a, (![2768] : Fin 1 → Nat) a + S16.size a ≤ S8192.size a
  inb_S8192_S16_2784 : ∀ a, (![2784] : Fin 1 → Nat) a + S16.size a ≤ S8192.size a
  inb_S8192_S16_2800 : ∀ a, (![2800] : Fin 1 → Nat) a + S16.size a ≤ S8192.size a
  inb_S8192_S16_2816 : ∀ a, (![2816] : Fin 1 → Nat) a + S16.size a ≤ S8192.size a
  inb_S8192_S16_2832 : ∀ a, (![2832] : Fin 1 → Nat) a + S16.size a ≤ S8192.size a
  inb_S8192_S16_2848 : ∀ a, (![2848] : Fin 1 → Nat) a + S16.size a ≤ S8192.size a
  inb_S8192_S16_2864 : ∀ a, (![2864] : Fin 1 → Nat) a + S16.size a ≤ S8192.size a
  inb_S8192_S16_2880 : ∀ a, (![2880] : Fin 1 → Nat) a + S16.size a ≤ S8192.size a
  inb_S8192_S16_2896 : ∀ a, (![2896] : Fin 1 → Nat) a + S16.size a ≤ S8192.size a
  inb_S8192_S16_2912 : ∀ a, (![2912] : Fin 1 → Nat) a + S16.size a ≤ S8192.size a
  inb_S8192_S16_2928 : ∀ a, (![2928] : Fin 1 → Nat) a + S16.size a ≤ S8192.size a
  inb_S8192_S16_2944 : ∀ a, (![2944] : Fin 1 → Nat) a + S16.size a ≤ S8192.size a
  inb_S8192_S16_2960 : ∀ a, (![2960] : Fin 1 → Nat) a + S16.size a ≤ S8192.size a
  inb_S8192_S16_2976 : ∀ a, (![2976] : Fin 1 → Nat) a + S16.size a ≤ S8192.size a
  inb_S8192_S16_2992 : ∀ a, (![2992] : Fin 1 → Nat) a + S16.size a ≤ S8192.size a
  inb_S8192_S16_3008 : ∀ a, (![3008] : Fin 1 → Nat) a + S16.size a ≤ S8192.size a
  inb_S8192_S16_3024 : ∀ a, (![3024] : Fin 1 → Nat) a + S16.size a ≤ S8192.size a
  inb_S8192_S16_3040 : ∀ a, (![3040] : Fin 1 → Nat) a + S16.size a ≤ S8192.size a
  inb_S8192_S16_3056 : ∀ a, (![3056] : Fin 1 → Nat) a + S16.size a ≤ S8192.size a
  inb_S8192_S16_3072 : ∀ a, (![3072] : Fin 1 → Nat) a + S16.size a ≤ S8192.size a
  inb_S8192_S16_3088 : ∀ a, (![3088] : Fin 1 → Nat) a + S16.size a ≤ S8192.size a
  inb_S8192_S16_3104 : ∀ a, (![3104] : Fin 1 → Nat) a + S16.size a ≤ S8192.size a
  inb_S8192_S16_3120 : ∀ a, (![3120] : Fin 1 → Nat) a + S16.size a ≤ S8192.size a
  inb_S8192_S16_3136 : ∀ a, (![3136] : Fin 1 → Nat) a + S16.size a ≤ S8192.size a
  inb_S8192_S16_3152 : ∀ a, (![3152] : Fin 1 → Nat) a + S16.size a ≤ S8192.size a
  inb_S8192_S16_3168 : ∀ a, (![3168] : Fin 1 → Nat) a + S16.size a ≤ S8192.size a
  inb_S8192_S16_3184 : ∀ a, (![3184] : Fin 1 → Nat) a + S16.size a ≤ S8192.size a
  inb_S8192_S16_3200 : ∀ a, (![3200] : Fin 1 → Nat) a + S16.size a ≤ S8192.size a
  inb_S8192_S16_3216 : ∀ a, (![3216] : Fin 1 → Nat) a + S16.size a ≤ S8192.size a
  inb_S8192_S16_3232 : ∀ a, (![3232] : Fin 1 → Nat) a + S16.size a ≤ S8192.size a
  inb_S8192_S16_3248 : ∀ a, (![3248] : Fin 1 → Nat) a + S16.size a ≤ S8192.size a
  inb_S8192_S16_3264 : ∀ a, (![3264] : Fin 1 → Nat) a + S16.size a ≤ S8192.size a
  inb_S8192_S16_3280 : ∀ a, (![3280] : Fin 1 → Nat) a + S16.size a ≤ S8192.size a
  inb_S8192_S16_3296 : ∀ a, (![3296] : Fin 1 → Nat) a + S16.size a ≤ S8192.size a
  inb_S8192_S16_3312 : ∀ a, (![3312] : Fin 1 → Nat) a + S16.size a ≤ S8192.size a
  inb_S8192_S16_3328 : ∀ a, (![3328] : Fin 1 → Nat) a + S16.size a ≤ S8192.size a
  inb_S8192_S16_3344 : ∀ a, (![3344] : Fin 1 → Nat) a + S16.size a ≤ S8192.size a
  inb_S8192_S16_3360 : ∀ a, (![3360] : Fin 1 → Nat) a + S16.size a ≤ S8192.size a
  inb_S8192_S16_3376 : ∀ a, (![3376] : Fin 1 → Nat) a + S16.size a ≤ S8192.size a
  inb_S8192_S16_3392 : ∀ a, (![3392] : Fin 1 → Nat) a + S16.size a ≤ S8192.size a
  inb_S8192_S16_3408 : ∀ a, (![3408] : Fin 1 → Nat) a + S16.size a ≤ S8192.size a
  inb_S8192_S16_3424 : ∀ a, (![3424] : Fin 1 → Nat) a + S16.size a ≤ S8192.size a
  inb_S8192_S16_3440 : ∀ a, (![3440] : Fin 1 → Nat) a + S16.size a ≤ S8192.size a
  inb_S8192_S16_3456 : ∀ a, (![3456] : Fin 1 → Nat) a + S16.size a ≤ S8192.size a
  inb_S8192_S16_3472 : ∀ a, (![3472] : Fin 1 → Nat) a + S16.size a ≤ S8192.size a
  inb_S8192_S16_3488 : ∀ a, (![3488] : Fin 1 → Nat) a + S16.size a ≤ S8192.size a
  inb_S8192_S16_3504 : ∀ a, (![3504] : Fin 1 → Nat) a + S16.size a ≤ S8192.size a
  inb_S8192_S16_3520 : ∀ a, (![3520] : Fin 1 → Nat) a + S16.size a ≤ S8192.size a
  inb_S8192_S16_3536 : ∀ a, (![3536] : Fin 1 → Nat) a + S16.size a ≤ S8192.size a
  inb_S8192_S16_3552 : ∀ a, (![3552] : Fin 1 → Nat) a + S16.size a ≤ S8192.size a
  inb_S8192_S16_3568 : ∀ a, (![3568] : Fin 1 → Nat) a + S16.size a ≤ S8192.size a
  inb_S8192_S16_3584 : ∀ a, (![3584] : Fin 1 → Nat) a + S16.size a ≤ S8192.size a
  inb_S8192_S16_3600 : ∀ a, (![3600] : Fin 1 → Nat) a + S16.size a ≤ S8192.size a
  inb_S8192_S16_3616 : ∀ a, (![3616] : Fin 1 → Nat) a + S16.size a ≤ S8192.size a
  inb_S8192_S16_3632 : ∀ a, (![3632] : Fin 1 → Nat) a + S16.size a ≤ S8192.size a
  inb_S8192_S16_3648 : ∀ a, (![3648] : Fin 1 → Nat) a + S16.size a ≤ S8192.size a
  inb_S8192_S16_3664 : ∀ a, (![3664] : Fin 1 → Nat) a + S16.size a ≤ S8192.size a
  inb_S8192_S16_3680 : ∀ a, (![3680] : Fin 1 → Nat) a + S16.size a ≤ S8192.size a
  inb_S8192_S16_3696 : ∀ a, (![3696] : Fin 1 → Nat) a + S16.size a ≤ S8192.size a
  inb_S8192_S16_3712 : ∀ a, (![3712] : Fin 1 → Nat) a + S16.size a ≤ S8192.size a
  inb_S8192_S16_3728 : ∀ a, (![3728] : Fin 1 → Nat) a + S16.size a ≤ S8192.size a
  inb_S8192_S16_3744 : ∀ a, (![3744] : Fin 1 → Nat) a + S16.size a ≤ S8192.size a
  inb_S8192_S16_3760 : ∀ a, (![3760] : Fin 1 → Nat) a + S16.size a ≤ S8192.size a
  inb_S8192_S16_3776 : ∀ a, (![3776] : Fin 1 → Nat) a + S16.size a ≤ S8192.size a
  inb_S8192_S16_3792 : ∀ a, (![3792] : Fin 1 → Nat) a + S16.size a ≤ S8192.size a
  inb_S8192_S16_3808 : ∀ a, (![3808] : Fin 1 → Nat) a + S16.size a ≤ S8192.size a
  inb_S8192_S16_3824 : ∀ a, (![3824] : Fin 1 → Nat) a + S16.size a ≤ S8192.size a
  inb_S8192_S16_3840 : ∀ a, (![3840] : Fin 1 → Nat) a + S16.size a ≤ S8192.size a
  inb_S8192_S16_3856 : ∀ a, (![3856] : Fin 1 → Nat) a + S16.size a ≤ S8192.size a
  inb_S8192_S16_3872 : ∀ a, (![3872] : Fin 1 → Nat) a + S16.size a ≤ S8192.size a
  inb_S8192_S16_3888 : ∀ a, (![3888] : Fin 1 → Nat) a + S16.size a ≤ S8192.size a
  inb_S8192_S16_3904 : ∀ a, (![3904] : Fin 1 → Nat) a + S16.size a ≤ S8192.size a
  inb_S8192_S16_3920 : ∀ a, (![3920] : Fin 1 → Nat) a + S16.size a ≤ S8192.size a
  inb_S8192_S16_3936 : ∀ a, (![3936] : Fin 1 → Nat) a + S16.size a ≤ S8192.size a
  inb_S8192_S16_3952 : ∀ a, (![3952] : Fin 1 → Nat) a + S16.size a ≤ S8192.size a
  inb_S8192_S16_3968 : ∀ a, (![3968] : Fin 1 → Nat) a + S16.size a ≤ S8192.size a
  inb_S8192_S16_3984 : ∀ a, (![3984] : Fin 1 → Nat) a + S16.size a ≤ S8192.size a
  inb_S8192_S16_4000 : ∀ a, (![4000] : Fin 1 → Nat) a + S16.size a ≤ S8192.size a
  inb_S8192_S16_4016 : ∀ a, (![4016] : Fin 1 → Nat) a + S16.size a ≤ S8192.size a
  inb_S8192_S16_4032 : ∀ a, (![4032] : Fin 1 → Nat) a + S16.size a ≤ S8192.size a
  inb_S8192_S16_4048 : ∀ a, (![4048] : Fin 1 → Nat) a + S16.size a ≤ S8192.size a
  inb_S8192_S16_4064 : ∀ a, (![4064] : Fin 1 → Nat) a + S16.size a ≤ S8192.size a
  inb_S8192_S16_4080 : ∀ a, (![4080] : Fin 1 → Nat) a + S16.size a ≤ S8192.size a
  inb_S8192_S16_4096 : ∀ a, (![4096] : Fin 1 → Nat) a + S16.size a ≤ S8192.size a
  inb_S8192_S16_4112 : ∀ a, (![4112] : Fin 1 → Nat) a + S16.size a ≤ S8192.size a
  inb_S8192_S16_4128 : ∀ a, (![4128] : Fin 1 → Nat) a + S16.size a ≤ S8192.size a
  inb_S8192_S16_4144 : ∀ a, (![4144] : Fin 1 → Nat) a + S16.size a ≤ S8192.size a
  inb_S8192_S16_4160 : ∀ a, (![4160] : Fin 1 → Nat) a + S16.size a ≤ S8192.size a
  inb_S8192_S16_4176 : ∀ a, (![4176] : Fin 1 → Nat) a + S16.size a ≤ S8192.size a
  inb_S8192_S16_4192 : ∀ a, (![4192] : Fin 1 → Nat) a + S16.size a ≤ S8192.size a
  inb_S8192_S16_4208 : ∀ a, (![4208] : Fin 1 → Nat) a + S16.size a ≤ S8192.size a
  inb_S8192_S16_4224 : ∀ a, (![4224] : Fin 1 → Nat) a + S16.size a ≤ S8192.size a
  inb_S8192_S16_4240 : ∀ a, (![4240] : Fin 1 → Nat) a + S16.size a ≤ S8192.size a
  inb_S8192_S16_4256 : ∀ a, (![4256] : Fin 1 → Nat) a + S16.size a ≤ S8192.size a
  inb_S8192_S16_4272 : ∀ a, (![4272] : Fin 1 → Nat) a + S16.size a ≤ S8192.size a
  inb_S8192_S16_4288 : ∀ a, (![4288] : Fin 1 → Nat) a + S16.size a ≤ S8192.size a
  inb_S8192_S16_4304 : ∀ a, (![4304] : Fin 1 → Nat) a + S16.size a ≤ S8192.size a
  inb_S8192_S16_4320 : ∀ a, (![4320] : Fin 1 → Nat) a + S16.size a ≤ S8192.size a
  inb_S8192_S16_4336 : ∀ a, (![4336] : Fin 1 → Nat) a + S16.size a ≤ S8192.size a
  inb_S8192_S16_4352 : ∀ a, (![4352] : Fin 1 → Nat) a + S16.size a ≤ S8192.size a
  inb_S8192_S16_4368 : ∀ a, (![4368] : Fin 1 → Nat) a + S16.size a ≤ S8192.size a
  inb_S8192_S16_4384 : ∀ a, (![4384] : Fin 1 → Nat) a + S16.size a ≤ S8192.size a
  inb_S8192_S16_4400 : ∀ a, (![4400] : Fin 1 → Nat) a + S16.size a ≤ S8192.size a
  inb_S8192_S16_4416 : ∀ a, (![4416] : Fin 1 → Nat) a + S16.size a ≤ S8192.size a
  inb_S8192_S16_4432 : ∀ a, (![4432] : Fin 1 → Nat) a + S16.size a ≤ S8192.size a
  inb_S8192_S16_4448 : ∀ a, (![4448] : Fin 1 → Nat) a + S16.size a ≤ S8192.size a
  inb_S8192_S16_4464 : ∀ a, (![4464] : Fin 1 → Nat) a + S16.size a ≤ S8192.size a
  inb_S8192_S16_4480 : ∀ a, (![4480] : Fin 1 → Nat) a + S16.size a ≤ S8192.size a
  inb_S8192_S16_4496 : ∀ a, (![4496] : Fin 1 → Nat) a + S16.size a ≤ S8192.size a
  inb_S8192_S16_4512 : ∀ a, (![4512] : Fin 1 → Nat) a + S16.size a ≤ S8192.size a
  inb_S8192_S16_4528 : ∀ a, (![4528] : Fin 1 → Nat) a + S16.size a ≤ S8192.size a
  inb_S8192_S16_4544 : ∀ a, (![4544] : Fin 1 → Nat) a + S16.size a ≤ S8192.size a
  inb_S8192_S16_4560 : ∀ a, (![4560] : Fin 1 → Nat) a + S16.size a ≤ S8192.size a
  inb_S8192_S16_4576 : ∀ a, (![4576] : Fin 1 → Nat) a + S16.size a ≤ S8192.size a
  inb_S8192_S16_4592 : ∀ a, (![4592] : Fin 1 → Nat) a + S16.size a ≤ S8192.size a
  inb_S8192_S16_4608 : ∀ a, (![4608] : Fin 1 → Nat) a + S16.size a ≤ S8192.size a
  inb_S8192_S16_4624 : ∀ a, (![4624] : Fin 1 → Nat) a + S16.size a ≤ S8192.size a
  inb_S8192_S16_4640 : ∀ a, (![4640] : Fin 1 → Nat) a + S16.size a ≤ S8192.size a
  inb_S8192_S16_4656 : ∀ a, (![4656] : Fin 1 → Nat) a + S16.size a ≤ S8192.size a
  inb_S8192_S16_4672 : ∀ a, (![4672] : Fin 1 → Nat) a + S16.size a ≤ S8192.size a
  inb_S8192_S16_4688 : ∀ a, (![4688] : Fin 1 → Nat) a + S16.size a ≤ S8192.size a
  inb_S8192_S16_4704 : ∀ a, (![4704] : Fin 1 → Nat) a + S16.size a ≤ S8192.size a
  inb_S8192_S16_4720 : ∀ a, (![4720] : Fin 1 → Nat) a + S16.size a ≤ S8192.size a
  inb_S8192_S16_4736 : ∀ a, (![4736] : Fin 1 → Nat) a + S16.size a ≤ S8192.size a
  inb_S8192_S16_4752 : ∀ a, (![4752] : Fin 1 → Nat) a + S16.size a ≤ S8192.size a
  inb_S8192_S16_4768 : ∀ a, (![4768] : Fin 1 → Nat) a + S16.size a ≤ S8192.size a
  inb_S8192_S16_4784 : ∀ a, (![4784] : Fin 1 → Nat) a + S16.size a ≤ S8192.size a
  inb_S8192_S16_4800 : ∀ a, (![4800] : Fin 1 → Nat) a + S16.size a ≤ S8192.size a
  inb_S8192_S16_4816 : ∀ a, (![4816] : Fin 1 → Nat) a + S16.size a ≤ S8192.size a
  inb_S8192_S16_4832 : ∀ a, (![4832] : Fin 1 → Nat) a + S16.size a ≤ S8192.size a
  inb_S8192_S16_4848 : ∀ a, (![4848] : Fin 1 → Nat) a + S16.size a ≤ S8192.size a
  inb_S8192_S16_4864 : ∀ a, (![4864] : Fin 1 → Nat) a + S16.size a ≤ S8192.size a
  inb_S8192_S16_4880 : ∀ a, (![4880] : Fin 1 → Nat) a + S16.size a ≤ S8192.size a
  inb_S8192_S16_4896 : ∀ a, (![4896] : Fin 1 → Nat) a + S16.size a ≤ S8192.size a
  inb_S8192_S16_4912 : ∀ a, (![4912] : Fin 1 → Nat) a + S16.size a ≤ S8192.size a
  inb_S8192_S16_4928 : ∀ a, (![4928] : Fin 1 → Nat) a + S16.size a ≤ S8192.size a
  inb_S8192_S16_4944 : ∀ a, (![4944] : Fin 1 → Nat) a + S16.size a ≤ S8192.size a
  inb_S8192_S16_4960 : ∀ a, (![4960] : Fin 1 → Nat) a + S16.size a ≤ S8192.size a
  inb_S8192_S16_4976 : ∀ a, (![4976] : Fin 1 → Nat) a + S16.size a ≤ S8192.size a
  inb_S8192_S16_4992 : ∀ a, (![4992] : Fin 1 → Nat) a + S16.size a ≤ S8192.size a
  inb_S8192_S16_5008 : ∀ a, (![5008] : Fin 1 → Nat) a + S16.size a ≤ S8192.size a
  inb_S8192_S16_5024 : ∀ a, (![5024] : Fin 1 → Nat) a + S16.size a ≤ S8192.size a
  inb_S8192_S16_5040 : ∀ a, (![5040] : Fin 1 → Nat) a + S16.size a ≤ S8192.size a
  inb_S8192_S16_5056 : ∀ a, (![5056] : Fin 1 → Nat) a + S16.size a ≤ S8192.size a
  inb_S8192_S16_5072 : ∀ a, (![5072] : Fin 1 → Nat) a + S16.size a ≤ S8192.size a
  inb_S8192_S16_5088 : ∀ a, (![5088] : Fin 1 → Nat) a + S16.size a ≤ S8192.size a
  inb_S8192_S16_5104 : ∀ a, (![5104] : Fin 1 → Nat) a + S16.size a ≤ S8192.size a
  inb_S8192_S16_5120 : ∀ a, (![5120] : Fin 1 → Nat) a + S16.size a ≤ S8192.size a
  inb_S8192_S16_5136 : ∀ a, (![5136] : Fin 1 → Nat) a + S16.size a ≤ S8192.size a
  inb_S8192_S16_5152 : ∀ a, (![5152] : Fin 1 → Nat) a + S16.size a ≤ S8192.size a
  inb_S8192_S16_5168 : ∀ a, (![5168] : Fin 1 → Nat) a + S16.size a ≤ S8192.size a
  inb_S8192_S16_5184 : ∀ a, (![5184] : Fin 1 → Nat) a + S16.size a ≤ S8192.size a
  inb_S8192_S16_5200 : ∀ a, (![5200] : Fin 1 → Nat) a + S16.size a ≤ S8192.size a
  inb_S8192_S16_5216 : ∀ a, (![5216] : Fin 1 → Nat) a + S16.size a ≤ S8192.size a
  inb_S8192_S16_5232 : ∀ a, (![5232] : Fin 1 → Nat) a + S16.size a ≤ S8192.size a
  inb_S8192_S16_5248 : ∀ a, (![5248] : Fin 1 → Nat) a + S16.size a ≤ S8192.size a
  inb_S8192_S16_5264 : ∀ a, (![5264] : Fin 1 → Nat) a + S16.size a ≤ S8192.size a
  inb_S8192_S16_5280 : ∀ a, (![5280] : Fin 1 → Nat) a + S16.size a ≤ S8192.size a
  inb_S8192_S16_5296 : ∀ a, (![5296] : Fin 1 → Nat) a + S16.size a ≤ S8192.size a
  inb_S8192_S16_5312 : ∀ a, (![5312] : Fin 1 → Nat) a + S16.size a ≤ S8192.size a
  inb_S8192_S16_5328 : ∀ a, (![5328] : Fin 1 → Nat) a + S16.size a ≤ S8192.size a
  inb_S8192_S16_5344 : ∀ a, (![5344] : Fin 1 → Nat) a + S16.size a ≤ S8192.size a
  inb_S8192_S16_5360 : ∀ a, (![5360] : Fin 1 → Nat) a + S16.size a ≤ S8192.size a
  inb_S8192_S16_5376 : ∀ a, (![5376] : Fin 1 → Nat) a + S16.size a ≤ S8192.size a
  inb_S8192_S16_5392 : ∀ a, (![5392] : Fin 1 → Nat) a + S16.size a ≤ S8192.size a
  inb_S8192_S16_5408 : ∀ a, (![5408] : Fin 1 → Nat) a + S16.size a ≤ S8192.size a
  inb_S8192_S16_5424 : ∀ a, (![5424] : Fin 1 → Nat) a + S16.size a ≤ S8192.size a
  inb_S8192_S16_5440 : ∀ a, (![5440] : Fin 1 → Nat) a + S16.size a ≤ S8192.size a
  inb_S8192_S16_5456 : ∀ a, (![5456] : Fin 1 → Nat) a + S16.size a ≤ S8192.size a
  inb_S8192_S16_5472 : ∀ a, (![5472] : Fin 1 → Nat) a + S16.size a ≤ S8192.size a
  inb_S8192_S16_5488 : ∀ a, (![5488] : Fin 1 → Nat) a + S16.size a ≤ S8192.size a
  inb_S8192_S16_5504 : ∀ a, (![5504] : Fin 1 → Nat) a + S16.size a ≤ S8192.size a
  inb_S8192_S16_5520 : ∀ a, (![5520] : Fin 1 → Nat) a + S16.size a ≤ S8192.size a
  inb_S8192_S16_5536 : ∀ a, (![5536] : Fin 1 → Nat) a + S16.size a ≤ S8192.size a
  inb_S8192_S16_5552 : ∀ a, (![5552] : Fin 1 → Nat) a + S16.size a ≤ S8192.size a
  inb_S8192_S16_5568 : ∀ a, (![5568] : Fin 1 → Nat) a + S16.size a ≤ S8192.size a
  inb_S8192_S16_5584 : ∀ a, (![5584] : Fin 1 → Nat) a + S16.size a ≤ S8192.size a
  inb_S8192_S16_5600 : ∀ a, (![5600] : Fin 1 → Nat) a + S16.size a ≤ S8192.size a
  inb_S8192_S16_5616 : ∀ a, (![5616] : Fin 1 → Nat) a + S16.size a ≤ S8192.size a
  inb_S8192_S16_5632 : ∀ a, (![5632] : Fin 1 → Nat) a + S16.size a ≤ S8192.size a
  inb_S8192_S16_5648 : ∀ a, (![5648] : Fin 1 → Nat) a + S16.size a ≤ S8192.size a
  inb_S8192_S16_5664 : ∀ a, (![5664] : Fin 1 → Nat) a + S16.size a ≤ S8192.size a
  inb_S8192_S16_5680 : ∀ a, (![5680] : Fin 1 → Nat) a + S16.size a ≤ S8192.size a
  inb_S8192_S16_5696 : ∀ a, (![5696] : Fin 1 → Nat) a + S16.size a ≤ S8192.size a
  inb_S8192_S16_5712 : ∀ a, (![5712] : Fin 1 → Nat) a + S16.size a ≤ S8192.size a
  inb_S8192_S16_5728 : ∀ a, (![5728] : Fin 1 → Nat) a + S16.size a ≤ S8192.size a
  inb_S8192_S16_5744 : ∀ a, (![5744] : Fin 1 → Nat) a + S16.size a ≤ S8192.size a
  inb_S8192_S16_5760 : ∀ a, (![5760] : Fin 1 → Nat) a + S16.size a ≤ S8192.size a
  inb_S8192_S16_5776 : ∀ a, (![5776] : Fin 1 → Nat) a + S16.size a ≤ S8192.size a
  inb_S8192_S16_5792 : ∀ a, (![5792] : Fin 1 → Nat) a + S16.size a ≤ S8192.size a
  inb_S8192_S16_5808 : ∀ a, (![5808] : Fin 1 → Nat) a + S16.size a ≤ S8192.size a
  inb_S8192_S16_5824 : ∀ a, (![5824] : Fin 1 → Nat) a + S16.size a ≤ S8192.size a
  inb_S8192_S16_5840 : ∀ a, (![5840] : Fin 1 → Nat) a + S16.size a ≤ S8192.size a
  inb_S8192_S16_5856 : ∀ a, (![5856] : Fin 1 → Nat) a + S16.size a ≤ S8192.size a
  inb_S8192_S16_5872 : ∀ a, (![5872] : Fin 1 → Nat) a + S16.size a ≤ S8192.size a
  inb_S8192_S16_5888 : ∀ a, (![5888] : Fin 1 → Nat) a + S16.size a ≤ S8192.size a
  inb_S8192_S16_5904 : ∀ a, (![5904] : Fin 1 → Nat) a + S16.size a ≤ S8192.size a
  inb_S8192_S16_5920 : ∀ a, (![5920] : Fin 1 → Nat) a + S16.size a ≤ S8192.size a
  inb_S8192_S16_5936 : ∀ a, (![5936] : Fin 1 → Nat) a + S16.size a ≤ S8192.size a
  inb_S8192_S16_5952 : ∀ a, (![5952] : Fin 1 → Nat) a + S16.size a ≤ S8192.size a
  inb_S8192_S16_5968 : ∀ a, (![5968] : Fin 1 → Nat) a + S16.size a ≤ S8192.size a
  inb_S8192_S16_5984 : ∀ a, (![5984] : Fin 1 → Nat) a + S16.size a ≤ S8192.size a
  inb_S8192_S16_6000 : ∀ a, (![6000] : Fin 1 → Nat) a + S16.size a ≤ S8192.size a
  inb_S8192_S16_6016 : ∀ a, (![6016] : Fin 1 → Nat) a + S16.size a ≤ S8192.size a
  inb_S8192_S16_6032 : ∀ a, (![6032] : Fin 1 → Nat) a + S16.size a ≤ S8192.size a
  inb_S8192_S16_6048 : ∀ a, (![6048] : Fin 1 → Nat) a + S16.size a ≤ S8192.size a
  inb_S8192_S16_6064 : ∀ a, (![6064] : Fin 1 → Nat) a + S16.size a ≤ S8192.size a
  inb_S8192_S16_6080 : ∀ a, (![6080] : Fin 1 → Nat) a + S16.size a ≤ S8192.size a
  inb_S8192_S16_6096 : ∀ a, (![6096] : Fin 1 → Nat) a + S16.size a ≤ S8192.size a
  inb_S8192_S16_6112 : ∀ a, (![6112] : Fin 1 → Nat) a + S16.size a ≤ S8192.size a
  inb_S8192_S16_6128 : ∀ a, (![6128] : Fin 1 → Nat) a + S16.size a ≤ S8192.size a
  inb_S8192_S16_6144 : ∀ a, (![6144] : Fin 1 → Nat) a + S16.size a ≤ S8192.size a
  inb_S8192_S16_6160 : ∀ a, (![6160] : Fin 1 → Nat) a + S16.size a ≤ S8192.size a
  inb_S8192_S16_6176 : ∀ a, (![6176] : Fin 1 → Nat) a + S16.size a ≤ S8192.size a
  inb_S8192_S16_6192 : ∀ a, (![6192] : Fin 1 → Nat) a + S16.size a ≤ S8192.size a
  inb_S8192_S16_6208 : ∀ a, (![6208] : Fin 1 → Nat) a + S16.size a ≤ S8192.size a
  inb_S8192_S16_6224 : ∀ a, (![6224] : Fin 1 → Nat) a + S16.size a ≤ S8192.size a
  inb_S8192_S16_6240 : ∀ a, (![6240] : Fin 1 → Nat) a + S16.size a ≤ S8192.size a
  inb_S8192_S16_6256 : ∀ a, (![6256] : Fin 1 → Nat) a + S16.size a ≤ S8192.size a
  inb_S8192_S16_6272 : ∀ a, (![6272] : Fin 1 → Nat) a + S16.size a ≤ S8192.size a
  inb_S8192_S16_6288 : ∀ a, (![6288] : Fin 1 → Nat) a + S16.size a ≤ S8192.size a
  inb_S8192_S16_6304 : ∀ a, (![6304] : Fin 1 → Nat) a + S16.size a ≤ S8192.size a
  inb_S8192_S16_6320 : ∀ a, (![6320] : Fin 1 → Nat) a + S16.size a ≤ S8192.size a
  inb_S8192_S16_6336 : ∀ a, (![6336] : Fin 1 → Nat) a + S16.size a ≤ S8192.size a
  inb_S8192_S16_6352 : ∀ a, (![6352] : Fin 1 → Nat) a + S16.size a ≤ S8192.size a
  inb_S8192_S16_6368 : ∀ a, (![6368] : Fin 1 → Nat) a + S16.size a ≤ S8192.size a
  inb_S8192_S16_6384 : ∀ a, (![6384] : Fin 1 → Nat) a + S16.size a ≤ S8192.size a
  inb_S8192_S16_6400 : ∀ a, (![6400] : Fin 1 → Nat) a + S16.size a ≤ S8192.size a
  inb_S8192_S16_6416 : ∀ a, (![6416] : Fin 1 → Nat) a + S16.size a ≤ S8192.size a
  inb_S8192_S16_6432 : ∀ a, (![6432] : Fin 1 → Nat) a + S16.size a ≤ S8192.size a
  inb_S8192_S16_6448 : ∀ a, (![6448] : Fin 1 → Nat) a + S16.size a ≤ S8192.size a
  inb_S8192_S16_6464 : ∀ a, (![6464] : Fin 1 → Nat) a + S16.size a ≤ S8192.size a
  inb_S8192_S16_6480 : ∀ a, (![6480] : Fin 1 → Nat) a + S16.size a ≤ S8192.size a
  inb_S8192_S16_6496 : ∀ a, (![6496] : Fin 1 → Nat) a + S16.size a ≤ S8192.size a
  inb_S8192_S16_6512 : ∀ a, (![6512] : Fin 1 → Nat) a + S16.size a ≤ S8192.size a
  inb_S8192_S16_6528 : ∀ a, (![6528] : Fin 1 → Nat) a + S16.size a ≤ S8192.size a
  inb_S8192_S16_6544 : ∀ a, (![6544] : Fin 1 → Nat) a + S16.size a ≤ S8192.size a
  inb_S8192_S16_6560 : ∀ a, (![6560] : Fin 1 → Nat) a + S16.size a ≤ S8192.size a
  inb_S8192_S16_6576 : ∀ a, (![6576] : Fin 1 → Nat) a + S16.size a ≤ S8192.size a
  inb_S8192_S16_6592 : ∀ a, (![6592] : Fin 1 → Nat) a + S16.size a ≤ S8192.size a
  inb_S8192_S16_6608 : ∀ a, (![6608] : Fin 1 → Nat) a + S16.size a ≤ S8192.size a
  inb_S8192_S16_6624 : ∀ a, (![6624] : Fin 1 → Nat) a + S16.size a ≤ S8192.size a
  inb_S8192_S16_6640 : ∀ a, (![6640] : Fin 1 → Nat) a + S16.size a ≤ S8192.size a
  inb_S8192_S16_6656 : ∀ a, (![6656] : Fin 1 → Nat) a + S16.size a ≤ S8192.size a
  inb_S8192_S16_6672 : ∀ a, (![6672] : Fin 1 → Nat) a + S16.size a ≤ S8192.size a
  inb_S8192_S16_6688 : ∀ a, (![6688] : Fin 1 → Nat) a + S16.size a ≤ S8192.size a
  inb_S8192_S16_6704 : ∀ a, (![6704] : Fin 1 → Nat) a + S16.size a ≤ S8192.size a
  inb_S8192_S16_6720 : ∀ a, (![6720] : Fin 1 → Nat) a + S16.size a ≤ S8192.size a
  inb_S8192_S16_6736 : ∀ a, (![6736] : Fin 1 → Nat) a + S16.size a ≤ S8192.size a
  inb_S8192_S16_6752 : ∀ a, (![6752] : Fin 1 → Nat) a + S16.size a ≤ S8192.size a
  inb_S8192_S16_6768 : ∀ a, (![6768] : Fin 1 → Nat) a + S16.size a ≤ S8192.size a
  inb_S8192_S16_6784 : ∀ a, (![6784] : Fin 1 → Nat) a + S16.size a ≤ S8192.size a
  inb_S8192_S16_6800 : ∀ a, (![6800] : Fin 1 → Nat) a + S16.size a ≤ S8192.size a
  inb_S8192_S16_6816 : ∀ a, (![6816] : Fin 1 → Nat) a + S16.size a ≤ S8192.size a
  inb_S8192_S16_6832 : ∀ a, (![6832] : Fin 1 → Nat) a + S16.size a ≤ S8192.size a
  inb_S8192_S16_6848 : ∀ a, (![6848] : Fin 1 → Nat) a + S16.size a ≤ S8192.size a
  inb_S8192_S16_6864 : ∀ a, (![6864] : Fin 1 → Nat) a + S16.size a ≤ S8192.size a
  inb_S8192_S16_6880 : ∀ a, (![6880] : Fin 1 → Nat) a + S16.size a ≤ S8192.size a
  inb_S8192_S16_6896 : ∀ a, (![6896] : Fin 1 → Nat) a + S16.size a ≤ S8192.size a
  inb_S8192_S16_6912 : ∀ a, (![6912] : Fin 1 → Nat) a + S16.size a ≤ S8192.size a
  inb_S8192_S16_6928 : ∀ a, (![6928] : Fin 1 → Nat) a + S16.size a ≤ S8192.size a
  inb_S8192_S16_6944 : ∀ a, (![6944] : Fin 1 → Nat) a + S16.size a ≤ S8192.size a
  inb_S8192_S16_6960 : ∀ a, (![6960] : Fin 1 → Nat) a + S16.size a ≤ S8192.size a
  inb_S8192_S16_6976 : ∀ a, (![6976] : Fin 1 → Nat) a + S16.size a ≤ S8192.size a
  inb_S8192_S16_6992 : ∀ a, (![6992] : Fin 1 → Nat) a + S16.size a ≤ S8192.size a
  inb_S8192_S16_7008 : ∀ a, (![7008] : Fin 1 → Nat) a + S16.size a ≤ S8192.size a
  inb_S8192_S16_7024 : ∀ a, (![7024] : Fin 1 → Nat) a + S16.size a ≤ S8192.size a
  inb_S8192_S16_7040 : ∀ a, (![7040] : Fin 1 → Nat) a + S16.size a ≤ S8192.size a
  inb_S8192_S16_7056 : ∀ a, (![7056] : Fin 1 → Nat) a + S16.size a ≤ S8192.size a
  inb_S8192_S16_7072 : ∀ a, (![7072] : Fin 1 → Nat) a + S16.size a ≤ S8192.size a
  inb_S8192_S16_7088 : ∀ a, (![7088] : Fin 1 → Nat) a + S16.size a ≤ S8192.size a
  inb_S8192_S16_7104 : ∀ a, (![7104] : Fin 1 → Nat) a + S16.size a ≤ S8192.size a
  inb_S8192_S16_7120 : ∀ a, (![7120] : Fin 1 → Nat) a + S16.size a ≤ S8192.size a
  inb_S8192_S16_7136 : ∀ a, (![7136] : Fin 1 → Nat) a + S16.size a ≤ S8192.size a
  inb_S8192_S16_7152 : ∀ a, (![7152] : Fin 1 → Nat) a + S16.size a ≤ S8192.size a
  inb_S8192_S16_7168 : ∀ a, (![7168] : Fin 1 → Nat) a + S16.size a ≤ S8192.size a
  inb_S8192_S16_7184 : ∀ a, (![7184] : Fin 1 → Nat) a + S16.size a ≤ S8192.size a
  inb_S8192_S16_7200 : ∀ a, (![7200] : Fin 1 → Nat) a + S16.size a ≤ S8192.size a
  inb_S8192_S16_7216 : ∀ a, (![7216] : Fin 1 → Nat) a + S16.size a ≤ S8192.size a
  inb_S8192_S16_7232 : ∀ a, (![7232] : Fin 1 → Nat) a + S16.size a ≤ S8192.size a
  inb_S8192_S16_7248 : ∀ a, (![7248] : Fin 1 → Nat) a + S16.size a ≤ S8192.size a
  inb_S8192_S16_7264 : ∀ a, (![7264] : Fin 1 → Nat) a + S16.size a ≤ S8192.size a
  inb_S8192_S16_7280 : ∀ a, (![7280] : Fin 1 → Nat) a + S16.size a ≤ S8192.size a
  inb_S8192_S16_7296 : ∀ a, (![7296] : Fin 1 → Nat) a + S16.size a ≤ S8192.size a
  inb_S8192_S16_7312 : ∀ a, (![7312] : Fin 1 → Nat) a + S16.size a ≤ S8192.size a
  inb_S8192_S16_7328 : ∀ a, (![7328] : Fin 1 → Nat) a + S16.size a ≤ S8192.size a
  inb_S8192_S16_7344 : ∀ a, (![7344] : Fin 1 → Nat) a + S16.size a ≤ S8192.size a
  inb_S8192_S16_7360 : ∀ a, (![7360] : Fin 1 → Nat) a + S16.size a ≤ S8192.size a
  inb_S8192_S16_7376 : ∀ a, (![7376] : Fin 1 → Nat) a + S16.size a ≤ S8192.size a
  inb_S8192_S16_7392 : ∀ a, (![7392] : Fin 1 → Nat) a + S16.size a ≤ S8192.size a
  inb_S8192_S16_7408 : ∀ a, (![7408] : Fin 1 → Nat) a + S16.size a ≤ S8192.size a
  inb_S8192_S16_7424 : ∀ a, (![7424] : Fin 1 → Nat) a + S16.size a ≤ S8192.size a
  inb_S8192_S16_7440 : ∀ a, (![7440] : Fin 1 → Nat) a + S16.size a ≤ S8192.size a
  inb_S8192_S16_7456 : ∀ a, (![7456] : Fin 1 → Nat) a + S16.size a ≤ S8192.size a
  inb_S8192_S16_7472 : ∀ a, (![7472] : Fin 1 → Nat) a + S16.size a ≤ S8192.size a
  inb_S8192_S16_7488 : ∀ a, (![7488] : Fin 1 → Nat) a + S16.size a ≤ S8192.size a
  inb_S8192_S16_7504 : ∀ a, (![7504] : Fin 1 → Nat) a + S16.size a ≤ S8192.size a
  inb_S8192_S16_7520 : ∀ a, (![7520] : Fin 1 → Nat) a + S16.size a ≤ S8192.size a
  inb_S8192_S16_7536 : ∀ a, (![7536] : Fin 1 → Nat) a + S16.size a ≤ S8192.size a
  inb_S8192_S16_7552 : ∀ a, (![7552] : Fin 1 → Nat) a + S16.size a ≤ S8192.size a
  inb_S8192_S16_7568 : ∀ a, (![7568] : Fin 1 → Nat) a + S16.size a ≤ S8192.size a
  inb_S8192_S16_7584 : ∀ a, (![7584] : Fin 1 → Nat) a + S16.size a ≤ S8192.size a
  inb_S8192_S16_7600 : ∀ a, (![7600] : Fin 1 → Nat) a + S16.size a ≤ S8192.size a
  inb_S8192_S16_7616 : ∀ a, (![7616] : Fin 1 → Nat) a + S16.size a ≤ S8192.size a
  inb_S8192_S16_7632 : ∀ a, (![7632] : Fin 1 → Nat) a + S16.size a ≤ S8192.size a
  inb_S8192_S16_7648 : ∀ a, (![7648] : Fin 1 → Nat) a + S16.size a ≤ S8192.size a
  inb_S8192_S16_7664 : ∀ a, (![7664] : Fin 1 → Nat) a + S16.size a ≤ S8192.size a
  inb_S8192_S16_7680 : ∀ a, (![7680] : Fin 1 → Nat) a + S16.size a ≤ S8192.size a
  inb_S8192_S16_7696 : ∀ a, (![7696] : Fin 1 → Nat) a + S16.size a ≤ S8192.size a
  inb_S8192_S16_7712 : ∀ a, (![7712] : Fin 1 → Nat) a + S16.size a ≤ S8192.size a
  inb_S8192_S16_7728 : ∀ a, (![7728] : Fin 1 → Nat) a + S16.size a ≤ S8192.size a
  inb_S8192_S16_7744 : ∀ a, (![7744] : Fin 1 → Nat) a + S16.size a ≤ S8192.size a
  inb_S8192_S16_7760 : ∀ a, (![7760] : Fin 1 → Nat) a + S16.size a ≤ S8192.size a
  inb_S8192_S16_7776 : ∀ a, (![7776] : Fin 1 → Nat) a + S16.size a ≤ S8192.size a
  inb_S8192_S16_7792 : ∀ a, (![7792] : Fin 1 → Nat) a + S16.size a ≤ S8192.size a
  inb_S8192_S16_7808 : ∀ a, (![7808] : Fin 1 → Nat) a + S16.size a ≤ S8192.size a
  inb_S8192_S16_7824 : ∀ a, (![7824] : Fin 1 → Nat) a + S16.size a ≤ S8192.size a
  inb_S8192_S16_7840 : ∀ a, (![7840] : Fin 1 → Nat) a + S16.size a ≤ S8192.size a
  inb_S8192_S16_7856 : ∀ a, (![7856] : Fin 1 → Nat) a + S16.size a ≤ S8192.size a
  inb_S8192_S16_7872 : ∀ a, (![7872] : Fin 1 → Nat) a + S16.size a ≤ S8192.size a
  inb_S8192_S16_7888 : ∀ a, (![7888] : Fin 1 → Nat) a + S16.size a ≤ S8192.size a
  inb_S8192_S16_7904 : ∀ a, (![7904] : Fin 1 → Nat) a + S16.size a ≤ S8192.size a
  inb_S8192_S16_7920 : ∀ a, (![7920] : Fin 1 → Nat) a + S16.size a ≤ S8192.size a
  inb_S8192_S16_7936 : ∀ a, (![7936] : Fin 1 → Nat) a + S16.size a ≤ S8192.size a
  inb_S8192_S16_7952 : ∀ a, (![7952] : Fin 1 → Nat) a + S16.size a ≤ S8192.size a
  inb_S8192_S16_7968 : ∀ a, (![7968] : Fin 1 → Nat) a + S16.size a ≤ S8192.size a
  inb_S8192_S16_7984 : ∀ a, (![7984] : Fin 1 → Nat) a + S16.size a ≤ S8192.size a
  inb_S8192_S16_8000 : ∀ a, (![8000] : Fin 1 → Nat) a + S16.size a ≤ S8192.size a
  inb_S8192_S16_8016 : ∀ a, (![8016] : Fin 1 → Nat) a + S16.size a ≤ S8192.size a
  inb_S8192_S16_8032 : ∀ a, (![8032] : Fin 1 → Nat) a + S16.size a ≤ S8192.size a
  inb_S8192_S16_8048 : ∀ a, (![8048] : Fin 1 → Nat) a + S16.size a ≤ S8192.size a
  inb_S8192_S16_8064 : ∀ a, (![8064] : Fin 1 → Nat) a + S16.size a ≤ S8192.size a
  inb_S8192_S16_8080 : ∀ a, (![8080] : Fin 1 → Nat) a + S16.size a ≤ S8192.size a
  inb_S8192_S16_8096 : ∀ a, (![8096] : Fin 1 → Nat) a + S16.size a ≤ S8192.size a
  inb_S8192_S16_8112 : ∀ a, (![8112] : Fin 1 → Nat) a + S16.size a ≤ S8192.size a
  inb_S8192_S16_8128 : ∀ a, (![8128] : Fin 1 → Nat) a + S16.size a ≤ S8192.size a
  inb_S8192_S16_8144 : ∀ a, (![8144] : Fin 1 → Nat) a + S16.size a ≤ S8192.size a
  inb_S8192_S16_8160 : ∀ a, (![8160] : Fin 1 → Nat) a + S16.size a ≤ S8192.size a
  inb_S8192_S16_8176 : ∀ a, (![8176] : Fin 1 → Nat) a + S16.size a ≤ S8192.size a
  inb_S1024_S16_0 : ∀ a, (![0] : Fin 1 → Nat) a + S16.size a ≤ S1024.size a
  h_S8192 : 0 < S8192.numel
  inb_S1024_S16_16 : ∀ a, (![16] : Fin 1 → Nat) a + S16.size a ≤ S1024.size a
  inb_S1024_S16_32 : ∀ a, (![32] : Fin 1 → Nat) a + S16.size a ≤ S1024.size a
  inb_S1024_S16_48 : ∀ a, (![48] : Fin 1 → Nat) a + S16.size a ≤ S1024.size a
  inb_S1024_S16_64 : ∀ a, (![64] : Fin 1 → Nat) a + S16.size a ≤ S1024.size a
  inb_S1024_S16_80 : ∀ a, (![80] : Fin 1 → Nat) a + S16.size a ≤ S1024.size a
  inb_S1024_S16_96 : ∀ a, (![96] : Fin 1 → Nat) a + S16.size a ≤ S1024.size a
  inb_S1024_S16_112 : ∀ a, (![112] : Fin 1 → Nat) a + S16.size a ≤ S1024.size a
  inb_S1024_S16_128 : ∀ a, (![128] : Fin 1 → Nat) a + S16.size a ≤ S1024.size a
  inb_S1024_S16_144 : ∀ a, (![144] : Fin 1 → Nat) a + S16.size a ≤ S1024.size a
  inb_S1024_S16_160 : ∀ a, (![160] : Fin 1 → Nat) a + S16.size a ≤ S1024.size a
  inb_S1024_S16_176 : ∀ a, (![176] : Fin 1 → Nat) a + S16.size a ≤ S1024.size a
  inb_S1024_S16_192 : ∀ a, (![192] : Fin 1 → Nat) a + S16.size a ≤ S1024.size a
  inb_S1024_S16_208 : ∀ a, (![208] : Fin 1 → Nat) a + S16.size a ≤ S1024.size a
  inb_S1024_S16_224 : ∀ a, (![224] : Fin 1 → Nat) a + S16.size a ≤ S1024.size a
  inb_S1024_S16_240 : ∀ a, (![240] : Fin 1 → Nat) a + S16.size a ≤ S1024.size a
  inb_S1024_S16_256 : ∀ a, (![256] : Fin 1 → Nat) a + S16.size a ≤ S1024.size a
  inb_S1024_S16_272 : ∀ a, (![272] : Fin 1 → Nat) a + S16.size a ≤ S1024.size a
  inb_S1024_S16_288 : ∀ a, (![288] : Fin 1 → Nat) a + S16.size a ≤ S1024.size a
  inb_S1024_S16_304 : ∀ a, (![304] : Fin 1 → Nat) a + S16.size a ≤ S1024.size a
  inb_S1024_S16_320 : ∀ a, (![320] : Fin 1 → Nat) a + S16.size a ≤ S1024.size a
  inb_S1024_S16_336 : ∀ a, (![336] : Fin 1 → Nat) a + S16.size a ≤ S1024.size a
  inb_S1024_S16_352 : ∀ a, (![352] : Fin 1 → Nat) a + S16.size a ≤ S1024.size a
  inb_S1024_S16_368 : ∀ a, (![368] : Fin 1 → Nat) a + S16.size a ≤ S1024.size a
  inb_S1024_S16_384 : ∀ a, (![384] : Fin 1 → Nat) a + S16.size a ≤ S1024.size a
  inb_S1024_S16_400 : ∀ a, (![400] : Fin 1 → Nat) a + S16.size a ≤ S1024.size a
  inb_S1024_S16_416 : ∀ a, (![416] : Fin 1 → Nat) a + S16.size a ≤ S1024.size a
  inb_S1024_S16_432 : ∀ a, (![432] : Fin 1 → Nat) a + S16.size a ≤ S1024.size a
  inb_S1024_S16_448 : ∀ a, (![448] : Fin 1 → Nat) a + S16.size a ≤ S1024.size a
  inb_S1024_S16_464 : ∀ a, (![464] : Fin 1 → Nat) a + S16.size a ≤ S1024.size a
  inb_S1024_S16_480 : ∀ a, (![480] : Fin 1 → Nat) a + S16.size a ≤ S1024.size a
  inb_S1024_S16_496 : ∀ a, (![496] : Fin 1 → Nat) a + S16.size a ≤ S1024.size a
  inb_S1024_S16_512 : ∀ a, (![512] : Fin 1 → Nat) a + S16.size a ≤ S1024.size a
  inb_S1024_S16_528 : ∀ a, (![528] : Fin 1 → Nat) a + S16.size a ≤ S1024.size a
  inb_S1024_S16_544 : ∀ a, (![544] : Fin 1 → Nat) a + S16.size a ≤ S1024.size a
  inb_S1024_S16_560 : ∀ a, (![560] : Fin 1 → Nat) a + S16.size a ≤ S1024.size a
  inb_S1024_S16_576 : ∀ a, (![576] : Fin 1 → Nat) a + S16.size a ≤ S1024.size a
  inb_S1024_S16_592 : ∀ a, (![592] : Fin 1 → Nat) a + S16.size a ≤ S1024.size a
  inb_S1024_S16_608 : ∀ a, (![608] : Fin 1 → Nat) a + S16.size a ≤ S1024.size a
  inb_S1024_S16_624 : ∀ a, (![624] : Fin 1 → Nat) a + S16.size a ≤ S1024.size a
  inb_S1024_S16_640 : ∀ a, (![640] : Fin 1 → Nat) a + S16.size a ≤ S1024.size a
  inb_S1024_S16_656 : ∀ a, (![656] : Fin 1 → Nat) a + S16.size a ≤ S1024.size a
  inb_S1024_S16_672 : ∀ a, (![672] : Fin 1 → Nat) a + S16.size a ≤ S1024.size a
  inb_S1024_S16_688 : ∀ a, (![688] : Fin 1 → Nat) a + S16.size a ≤ S1024.size a
  inb_S1024_S16_704 : ∀ a, (![704] : Fin 1 → Nat) a + S16.size a ≤ S1024.size a
  inb_S1024_S16_720 : ∀ a, (![720] : Fin 1 → Nat) a + S16.size a ≤ S1024.size a
  inb_S1024_S16_736 : ∀ a, (![736] : Fin 1 → Nat) a + S16.size a ≤ S1024.size a
  inb_S1024_S16_752 : ∀ a, (![752] : Fin 1 → Nat) a + S16.size a ≤ S1024.size a
  inb_S1024_S16_768 : ∀ a, (![768] : Fin 1 → Nat) a + S16.size a ≤ S1024.size a
  inb_S1024_S16_784 : ∀ a, (![784] : Fin 1 → Nat) a + S16.size a ≤ S1024.size a
  inb_S1024_S16_800 : ∀ a, (![800] : Fin 1 → Nat) a + S16.size a ≤ S1024.size a
  inb_S1024_S16_816 : ∀ a, (![816] : Fin 1 → Nat) a + S16.size a ≤ S1024.size a
  inb_S1024_S16_832 : ∀ a, (![832] : Fin 1 → Nat) a + S16.size a ≤ S1024.size a
  inb_S1024_S16_848 : ∀ a, (![848] : Fin 1 → Nat) a + S16.size a ≤ S1024.size a
  inb_S1024_S16_864 : ∀ a, (![864] : Fin 1 → Nat) a + S16.size a ≤ S1024.size a
  inb_S1024_S16_880 : ∀ a, (![880] : Fin 1 → Nat) a + S16.size a ≤ S1024.size a
  inb_S1024_S16_896 : ∀ a, (![896] : Fin 1 → Nat) a + S16.size a ≤ S1024.size a
  inb_S1024_S16_912 : ∀ a, (![912] : Fin 1 → Nat) a + S16.size a ≤ S1024.size a
  inb_S1024_S16_928 : ∀ a, (![928] : Fin 1 → Nat) a + S16.size a ≤ S1024.size a
  inb_S1024_S16_944 : ∀ a, (![944] : Fin 1 → Nat) a + S16.size a ≤ S1024.size a
  inb_S1024_S16_960 : ∀ a, (![960] : Fin 1 → Nat) a + S16.size a ≤ S1024.size a
  inb_S1024_S16_976 : ∀ a, (![976] : Fin 1 → Nat) a + S16.size a ≤ S1024.size a
  inb_S1024_S16_992 : ∀ a, (![992] : Fin 1 → Nat) a + S16.size a ≤ S1024.size a
  inb_S1024_S16_1008 : ∀ a, (![1008] : Fin 1 → Nat) a + S16.size a ≤ S1024.size a
  inb_S4x128_S1x16_0_0 : ∀ a, (![0, 0] : Fin 2 → Nat) a + S1x16.size a ≤ S4x128.size a
  h_S1x16 : 0 < S1x16.numel
  shapeCasts_S1x16_S16 : S1x16.ShapeCasts S16
  shapeCasts_S16_S1x16 : S16.ShapeCasts S1x16
  inb_S4x128_S1x16_0_16 : ∀ a, (![0, 16] : Fin 2 → Nat) a + S1x16.size a ≤ S4x128.size a
  inb_S4x128_S1x16_0_32 : ∀ a, (![0, 32] : Fin 2 → Nat) a + S1x16.size a ≤ S4x128.size a
  inb_S4x128_S1x16_0_48 : ∀ a, (![0, 48] : Fin 2 → Nat) a + S1x16.size a ≤ S4x128.size a
  inb_S4x128_S1x16_0_64 : ∀ a, (![0, 64] : Fin 2 → Nat) a + S1x16.size a ≤ S4x128.size a
  inb_S4x128_S1x16_0_80 : ∀ a, (![0, 80] : Fin 2 → Nat) a + S1x16.size a ≤ S4x128.size a
  inb_S4x128_S1x16_0_96 : ∀ a, (![0, 96] : Fin 2 → Nat) a + S1x16.size a ≤ S4x128.size a
  inb_S4x128_S1x16_0_112 : ∀ a, (![0, 112] : Fin 2 → Nat) a + S1x16.size a ≤ S4x128.size a
  inb_S4x128_S1x16_1_0 : ∀ a, (![1, 0] : Fin 2 → Nat) a + S1x16.size a ≤ S4x128.size a
  inb_S4x128_S1x16_1_16 : ∀ a, (![1, 16] : Fin 2 → Nat) a + S1x16.size a ≤ S4x128.size a
  inb_S4x128_S1x16_1_32 : ∀ a, (![1, 32] : Fin 2 → Nat) a + S1x16.size a ≤ S4x128.size a
  inb_S4x128_S1x16_1_48 : ∀ a, (![1, 48] : Fin 2 → Nat) a + S1x16.size a ≤ S4x128.size a
  inb_S4x128_S1x16_1_64 : ∀ a, (![1, 64] : Fin 2 → Nat) a + S1x16.size a ≤ S4x128.size a
  inb_S4x128_S1x16_1_80 : ∀ a, (![1, 80] : Fin 2 → Nat) a + S1x16.size a ≤ S4x128.size a
  inb_S4x128_S1x16_1_96 : ∀ a, (![1, 96] : Fin 2 → Nat) a + S1x16.size a ≤ S4x128.size a
  inb_S4x128_S1x16_1_112 : ∀ a, (![1, 112] : Fin 2 → Nat) a + S1x16.size a ≤ S4x128.size a
  inb_S4x128_S1x16_2_0 : ∀ a, (![2, 0] : Fin 2 → Nat) a + S1x16.size a ≤ S4x128.size a
  inb_S4x128_S1x16_2_16 : ∀ a, (![2, 16] : Fin 2 → Nat) a + S1x16.size a ≤ S4x128.size a
  inb_S4x128_S1x16_2_32 : ∀ a, (![2, 32] : Fin 2 → Nat) a + S1x16.size a ≤ S4x128.size a
  inb_S4x128_S1x16_2_48 : ∀ a, (![2, 48] : Fin 2 → Nat) a + S1x16.size a ≤ S4x128.size a
  inb_S4x128_S1x16_2_64 : ∀ a, (![2, 64] : Fin 2 → Nat) a + S1x16.size a ≤ S4x128.size a
  inb_S4x128_S1x16_2_80 : ∀ a, (![2, 80] : Fin 2 → Nat) a + S1x16.size a ≤ S4x128.size a
  inb_S4x128_S1x16_2_96 : ∀ a, (![2, 96] : Fin 2 → Nat) a + S1x16.size a ≤ S4x128.size a
  inb_S4x128_S1x16_2_112 : ∀ a, (![2, 112] : Fin 2 → Nat) a + S1x16.size a ≤ S4x128.size a
  inb_S4x128_S1x16_3_0 : ∀ a, (![3, 0] : Fin 2 → Nat) a + S1x16.size a ≤ S4x128.size a
  inb_S4x128_S1x16_3_16 : ∀ a, (![3, 16] : Fin 2 → Nat) a + S1x16.size a ≤ S4x128.size a
  inb_S4x128_S1x16_3_32 : ∀ a, (![3, 32] : Fin 2 → Nat) a + S1x16.size a ≤ S4x128.size a
  inb_S4x128_S1x16_3_48 : ∀ a, (![3, 48] : Fin 2 → Nat) a + S1x16.size a ≤ S4x128.size a
  inb_S4x128_S1x16_3_64 : ∀ a, (![3, 64] : Fin 2 → Nat) a + S1x16.size a ≤ S4x128.size a
  inb_S4x128_S1x16_3_80 : ∀ a, (![3, 80] : Fin 2 → Nat) a + S1x16.size a ≤ S4x128.size a
  inb_S4x128_S1x16_3_96 : ∀ a, (![3, 96] : Fin 2 → Nat) a + S1x16.size a ≤ S4x128.size a
  inb_S4x128_S1x16_3_112 : ∀ a, (![3, 112] : Fin 2 → Nat) a + S1x16.size a ≤ S4x128.size a
  shapeCasts_S32_S1x32 : S32.ShapeCasts S1x32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  reduces_S128x128_S128 : S128x128.Reduces [0] S128
  reduces_S128x128_S128_2 : S128x128.Reduces [1] S128
  iota_S128x128_d0_w32 : S128x128.Iotas .tc 32 [0]
  iota_S128x128_d1_w32 : S128x128.Iotas .tc 32 [1]
  natLt_1_32 : 1 < 32
  shapeCasts_S128_S128x1 : S128.ShapeCasts S128x1
  broadcasts_S128x1_S128x128 : S128x1.Broadcasts S128x128
  shapeCasts_S128_S1x128 : S128.ShapeCasts S1x128
  broadcasts_S1x128_S128x128 : S1x128.Broadcasts S128x128
  inb_S32x32_S32x32_0_0 : ∀ a, (![0, 0] : Fin 2 → Nat) a + S32x32.size a ≤ S32x32.size a
  h_S32x32 : 0 < S32x32.numel
  shapeCasts_S32x32_S32x32 : S32x32.ShapeCasts S32x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S128x1_S128x32 : S128x1.Broadcasts S128x32
  broadcasts_S1x32_S128x32 : S1x32.Broadcasts S128x32
  inb_S128x32_S128x32_0_0 : ∀ a, (![0, 0] : Fin 2 → Nat) a + S128x32.size a ≤ S128x32.size a
  h_S128x32 : 0 < S128x32.numel
  shapeCasts_S128x32_S128x32 : S128x32.ShapeCasts S128x32
  inb_S128x4096_S128x4096_0_0 : ∀ a, (![0, 0] : Fin 2 → Nat) a + S128x4096.size a ≤ S128x4096.size a
  h_S128x4096 : 0 < S128x4096.numel
  transposes_S128x4096_p1_0_S4096x128 : S128x4096.Transposes [1, 0] S4096x128
  shapeCasts_S4096x128_S128x32x128 : S4096x128.ShapeCasts S128x32x128
  transposes_S128x32x128_p0_2_1_S128x128x32 : S128x32x128.Transposes [0, 2, 1] S128x128x32
  shapeCasts_S128x128x32_S16384x32 : S128x128x32.ShapeCasts S16384x32
  shapeCasts_S16384x32_S128x128x32 : S16384x32.ShapeCasts S128x128x32
  transposes_S128x128x32_p1_0_2_S128x128x32 : S128x128x32.Transposes [1, 0, 2] S128x128x32
  shapeCasts_S128x32_S1x128x32 : S128x32.ShapeCasts S1x128x32
  broadcasts_S1x128x32_S128x128x32 : S1x128x32.Broadcasts S128x128x32
  inb_S16384x32_S16384x32_0_0 : ∀ a, (![0, 0] : Fin 2 → Nat) a + S16384x32.size a ≤ S16384x32.size a
  h_S16384x32 : 0 < S16384x32.numel
  dot_S32x32_S32x32_S32x32_1_0_0_1_n_n_wf : DotDims.WF S32x32 S32x32 S32x32 [1] [0] [0] [1] [] []
  dot_S1x32_S32x32_S1x32_1_0_0_1_n_n_wf : DotDims.WF S1x32 S32x32 S1x32 [1] [0] [0] [1] [] []
  dot_S128x128_S128x32x128_S128x32x128_1_0_0_12_n_n_wf : DotDims.WF S128x128 S128x32x128 S128x32x128 [1] [0] [0] [1, 2] [] []
  dot_S16384x32_S32x32_S16384x32_1_0_0_1_n_n_wf : DotDims.WF S16384x32 S32x32 S16384x32 [1] [0] [0] [1] [] []
  hcc0_scoped0 : 0 + S_.numel ≤ 12
  hcc0_scoped1 : 1 + S_.numel ≤ 12
  hcc0_scoped2 : 2 + S_.numel ≤ 12
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S4x128.size a ≤ S128x128.size a
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S128x128.size a ≤ S128x128.size a
  hwx1_0 : ∀ i : grid1.Coords, EltTy.bits .f32 = 32 ∨ (Rect.block (s := S128x128) S128x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S32x32.size a ≤ S32x32.size a
  hwx1_1 : ∀ i : grid1.Coords, EltTy.bits .f32 = 32 ∨ (Rect.block (s := S32x32) S32x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x32.size a ≤ S1x32.size a
  hwx1_2 : ∀ i : grid1.Coords, EltTy.bits .f32 = 32 ∨ (Rect.block (s := S1x32) S1x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32x32.size a ≤ S32x32.size a
  hwx1_3 : ∀ i : grid1.Coords, EltTy.bits .f32 = 32 ∨ (Rect.block (s := S32x32) S32x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x32.size a ≤ S1x32.size a
  hwx1_4 : ∀ i : grid1.Coords, EltTy.bits .f32 = 32 ∨ (Rect.block (s := S1x32) S1x32.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S128x4096.size a ≤ S1024x4096.size a
  hwx1_5 : ∀ i : grid1.Coords, EltTy.bits .f32 = 32 ∨ (Rect.block (s := S1024x4096) S128x4096.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S16384x32.size a ≤ S131072x32.size a
  hwx1_6 : ∀ i : grid1.Coords, EltTy.bits .f32 = 32 ∨ (Rect.block (s := S131072x32) S16384x32.size (cc1_transform_6 i) (hinb1_6 i)).WholeWords (EltTy.packing .f32)

variable [Facts₀]

abbrev cc0_scoped0 : DmaSems sig S_ := SemArray.consecutive 0 S_ hcc0_scoped0
abbrev cc0_scoped1 : DmaSems sig S_ := SemArray.consecutive 1 S_ hcc0_scoped1
abbrev cc0_scoped2 : DmaSems sig S_ := SemArray.consecutive 2 S_ hcc0_scoped2
def dot_S32x32_S32x32_S32x32_1_0_0_1_n_n : DotDims S32x32 S32x32 S32x32 where
  lhsContracting := [1]
  rhsContracting := [0]
  lhsNonContracting := [0]
  rhsNonContracting := [1]
  lhsBatch := []
  rhsBatch := []
  wf := dot_S32x32_S32x32_S32x32_1_0_0_1_n_n_wf
def dot_S1x32_S32x32_S1x32_1_0_0_1_n_n : DotDims S1x32 S32x32 S1x32 where
  lhsContracting := [1]
  rhsContracting := [0]
  lhsNonContracting := [0]
  rhsNonContracting := [1]
  lhsBatch := []
  rhsBatch := []
  wf := dot_S1x32_S32x32_S1x32_1_0_0_1_n_n_wf
def dot_S128x128_S128x32x128_S128x32x128_1_0_0_12_n_n : DotDims S128x128 S128x32x128 S128x32x128 where
  lhsContracting := [1]
  rhsContracting := [0]
  lhsNonContracting := [0]
  rhsNonContracting := [1, 2]
  lhsBatch := []
  rhsBatch := []
  wf := dot_S128x128_S128x32x128_S128x32x128_1_0_0_12_n_n_wf
def dot_S16384x32_S32x32_S16384x32_1_0_0_1_n_n : DotDims S16384x32 S32x32 S16384x32 where
  lhsContracting := [1]
  rhsContracting := [0]
  lhsNonContracting := [0]
  rhsNonContracting := [1]
  lhsBatch := []
  rhsBatch := []
  wf := dot_S16384x32_S32x32_S16384x32_1_0_0_1_n_n_wf

abbrev win1_0 : Pipeline.Window sig grid1 :=
  Pipeline.Window.ofSpec (Memref.whole main_v0) S128x128.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S32x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S32x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v2) S1x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg0) S128x4096.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v3) S16384x32.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S1024x4096 : Shape := ⟨2, ![1024, 4096]⟩
abbrev S32x32 : Shape := ⟨2, ![32, 32]⟩
abbrev S32 : Shape := ⟨1, ![32]⟩
abbrev S1024 : Shape := ⟨1, ![1024]⟩
abbrev S1024x128x32 : Shape := ⟨3, ![1024, 128, 32]⟩
abbrev S1x1x32 : Shape := ⟨3, ![1, 1, 32]⟩
abbrev S128x1024x32 : Shape := ⟨3, ![128, 1024, 32]⟩
abbrev S128 : Shape := ⟨1, ![128]⟩
abbrev S1152 : Shape := ⟨1, ![1152]⟩
abbrev S_ : Shape := ⟨0, ![]⟩
abbrev S1152x1 : Shape := ⟨2, ![1152, 1]⟩
abbrev S128x1x1 : Shape := ⟨3, ![128, 1, 1]⟩
abbrev S1152x1024x32 : Shape := ⟨3, ![1152, 1024, 32]⟩
abbrev S131072x32 : Shape := ⟨2, ![131072, 32]⟩

abbrev nBuf : Space → Nat
  | .hbm => 77
  | .vmem => 0
  | .smem => 0
  | _ => 0

abbrev bufTy : (tb : Table) → Fin (tcTables nBuf tb) → BufTy
  | .hbm, ⟨0, _⟩ => ⟨S1024x4096, .f32⟩
  | .hbm, ⟨1, _⟩ => ⟨S32x32, .f32⟩
  | .hbm, ⟨2, _⟩ => ⟨S32, .f32⟩
  | .hbm, ⟨3, _⟩ => ⟨S32x32, .f32⟩
  | .hbm, ⟨4, _⟩ => ⟨S32, .f32⟩
  | .hbm, ⟨5, _⟩ => ⟨S1024, .i32⟩
  | .hbm, ⟨6, _⟩ => ⟨S1024, .i32⟩
  | .hbm, ⟨7, _⟩ => ⟨S1024x128x32, .f32⟩
  | .hbm, ⟨8, _⟩ => ⟨S1024x128x32, .f32⟩
  | .hbm, ⟨9, _⟩ => ⟨S1x1x32, .f32⟩
  | .hbm, ⟨10, _⟩ => ⟨S1024x128x32, .f32⟩
  | .hbm, ⟨11, _⟩ => ⟨S1024x128x32, .f32⟩
  | .hbm, ⟨12, _⟩ => ⟨S128x1024x32, .f32⟩
  | .hbm, ⟨13, _⟩ => ⟨S128, .i32⟩
  | .hbm, ⟨14, _⟩ => ⟨S1152, .i32⟩
  | .hbm, ⟨15, _⟩ => ⟨S1152, .i32⟩
  | .hbm, ⟨16, _⟩ => ⟨S_, .f32⟩
  | .hbm, ⟨17, _⟩ => ⟨S128, .f32⟩
  | .hbm, ⟨18, _⟩ => ⟨S_, .i32⟩
  | .hbm, ⟨19, _⟩ => ⟨S1152, .i32⟩
  | .hbm, ⟨20, _⟩ => ⟨S1152, .i1⟩
  | .hbm, ⟨21, _⟩ => ⟨S_, .i32⟩
  | .hbm, ⟨22, _⟩ => ⟨S1152, .i32⟩
  | .hbm, ⟨23, _⟩ => ⟨S1152, .i32⟩
  | .hbm, ⟨24, _⟩ => ⟨S1152, .i32⟩
  | .hbm, ⟨25, _⟩ => ⟨S1152x1, .i32⟩
  | .hbm, ⟨26, _⟩ => ⟨S_, .f32⟩
  | .hbm, ⟨27, _⟩ => ⟨S1152, .f32⟩
  | .hbm, ⟨28, _⟩ => ⟨S128, .f32⟩
  | .hbm, ⟨29, _⟩ => ⟨S_, .f32⟩
  | .hbm, ⟨30, _⟩ => ⟨S128, .f32⟩
  | .hbm, ⟨31, _⟩ => ⟨S_, .i32⟩
  | .hbm, ⟨32, _⟩ => ⟨S1152, .i32⟩
  | .hbm, ⟨33, _⟩ => ⟨S1152, .i1⟩
  | .hbm, ⟨34, _⟩ => ⟨S_, .i32⟩
  | .hbm, ⟨35, _⟩ => ⟨S1152, .i32⟩
  | .hbm, ⟨36, _⟩ => ⟨S1152, .i32⟩
  | .hbm, ⟨37, _⟩ => ⟨S1152, .i32⟩
  | .hbm, ⟨38, _⟩ => ⟨S1152x1, .i32⟩
  | .hbm, ⟨39, _⟩ => ⟨S_, .f32⟩
  | .hbm, ⟨40, _⟩ => ⟨S1152, .f32⟩
  | .hbm, ⟨41, _⟩ => ⟨S128, .f32⟩
  | .hbm, ⟨42, _⟩ => ⟨S_, .f32⟩
  | .hbm, ⟨43, _⟩ => ⟨S_, .f32⟩
  | .hbm, ⟨44, _⟩ => ⟨S128, .f32⟩
  | .hbm, ⟨45, _⟩ => ⟨S128, .f32⟩
  | .hbm, ⟨46, _⟩ => ⟨S128, .f32⟩
  | .hbm, ⟨47, _⟩ => ⟨S128x1x1, .f32⟩
  | .hbm, ⟨48, _⟩ => ⟨S128x1024x32, .f32⟩
  | .hbm, ⟨49, _⟩ => ⟨S128x1024x32, .f32⟩
  | .hbm, ⟨50, _⟩ => ⟨S_, .i32⟩
  | .hbm, ⟨51, _⟩ => ⟨S1152, .i32⟩
  | .hbm, ⟨52, _⟩ => ⟨S1152, .i1⟩
  | .hbm, ⟨53, _⟩ => ⟨S_, .i32⟩
  | .hbm, ⟨54, _⟩ => ⟨S1152, .i32⟩
  | .hbm, ⟨55, _⟩ => ⟨S1152, .i32⟩
  | .hbm, ⟨56, _⟩ => ⟨S1152, .i32⟩
  | .hbm, ⟨57, _⟩ => ⟨S1152x1, .i32⟩
  | .hbm, ⟨58, _⟩ => ⟨S1152x1024x32, .f32⟩
  | .hbm, ⟨59, _⟩ => ⟨S_, .f32⟩
  | .hbm, ⟨60, _⟩ => ⟨S128x1024x32, .f32⟩
  | .hbm, ⟨61, _⟩ => ⟨S1152x1, .i32⟩
  | .hbm, ⟨62, _⟩ => ⟨S128x1024x32, .f32⟩
  | .hbm, ⟨63, _⟩ => ⟨S_, .f32⟩
  | .hbm, ⟨64, _⟩ => ⟨S_, .f32⟩
  | .hbm, ⟨65, _⟩ => ⟨S128, .f32⟩
  | .hbm, ⟨66, _⟩ => ⟨S128, .f32⟩
  | .hbm, ⟨67, _⟩ => ⟨S128, .f32⟩
  | .hbm, ⟨68, _⟩ => ⟨S128x1x1, .f32⟩
  | .hbm, ⟨69, _⟩ => ⟨S128x1024x32, .f32⟩
  | .hbm, ⟨70, _⟩ => ⟨S128x1024x32, .f32⟩
  | .hbm, ⟨71, _⟩ => ⟨S128x1024x32, .f32⟩
  | .hbm, ⟨72, _⟩ => ⟨S1x1x32, .f32⟩
  | .hbm, ⟨73, _⟩ => ⟨S128x1024x32, .f32⟩
  | .hbm, ⟨74, _⟩ => ⟨S128x1024x32, .f32⟩
  | .hbm, ⟨75, _⟩ => ⟨S1024x128x32, .f32⟩
  | .hbm, ⟨76, _⟩ => ⟨S131072x32, .f32⟩
  | _, _ => ⟨S1024x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_c : Ref sig .tc := ⟨.hbm, 18, rfl⟩
abbrev main_v10 : Ref sig .tc := ⟨.hbm, 19, rfl⟩
abbrev main_v11 : Ref sig .tc := ⟨.hbm, 20, rfl⟩
abbrev main_c_0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_c_3 : Ref sig .tc := ⟨.hbm, 31, rfl⟩
abbrev main_v19 : Ref sig .tc := ⟨.hbm, 32, rfl⟩
abbrev main_v20 : Ref sig .tc := ⟨.hbm, 33, rfl⟩
abbrev main_c_4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_5 : Ref sig .tc := ⟨.hbm, 39, rfl⟩
abbrev main_v25 : Ref sig .tc := ⟨.hbm, 40, rfl⟩
abbrev main_v26 : Ref sig .tc := ⟨.hbm, 41, rfl⟩
abbrev main_cst_6 : Ref sig .tc := ⟨.hbm, 42, rfl⟩
abbrev main_call0_v0 : Ref sig .tc := ⟨.hbm, 43, rfl⟩
abbrev main_call0_v1 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_7 : Ref sig .tc := ⟨.hbm, 50, rfl⟩
abbrev main_v32 : Ref sig .tc := ⟨.hbm, 51, rfl⟩
abbrev main_v33 : Ref sig .tc := ⟨.hbm, 52, rfl⟩
abbrev main_c_8 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_9 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_10 : Ref sig .tc := ⟨.hbm, 63, rfl⟩
abbrev main_call1_v0 : Ref sig .tc := ⟨.hbm, 64, rfl⟩
abbrev main_call1_v1 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩

abbrev nD : Nat := 1
abbrev τ : Topo := Topo.v7x

variable {F : FTy → Type} [FloatOps F]

class Facts₀ : Prop where
  shapeCasts_S1024x4096_S1024x128x32 : S1024x4096.ShapeCasts S1024x128x32
  bcast_S32_S1x1x32_2 : S32.BroadcastsInDim S1x1x32 (![2] : Fin 1 → Fin S1x1x32.rank)
  bcast_S1x1x32_S1024x128x32_0_1_2 : S1x1x32.BroadcastsInDim S1024x128x32 (![0, 1, 2] : Fin 3 → Fin S1024x128x32.rank)
  transposes_S1024x128x32_S128x1024x32_1_0_2 : S1024x128x32.Transposes [1, 0, 2] S128x1024x32
  concatenates_S1024_S128_S1152_d0 : Shape.Concatenates [S1024, S128] S1152 0
  bcast_S_S128 : S_.BroadcastsInDim S128 (![] : Fin 0 → Fin S128.rank)
  bcast_S_S1152 : S_.BroadcastsInDim S1152 (![] : Fin 0 → Fin S1152.rank)
  bcast_S1152_S1152x1_0 : S1152.BroadcastsInDim S1152x1 (![0] : Fin 1 → Fin S1152x1.rank)
  bcast_S128_S128x1x1_0 : S128.BroadcastsInDim S128x1x1 (![0] : Fin 1 → Fin S128x1x1.rank)
  bcast_S128x1x1_S128x1024x32_0_1_2 : S128x1x1.BroadcastsInDim S128x1024x32 (![0, 1, 2] : Fin 3 → Fin S128x1024x32.rank)
  bcast_S_S128x1024x32 : S_.BroadcastsInDim S128x1024x32 (![] : Fin 0 → Fin S128x1024x32.rank)
  bcast_S1x1x32_S128x1024x32_0_1_2 : S1x1x32.BroadcastsInDim S128x1024x32 (![0, 1, 2] : Fin 3 → Fin S128x1024x32.rank)
  transposes_S128x1024x32_S1024x128x32_1_0_2 : S128x1024x32.Transposes [1, 0, 2] S1024x128x32
  shapeCasts_S1024x128x32_S131072x32 : S1024x128x32.ShapeCasts S131072x32
  dot_S1024x128x32_S32x32_S1024x128x32_2_0_01_1_n_n_wf : DotDims.WF S1024x128x32 S32x32 S1024x128x32 [2] [0] [0, 1] [1] [] []
  scatter_S128_S1152x1_S1152_n_0_0_1_wf : ScatterDims.WF S128 S1152x1 S1152 [] [0] [0] 1
  gather_S128x1024x32_S1152x1_S1152x1024x32_12_0_n_n_0_1_1102432_wf : GatherDims.WF S128x1024x32 S1152x1 S1152x1024x32 [1, 2] [0] [] [0] [] 1 ![1, 1024, 32]
  scatter_S128x1024x32_S1152x1_S1152x1024x32_12_0_0_1_wf : ScatterDims.WF S128x1024x32 S1152x1 S1152x1024x32 [1, 2] [0] [0] 1
  dot_S128x1024x32_S32x32_S128x1024x32_2_0_01_1_n_n_wf : DotDims.WF S128x1024x32 S32x32 S128x1024x32 [2] [0] [0, 1] [1] [] []

variable [Facts₀]

def dot_S1024x128x32_S32x32_S1024x128x32_2_0_01_1_n_n : DotDims S1024x128x32 S32x32 S1024x128x32 where
  lhsContracting := [2]
  rhsContracting := [0]
  lhsNonContracting := [0, 1]
  rhsNonContracting := [1]
  lhsBatch := []
  rhsBatch := []
  wf := dot_S1024x128x32_S32x32_S1024x128x32_2_0_01_1_n_n_wf
def scatter_S128_S1152x1_S1152_n_0_0_1 : ScatterDims S128 S1152x1 S1152 where
  updateWindowDims := []
  insertedWindowDims := [0]
  scatterDimsToOperandDims := [0]
  indexVectorDim := 1
  wf := scatter_S128_S1152x1_S1152_n_0_0_1_wf
def gather_S128x1024x32_S1152x1_S1152x1024x32_12_0_n_n_0_1_1102432 : GatherDims S128x1024x32 S1152x1 S1152x1024x32 where
  offsetDims := [1, 2]
  collapsedSliceDims := [0]
  operandBatchingDims := []
  startIndicesBatchingDims := []
  startIndexMap := [0]
  indexVectorDim := 1
  sliceSizes := ![1, 1024, 32]
  wf := gather_S128x1024x32_S1152x1_S1152x1024x32_12_0_n_n_0_1_1102432_wf
def scatter_S128x1024x32_S1152x1_S1152x1024x32_12_0_0_1 : ScatterDims S128x1024x32 S1152x1 S1152x1024x32 where
  updateWindowDims := [1, 2]
  insertedWindowDims := [0]
  scatterDimsToOperandDims := [0]
  indexVectorDim := 1
  wf := scatter_S128x1024x32_S1152x1_S1152x1024x32_12_0_0_1_wf
def dot_S128x1024x32_S32x32_S128x1024x32_2_0_01_1_n_n : DotDims S128x1024x32 S32x32 S128x1024x32 where
  lhsContracting := [2]
  rhsContracting := [0]
  lhsNonContracting := [0, 1]
  rhsNonContracting := [1]
  lhsBatch := []
  rhsBatch := []
  wf := dot_S128x1024x32_S32x32_S128x1024x32_2_0_01_1_n_n_wf

class Facts : Prop extends Facts₀ where

variable [Facts]
-- ==== Proof.Spec.lean ====
import Idealize.ShloMosaic.PureOps.Ideal.Laws
import Idealize.ShloMosaic.Lib.ValueIdx

noncomputable section

open scoped BigOperators

namespace Cert.Spec

open Idealize.ShloMosaic

variable (X : Fin 1024 → Fin 128 → Fin 32 → EReal) (We Wg : Fin 32 → Fin 32 → EReal) (be bg : Fin 32 → EReal)
variable (src dst : Fin 1024 → Fin 128)

-- The number of edges from s into d.
def cnt (d s : Fin 128) : EReal := (((Finset.univ.filter fun e : Fin 1024 => dst e = d ∧ src e = s).card : ℝ) : EReal)
def eye (d s : Fin 128) : EReal := if d = s then 1 else 0

def outDegK (s : Fin 128) : EReal := (∑ d, cnt src dst d s) + 1
def inDegK (d : Fin 128) : EReal := (∑ s, cnt src dst d s) + 1
def adjN (d s : Fin 128) : EReal := Ideal.rsqrt (inDegK src dst d) * (cnt src dst d s + eye d s) * Ideal.rsqrt (outDegK src dst s)
def wComb (h h' : Fin 32) : EReal := ∑ k, We h k * Wg k h'
def bComb (h' : Fin 32) : EReal := ∑ k, be k * Wg k h'
def biasK (d : Fin 128) (h' : Fin 32) : EReal := (∑ s, adjN src dst d s) * bComb Wg be h' + bg h'
def aggK (d : Fin 128) (h : Fin 32) (b : Fin 1024) : EReal := ∑ s, adjN src dst d s * X b s h
-- The layer through the normalised count matrix and the product of the two weight matrices.
def kOut (b : Fin 1024) (d : Fin 128) (h' : Fin 32) : EReal :=
  (∑ h, aggK X src dst d h b * wComb We Wg h h') + biasK Wg be bg src dst d h'

def zR (b : Fin 1024) (p : Fin 128) (k : Fin 32) : EReal := (∑ h, X b p h * We h k) + be k
def outDegR (p : Fin 128) : EReal := (((Finset.univ.filter fun e : Fin 1024 => src e = p).card : ℝ) : EReal) + 1
def inDegR (p : Fin 128) : EReal := (((Finset.univ.filter fun e : Fin 1024 => dst e = p).card : ℝ) : EReal) + 1
def hR (p : Fin 128) (b : Fin 1024) (k : Fin 32) : EReal := zR X We be b p k * Ideal.rsqrt (max 1 (outDegR src p))
def aggR (d : Fin 128) (b : Fin 1024) (k : Fin 32) : EReal :=
  (∑ e ∈ Finset.univ.filter (fun e : Fin 1024 => dst e = d), hR X We be src (src e) b k) + hR X We be src d b k
-- The layer edge by edge: encode, scale by the source's degree, sum over incoming edges and the self loop, scale by the destination's degree, project.
def rOut (b : Fin 1024) (d : Fin 128) (h' : Fin 32) : EReal :=
  (∑ k, (aggR X We be src dst d b k * Ideal.rsqrt (max 1 (inDegR dst d))) * Wg k h') + bg h'

theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem rsqrt_pos {r : ℝ} (h : 0 < r) : Ideal.rsqrt (r : EReal) = (((Real.sqrt r)⁻¹ : ℝ) : EReal) := by
  rw [Ideal.rsqrt_coe, if_neg (not_lt.mpr h.le), if_neg h.ne']

section Counting

variable {E N : Type*} [Fintype E] [Fintype N] [DecidableEq N] (sr ds : E → N)

theorem card_out (s : N) :
    (∑ d, ((Finset.univ.filter fun e : E => ds e = d ∧ sr e = s).card : ℝ))
      = ((Finset.univ.filter fun e : E => sr e = s).card : ℝ) := by
  have h := Finset.card_eq_sum_card_fiberwise (s := Finset.univ.filter fun e : E => sr e = s) (f := ds)
    (t := Finset.univ) (fun _ _ => Finset.mem_univ _)
  rw [h, Nat.cast_sum]
  refine Finset.sum_congr rfl fun d _ => ?_
  rw [Finset.filter_filter]
  refine congrArg (fun t : Finset E => (t.card : ℝ)) ?_
  ext e
  simp only [Finset.mem_filter, Finset.mem_univ, true_and]
  exact and_comm

theorem card_in (d : N) :
    (∑ s, ((Finset.univ.filter fun e : E => ds e = d ∧ sr e = s).card : ℝ))
      = ((Finset.univ.filter fun e : E => ds e = d).card : ℝ) := by
  have h := Finset.card_eq_sum_card_fiberwise (s := Finset.univ.filter fun e : E => ds e = d) (f := sr)
    (t := Finset.univ) (fun _ _ => Finset.mem_univ _)
  rw [h, Nat.cast_sum]
  refine Finset.sum_congr rfl fun s _ => ?_
  rw [Finset.filter_filter]

theorem sum_into (d : N) (g : N → ℝ) :
    (∑ e ∈ Finset.univ.filter (fun e : E => ds e = d), g (sr e))
      = ∑ s, ((Finset.univ.filter fun e : E => ds e = d ∧ sr e = s).card : ℝ) * g s := by
  rw [← Finset.sum_fiberwise (Finset.univ.filter fun e : E => ds e = d) sr (fun e => g (sr e))]
  refine Finset.sum_congr rfl fun s _ => ?_
  rw [Finset.filter_filter, Finset.sum_congr rfl (g := fun _ => g s), Finset.sum_const, nsmul_eq_mul]
  intro e he
  rw [(Finset.mem_filter.mp he).2.2]

theorem sum_eye (d : N) (g : N → ℝ) : (∑ s, (if d = s then (1 : ℝ) else 0) * g s) = g d := by
  simp [Finset.sum_ite_eq]

end Counting

theorem real_identity {S H K : Type*} [Fintype S] [Fintype H] [Fintype K] (A : S → ℝ) (x : S → H → ℝ)
    (we : H → K → ℝ) (wg be : K → ℝ) (bg : ℝ) :
    (∑ h, (∑ s, A s * x s h) * (∑ k, we h k * wg k)) + ((∑ s, A s) * (∑ k, be k * wg k) + bg)
      = (∑ k, (∑ s, A s * ((∑ h, x s h * we h k) + be k)) * wg k) + bg := by
  have h1 : ∀ k, (∑ s, A s * ((∑ h, x s h * we h k) + be k)) * wg k
      = (∑ h, ∑ s, A s * x s h * (we h k * wg k)) + (∑ s, A s) * (be k * wg k) := by
    intro k
    rw [Finset.sum_comm, Finset.sum_mul, Finset.sum_mul, ← Finset.sum_add_distrib]
    refine Finset.sum_congr rfl fun s _ => ?_
    rw [mul_add, add_mul, Finset.mul_sum, Finset.sum_mul]
    congr 1
    · refine Finset.sum_congr rfl fun h _ => ?_
      ring
    · ring
  have h2 : ∀ h, (∑ s, A s * x s h) * (∑ k, we h k * wg k) = ∑ k, ∑ s, A s * x s h * (we h k * wg k) := by
    intro h
    rw [Finset.mul_sum]
    refine Finset.sum_congr rfl fun k _ => ?_
    rw [Finset.sum_mul]
  simp only [h1, h2]
  rw [Finset.sum_add_distrib, ← Finset.mul_sum, Finset.sum_comm, add_assoc]

def cntR (d s : Fin 128) : ℝ := ((Finset.univ.filter fun e : Fin 1024 => dst e = d ∧ src e = s).card : ℝ)
def eyeR (d s : Fin 128) : ℝ := if d = s then 1 else 0
def outR (s : Fin 128) : ℝ := ((Finset.univ.filter fun e : Fin 1024 => src e = s).card : ℝ) + 1
def inR (d : Fin 128) : ℝ := ((Finset.univ.filter fun e : Fin 1024 => dst e = d).card : ℝ) + 1
def adjR (d s : Fin 128) : ℝ :=
  (Real.sqrt (inR dst d))⁻¹ * (cntR src dst d s + eyeR d s) * (Real.sqrt (outR src s))⁻¹

theorem one_le_outR (s : Fin 128) : 1 ≤ outR src s := le_add_of_nonneg_left (Nat.cast_nonneg _)
theorem one_le_inR (d : Fin 128) : 1 ≤ inR dst d := le_add_of_nonneg_left (Nat.cast_nonneg _)
theorem outR_pos (s : Fin 128) : 0 < outR src s := lt_of_lt_of_le one_pos (one_le_outR src s)
theorem inR_pos (d : Fin 128) : 0 < inR dst d := lt_of_lt_of_le one_pos (one_le_inR dst d)

theorem cnt_eq (d s : Fin 128) : cnt src dst d s = (cntR src dst d s : EReal) := rfl

theorem eye_eq (d s : Fin 128) : eye d s = (eyeR d s : EReal) := by
  unfold eye eyeR
  split_ifs
  · exact EReal.coe_one.symm
  · exact EReal.coe_zero.symm

theorem outDegR_eq (p : Fin 128) : outDegR src p = (outR src p : EReal) := by
  unfold outDegR outR
  rw [EReal.coe_add, EReal.coe_one]

theorem inDegR_eq (p : Fin 128) : inDegR dst p = (inR dst p : EReal) := by
  unfold inDegR inR
  rw [EReal.coe_add, EReal.coe_one]

theorem outDegK_eq (s : Fin 128) : outDegK src dst s = (outR src s : EReal) := by
  unfold outDegK outR
  simp only [cnt_eq]
  rw [EReal.coe_add, EReal.coe_one, ← coe_sum]
  unfold cntR
  rw [card_out src dst s]

theorem inDegK_eq (d : Fin 128) : inDegK src dst d = (inR dst d : EReal) := by
  unfold inDegK inR
  simp only [cnt_eq]
  rw [EReal.coe_add, EReal.coe_one, ← coe_sum]
  unfold cntR
  rw [card_in src dst d]

theorem rsqrt_outR (p : Fin 128) :
    Ideal.rsqrt (max 1 (outDegR src p)) = (((Real.sqrt (outR src p))⁻¹ : ℝ) : EReal) := by
  rw [outDegR_eq, max_eq_right (by exact_mod_cast one_le_outR src p), rsqrt_pos (outR_pos src p)]

theorem rsqrt_inR (p : Fin 128) :
    Ideal.rsqrt (max 1 (inDegR dst p)) = (((Real.sqrt (inR dst p))⁻¹ : ℝ) : EReal) := by
  rw [inDegR_eq, max_eq_right (by exact_mod_cast one_le_inR dst p), rsqrt_pos (inR_pos dst p)]

theorem adjN_eq (d s : Fin 128) : adjN src dst d s = (adjR src dst d s : EReal) := by
  unfold adjN adjR
  rw [inDegK_eq, outDegK_eq, rsqrt_pos (inR_pos dst d), rsqrt_pos (outR_pos src s), cnt_eq, eye_eq,
    ← EReal.coe_add, ← EReal.coe_mul, ← EReal.coe_mul]

section RealData

variable (x : Fin 1024 → Fin 128 → Fin 32 → ℝ) (we wg : Fin 32 → Fin 32 → ℝ) (vbe vbg : Fin 32 → ℝ)

def kOutR (b : Fin 1024) (d : Fin 128) (h' : Fin 32) : ℝ :=
  (∑ h, (∑ s, adjR src dst d s * x b s h) * (∑ k, we h k * wg k h'))
    + ((∑ s, adjR src dst d s) * (∑ k, vbe k * wg k h') + vbg h')

def rOutR (b : Fin 1024) (d : Fin 128) (h' : Fin 32) : ℝ :=
  (∑ k, ((∑ e ∈ Finset.univ.filter (fun e : Fin 1024 => dst e = d),
            ((∑ h, x b (src e) h * we h k) + vbe k) * (Real.sqrt (outR src (src e)))⁻¹)
          + ((∑ h, x b d h * we h k) + vbe k) * (Real.sqrt (outR src d))⁻¹)
        * (Real.sqrt (inR dst d))⁻¹ * wg k h') + vbg h'

theorem kOut_coe (b : Fin 1024) (d : Fin 128) (h' : Fin 32) :
    kOut (fun b p h => (x b p h : EReal)) (fun i j => (we i j : EReal)) (fun i j => (wg i j : EReal))
        (fun i => (vbe i : EReal)) (fun i => (vbg i : EReal)) src dst b d h'
      = (kOutR src dst x we wg vbe vbg b d h' : EReal) := by
  unfold kOut aggK wComb biasK bComb kOutR
  simp only [adjN_eq, ← EReal.coe_mul, ← coe_sum, ← EReal.coe_add]

theorem rOut_coe (b : Fin 1024) (d : Fin 128) (h' : Fin 32) :
    rOut (fun b p h => (x b p h : EReal)) (fun i j => (we i j : EReal)) (fun i j => (wg i j : EReal))
        (fun i => (vbe i : EReal)) (fun i => (vbg i : EReal)) src dst b d h'
      = (rOutR src dst x we wg vbe vbg b d h' : EReal) := by
  unfold rOut aggR hR zR rOutR
  simp only [rsqrt_outR, rsqrt_inR, ← EReal.coe_mul, ← coe_sum, ← EReal.coe_add]

theorem kOutR_eq_rOutR (b : Fin 1024) (d : Fin 128) (h' : Fin 32) :
    kOutR src dst x we wg vbe vbg b d h' = rOutR src dst x we wg vbe vbg b d h' := by
  unfold kOutR rOutR
  rw [real_identity (adjR src dst d) (x b) we (fun k => wg k h') vbe (vbg h')]
  congr 1
  refine Finset.sum_congr rfl fun k _ => ?_
  congr 1
  rw [sum_into src dst d (fun s => ((∑ h, x b s h * we h k) + vbe k) * (Real.sqrt (outR src s))⁻¹),
    ← sum_eye d (fun s => ((∑ h, x b s h * we h k) + vbe k) * (Real.sqrt (outR src s))⁻¹),
    ← Finset.sum_add_distrib, Finset.sum_mul]
  refine Finset.sum_congr rfl fun s _ => ?_
  unfold adjR cntR eyeR
  ring

end RealData

-- The two arrangements agree when every datum is a real number: only then may the factors move across the sums.
theorem kOut_eq_rOut (hX : ∀ b p h, ∃ r : ℝ, X b p h = (r : EReal)) (hWe : ∀ i j, ∃ r : ℝ, We i j = (r : EReal))
    (hWg : ∀ i j, ∃ r : ℝ, Wg i j = (r : EReal)) (hbe : ∀ i, ∃ r : ℝ, be i = (r : EReal)) (hbg : ∀ i, ∃ r : ℝ, bg i = (r : EReal))
    (b : Fin 1024) (d : Fin 128) (h' : Fin 32) :
    kOut X We Wg be bg src dst b d h' = rOut X We Wg be bg src dst b d h' := by
  choose x hx using hX
  choose we hwe using hWe
  choose wg hwg using hWg
  choose vbe hvbe using hbe
  choose vbg hvbg using hbg
  obtain rfl : X = fun b p h => (x b p h : EReal) := funext fun b => funext fun p => funext fun h => hx b p h
  obtain rfl : We = fun i j => (we i j : EReal) := funext fun i => funext fun j => hwe i j
  obtain rfl : Wg = fun i j => (wg i j : EReal) := funext fun i => funext fun j => hwg i j
  obtain rfl : be = fun i => (vbe i : EReal) := funext fun i => hvbe i
  obtain rfl : bg = fun i => (vbg i : EReal) := funext fun i => hvbg i
  rw [kOut_coe, rOut_coe, kOutR_eq_rOutR]

open Idealize.ShloMosaic.ValueIdx

def Xof (a : (⟨2, ![1024, 4096]⟩ : Shape).Idx → EReal) : Fin 1024 → Fin 128 → Fin 32 → EReal :=
  fun b p h => a (ix2 b ⟨p.val * 32 + h.val, by have := p.isLt; have := h.isLt; omega⟩)
def Mof (a : (⟨2, ![32, 32]⟩ : Shape).Idx → EReal) : Fin 32 → Fin 32 → EReal := fun i j => a (ix2 i j)
def Vof (a : (⟨1, ![32]⟩ : Shape).Idx → EReal) : Fin 32 → EReal := fun i => a (ix1 i)
def Nof (a : (⟨1, ![1024]⟩ : Shape).Idx → BitVec 32) (h : ∀ e, (a e).toNat < 128) : Fin 1024 → Fin 128 :=
  fun e => ⟨(a (ix1 e)).toNat, h _⟩

end Cert.Spec

end
-- ==== Proof.PreDecode.lean ====
import proofs.«206864_g62740882260319_cont_9to1_m_949_20_alg».proof.Pre_finite_inputs
import proofs.«206864_g62740882260319_cont_9to1_m_949_20_alg».proof.Proof.Gen.Pre_finite_inputs
import Idealize.ShloMosaic.Lib.ReduceAll
import Idealize.ShloMosaic.Lib.StableHlo.Predicate
import Idealize.ShloMosaic.Lib.ValueIdx
import Idealize.ShloMosaic.PureOps.Ideal

noncomputable section

namespace Cert.PreDecode

open Cert.Pre_finite_inputs Idealize.ShloMosaic

instance : Subsingleton S_.Idx := ⟨fun a b => funext fun d => d.elim0⟩

theorem toNat_lt_128 (w : BitVec 32) (h0 : IntOp.cmpi .sge w 0#32 = 1#1) (h1 : IntOp.cmpi .slt w 128#32 = 1#1) :
    w.toNat < 128 := by
  rw [IntOp.cmpi_sge] at h0
  rw [IntOp.cmpi_slt] at h1
  have z : (0#32 : BitVec 32).toInt = 0 := by decide
  have c : (128#32 : BitVec 32).toInt = 128 := by decide
  rw [z] at h0
  rw [c] at h1
  have hw := w.isLt
  have e := BitVec.toInt_eq_toNat_cond w
  by_cases hc : 2 * w.toNat < 2 ^ 32
  · rw [if_pos hc] at e; omega
  · rw [if_neg hc] at e; omega

theorem range_of_all {hb : S_.BroadcastsInDim S1024 (![] : Fin 0 → Fin S1024.rank)} {hr : S1024.ReducesTo [0] S_}
    {hu : 0 < S_.numel} (a : IVec S1024 32)
    (e : Host.reduce IntOp.andi
          (andi (cmpi .sge a (broadcastInDim S1024 ![] hb (constantI S_ 32 0#32)))
            (cmpi .slt a (broadcastInDim S1024 ![] hb (constantI S_ 32 128#32))))
          (constantI S_ 1 1#1) hr hu ValueIdx.ix0 = 1#1) :
    ∀ i, (a i).toNat < 128 := by
  intro i
  have h := Host.reduce_andi_all _ _ hr hu ValueIdx.ix0 e i
  obtain ⟨h0, h1⟩ := IntOp.andi_eq_one.1 h
  exact toNat_lt_128 (a i) h0 h1

theorem inf_word : Ideal.ofBits .f32 0x7F800000#32 = (⊤ : EReal) := by
  simp [Ideal.ofBits, Ideal.ieee]

theorem real_of_abs_lt_top (x : EReal) (h : max x (-x) < ⊤) : ∃ r : ℝ, x = (r : EReal) := by
  induction x using EReal.rec with
  | bot => simp at h
  | coe r => exact ⟨r, rfl⟩
  | top => simp at h

theorem finite_of_all {s : Shape} {axes : List (Fin s.rank)} {hb : S_.BroadcastsInDim s (![] : Fin 0 → Fin s.rank)}
    {hr : s.ReducesTo axes S_} {hu : 0 < S_.numel} (x : FVec Ideal s .f32)
    (e : Host.reduce IntOp.andi
          (cmpf .olt (Host.absf x) (broadcastInDim s ![] hb (constant S_ .f32 0x7F800000#32)))
          (constantI S_ 1 1#1) hr hu ValueIdx.ix0 = 1#1) :
    ∀ i, ∃ r : ℝ, x i = (r : EReal) := by
  intro i
  have h := Host.reduce_andi_all _ _ hr hu ValueIdx.ix0 e i
  have h' : Ideal.cmp .olt (max (x i) (-(x i))) (Ideal.ofBits .f32 0x7F800000#32) = 1#1 := h
  rw [inf_word] at h'
  simp only [Ideal.cmp, StableHlo.Predicate.ofBool_eq_one_iff, decide_eq_true_eq] at h'
  exact real_of_abs_lt_top (x i) h'

variable [Cert.Pre_finite_inputs.Facts]

theorem ranges_of_pre {F : FTy → Type} [FloatOps F] (a0 : FVec F S1024x4096 .f32) (a1 : FVec F S32x32 .f32)
    (a2 : FVec F S32 .f32) (a3 : FVec F S32x32 .f32) (a4 : FVec F S32 .f32) (a5 a6 : IVec S1024 32)
    (h : fn (F := F) a0 a1 a2 a3 a4 a5 a6 = fun _ => 1#1) :
    (∀ e, (a5 e).toNat < 128) ∧ (∀ e, (a6 e).toNat < 128) := by
  have e := congrFun h ValueIdx.ix0
  dsimp only [fn, fn_part1, fn_part2] at e
  obtain ⟨e, e6⟩ := IntOp.andi_eq_one.1 e
  obtain ⟨e, e5⟩ := IntOp.andi_eq_one.1 e
  exact ⟨range_of_all a5 e5, range_of_all a6 e6⟩

theorem finite_of_pre (a0 : FVec Ideal S1024x4096 .f32) (a1 : FVec Ideal S32x32 .f32) (a2 : FVec Ideal S32 .f32)
    (a3 : FVec Ideal S32x32 .f32) (a4 : FVec Ideal S32 .f32) (a5 a6 : IVec S1024 32)
    (h : fn (F := Ideal) a0 a1 a2 a3 a4 a5 a6 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) := by
  have e := congrFun h ValueIdx.ix0
  dsimp only [fn, fn_part1, fn_part2] at e
  obtain ⟨e, -⟩ := IntOp.andi_eq_one.1 e
  obtain ⟨e, -⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨finite_of_all a0 e0, finite_of_all a1 e1, finite_of_all a2 e2, finite_of_all a3 e3, finite_of_all a4 e4⟩

end Cert.PreDecode

end
-- ==== Proof.RefScatter.lean ====
import proofs.«206864_g62740882260319_cont_9to1_m_949_20_alg».proof.Proof.Spec
import Mathlib.Algebra.BigOperators.Fin
import Mathlib.Algebra.BigOperators.Group.Finset.Piecewise
import Mathlib.Data.EReal.Basic

noncomputable section

open scoped BigOperators

namespace Cert.RefScatter

theorem sum_fin1152 {M : Type*} [AddCommMonoid M] (f : Fin 1152 → M) :
    ∑ e, f e = (∑ e : Fin 1024, f ⟨e.val, by omega⟩) + ∑ q : Fin 128, f ⟨1024 + q.val, by omega⟩ := by
  show ∑ e : Fin (1024 + 128), f e = _
  rw [Fin.sum_univ_add]
  rfl

theorem sum_indicator {ι : Type*} [DecidableEq ι] (s : Finset ι) (P : ι → Prop) [DecidablePred P] :
    ∑ i ∈ s, (if P i then (1 : EReal) else 0) = (((s.filter P).card : ℝ) : EReal) := by
  induction s using Finset.induction_on with
  | empty => simp
  | insert a s ha ih =>
    rw [Finset.sum_insert ha, ih, Finset.filter_insert]
    by_cases hp : P a
    · rw [if_pos hp, if_pos hp, Finset.card_insert_of_notMem (by simp [ha]), Nat.cast_succ, EReal.coe_add,
        EReal.coe_one, add_comm]
    · rw [if_neg hp, if_neg hp, zero_add]

theorem deg_count (s : Fin 1024 → Fin 128) (t : Fin 1152 → ℤ)
    (h1 : ∀ e : Fin 1024, t ⟨e.val, by omega⟩ = ((s e).val : ℤ))
    (h2 : ∀ q : Fin 128, t ⟨1024 + q.val, by omega⟩ = (q.val : ℤ)) (p : Fin 128) :
    (0 : EReal) + ∑ e : Fin 1152, (if t e = (p.val : ℤ) then (1 : EReal) else 0)
      = (((Finset.univ.filter fun e : Fin 1024 => s e = p).card : ℝ) : EReal) + 1 := by
  rw [zero_add, sum_fin1152]
  simp only [h1, h2, Nat.cast_inj, Fin.val_inj]
  rw [sum_indicator, Finset.sum_ite_eq' Finset.univ p (fun _ => (1 : EReal)), if_pos (Finset.mem_univ p)]

theorem outDeg_count (src : Fin 1024 → Fin 128) (t : Fin 1152 → ℤ)
    (h1 : ∀ e : Fin 1024, t ⟨e.val, by omega⟩ = ((src e).val : ℤ))
    (h2 : ∀ q : Fin 128, t ⟨1024 + q.val, by omega⟩ = (q.val : ℤ)) (p : Fin 128) :
    (0 : EReal) + ∑ e : Fin 1152, (if t e = (p.val : ℤ) then (1 : EReal) else 0) = Cert.Spec.outDegR src p :=
  deg_count src t h1 h2 p

theorem inDeg_count (dst : Fin 1024 → Fin 128) (t : Fin 1152 → ℤ)
    (h1 : ∀ e : Fin 1024, t ⟨e.val, by omega⟩ = ((dst e).val : ℤ))
    (h2 : ∀ q : Fin 128, t ⟨1024 + q.val, by omega⟩ = (q.val : ℤ)) (p : Fin 128) :
    (0 : EReal) + ∑ e : Fin 1152, (if t e = (p.val : ℤ) then (1 : EReal) else 0) = Cert.Spec.inDegR dst p :=
  deg_count dst t h1 h2 p

theorem row_sum (src dst : Fin 1024 → Fin 128) (tD : Fin 1152 → ℤ) (sF : Fin 1152 → Fin 128)
    (hD1 : ∀ e : Fin 1024, tD ⟨e.val, by omega⟩ = ((dst e).val : ℤ))
    (hD2 : ∀ q : Fin 128, tD ⟨1024 + q.val, by omega⟩ = (q.val : ℤ))
    (hS1 : ∀ e : Fin 1024, sF ⟨e.val, by omega⟩ = src e)
    (hS2 : ∀ q : Fin 128, sF ⟨1024 + q.val, by omega⟩ = q) (f : Fin 128 → EReal) (d : Fin 128) :
    (0 : EReal) + ∑ e : Fin 1152, (if tD e = (d.val : ℤ) then f (sF e) else 0)
      = (∑ e ∈ Finset.univ.filter (fun e : Fin 1024 => dst e = d), f (src e)) + f d := by
  rw [zero_add, sum_fin1152]
  simp only [hD1, hD2, hS1, hS2, Nat.cast_inj, Fin.val_inj]
  rw [Finset.sum_filter, Finset.sum_ite_eq' Finset.univ d f, if_pos (Finset.mem_univ d)]

theorem agg_sum (X : Fin 1024 → Fin 128 → Fin 32 → EReal) (We : Fin 32 → Fin 32 → EReal) (be : Fin 32 → EReal)
    (src dst : Fin 1024 → Fin 128) (tD : Fin 1152 → ℤ) (sF : Fin 1152 → Fin 128)
    (hD1 : ∀ e : Fin 1024, tD ⟨e.val, by omega⟩ = ((dst e).val : ℤ))
    (hD2 : ∀ q : Fin 128, tD ⟨1024 + q.val, by omega⟩ = (q.val : ℤ))
    (hS1 : ∀ e : Fin 1024, sF ⟨e.val, by omega⟩ = src e)
    (hS2 : ∀ q : Fin 128, sF ⟨1024 + q.val, by omega⟩ = q) (d : Fin 128) (b : Fin 1024) (k : Fin 32) :
    (0 : EReal) + ∑ e : Fin 1152, (if tD e = (d.val : ℤ) then Cert.Spec.hR X We be src (sF e) b k else 0)
      = Cert.Spec.aggR X We be src dst d b k :=
  row_sum src dst tD sF hD1 hD2 hS1 hS2 (fun p => Cert.Spec.hR X We be src p b k) d

end Cert.RefScatter

end
-- ==== Proof.RefSide.Hand.lean ====
import proofs.«206864_g62740882260319_cont_9to1_m_949_20_alg».proof.Proof.Gen.ReferenceIdeal
import Idealize.ShloMosaic.Lib.ValueIdx
import Idealize.ShloMosaic.Lib.ValueIdxRank1
import Idealize.ShloMosaic.Lib.Pipeline.Value
import Idealize.ShloMosaic.Lib.StableHlo.Predicate
import Idealize.ShloMosaic.PureOps.Ideal.Laws

noncomputable section

open scoped BigOperators

namespace Cert.RefSide

open Cert.ReferenceIdeal Cert.ReferenceIdeal.Gen Idealize.ShloMosaic Idealize.ShloMosaic.ValueIdx

theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · rename_i h
    constructor
    · intro e a
      have e1 := congrFun (Option.some.inj e) a
      have e2 := congrArg Fin.val e1
      simp only at e2
      have := h a
      omega
    · intro e
      congr 1
      funext a
      apply Fin.ext
      have := e a
      have := h a
      simp only
      omega
  · rename_i h
    constructor
    · intro e; cases e
    · intro e
      exfalso
      apply h
      intro a
      have := e a
      have := (i a).isLt
      omega

abbrev D1 := scatter_S128_S1152x1_S1152_n_0_0_1
abbrev D3 := scatter_S128x1024x32_S1152x1_S1152x1024x32_12_0_0_1
abbrev G := gather_S128x1024x32_S1152x1_S1152x1024x32_12_0_n_n_0_1_1102432

theorem D1_start (e : Fin 1152) (idx : IVec S1152x1 32) (a : Fin 1) :
    D1.start (ix1 e) idx a = (idx (ix2 e 0)).toInt := by
  obtain rfl : a = 0 := Subsingleton.elim _ _
  unfold ScatterDims.start
  rw [dif_pos (show (0 : Fin 1) ∈ D1.scatterDimsToOperandDims from List.mem_singleton.mpr rfl)]
  have hsi : D1.siIdx (ix1 e) ⟨List.idxOf (0 : Fin 1) D1.scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

theorem D1_window (e : Fin 1152) (a : Fin 1) : D1.window (ix1 e) a = 0 := by
  obtain rfl : a = 0 := Subsingleton.elim _ _
  unfold ScatterDims.window
  rw [dif_neg (by decide)]

theorem D1_lands (e : Fin 1152) (idx : IVec S1152x1 32) (p : Fin 128) :
    D1.resultIdx? (ix1 e) idx = some (ix1 p) ↔ (idx (ix2 e 0)).toInt = (p.val : Int) := by
  rw [resultIdx?_eq_some_iff]
  constructor
  · intro h
    have := h 0
    rw [D1_start, D1_window] at this
    simpa using this
  · intro h a
    obtain rfl : a = 0 := Subsingleton.elim _ _
    rw [D1_start, D1_window, h]
    simp

theorem scatter1_apply (x : S128.Idx → EReal) (idx : IVec S1152x1 32) (upd : S1152.Idx → EReal) (p : Fin 128) :
    Host.scatterAdd (F := Ideal) (φ := .f32) D1 x idx upd (ix1 p)
      = x (ix1 p) + ∑ e : Fin 1152, if (idx (ix2 e 0)).toInt = (p.val : Int) then upd (ix1 e) else 0 := by
  show Ideal.hostScatterAdd D1 x idx upd (ix1 p) = _
  unfold Ideal.hostScatterAdd
  rw [Finset.sum_filter, ← Equiv.sum_comp (idxEquiv1 (n := 1152)).symm]
  congr 1
  refine Finset.sum_congr rfl fun e _ => ?_
  show (if D1.resultIdx? (ix1 e) idx = some (ix1 p) then upd (ix1 e) else 0) = _
  simp only [D1_lands]

theorem D3_start0 (e : Fin 1152) (b : Fin 1024) (k : Fin 32) (idx : IVec S1152x1 32) :
    D3.start (ix3 e b k) idx 0 = (idx (ix2 e 0)).toInt := by
  unfold ScatterDims.start
  rw [dif_pos (show (0 : Fin 3) ∈ D3.scatterDimsToOperandDims from List.mem_singleton.mpr rfl)]
  have hsi : D3.siIdx (ix3 e b k) ⟨List.idxOf (0 : Fin 3) D3.scatterDimsToOperandDims,
      List.idxOf_lt_length_iff.2 (List.mem_singleton.mpr rfl)⟩ = ix2 e 0 := by
    funext c; refine Fin.ext ?_
    match c with
    | ⟨0, _⟩ => rfl
    | ⟨1, _⟩ => rfl
  rw [hsi]
theorem D3_start1 (e : Fin 1152) (b : Fin 1024) (k : Fin 32) (idx : IVec S1152x1 32) :
    D3.start (ix3 e b k) idx 1 = 0 := by
  unfold ScatterDims.start; rw [dif_neg (by decide)]
theorem D3_start2 (e : Fin 1152) (b : Fin 1024) (k : Fin 32) (idx : IVec S1152x1 32) :
    D3.start (ix3 e b k) idx 2 = 0 := by
  unfold ScatterDims.start; rw [dif_neg (by decide)]
theorem D3_window0 (e : Fin 1152) (b : Fin 1024) (k : Fin 32) : D3.window (ix3 e b k) 0 = 0 := by
  unfold ScatterDims.window; rw [dif_neg (by decide)]
theorem D3_window1 (e : Fin 1152) (b : Fin 1024) (k : Fin 32) : D3.window (ix3 e b k) 1 = b.val := by
  unfold ScatterDims.window; rw [dif_pos (by decide)]; rfl
theorem D3_window2 (e : Fin 1152) (b : Fin 1024) (k : Fin 32) : D3.window (ix3 e b k) 2 = k.val := by
  unfold ScatterDims.window; rw [dif_pos (by decide)]; rfl

theorem D3_lands (e : Fin 1152) (b' : Fin 1024) (k' : Fin 32) (idx : IVec S1152x1 32) (d : Fin 128) (b : Fin 1024)
    (k : Fin 32) :
    D3.resultIdx? (ix3 e b' k') idx = some (ix3 d b k)
      ↔ (idx (ix2 e 0)).toInt = (d.val : Int) ∧ b' = b ∧ k' = k := by
  rw [resultIdx?_eq_some_iff]
  constructor
  · intro h
    have h0 : D3.start (ix3 e b' k') idx 0 + ((D3.window (ix3 e b' k') 0 : Nat) : Int) = (d.val : Int) := h 0
    have h1 : D3.start (ix3 e b' k') idx 1 + ((D3.window (ix3 e b' k') 1 : Nat) : Int) = (b.val : Int) := h 1
    have h2 : D3.start (ix3 e b' k') idx 2 + ((D3.window (ix3 e b' k') 2 : Nat) : Int) = (k.val : Int) := h 2
    rw [D3_start0, D3_window0] at h0
    rw [D3_start1, D3_window1] at h1
    rw [D3_start2, D3_window2] at h2
    refine ⟨by simpa using h0, Fin.ext (by omega), Fin.ext (by omega)⟩
  · rintro ⟨h0, rfl, rfl⟩ a
    match a with
    | ⟨0, _⟩ =>
      show D3.start (ix3 e b' k') idx 0 + ((D3.window (ix3 e b' k') 0 : Nat) : Int) = (d.val : Int)
      rw [D3_start0, D3_window0, h0]; simp
    | ⟨1, _⟩ =>
      show D3.start (ix3 e b' k') idx 1 + ((D3.window (ix3 e b' k') 1 : Nat) : Int) = (b'.val : Int)
      rw [D3_start1, D3_window1]; simp
    | ⟨2, _⟩ =>
      show D3.start (ix3 e b' k') idx 2 + ((D3.window (ix3 e b' k') 2 : Nat) : Int) = (k'.val : Int)
      rw [D3_start2, D3_window2]; simp

theorem scatter3_apply (x : S128x1024x32.Idx → EReal) (idx : IVec S1152x1 32) (upd : S1152x1024x32.Idx → EReal)
    (d : Fin 128) (b : Fin 1024) (k : Fin 32) :
    Host.scatterAdd (F := Ideal) (φ := .f32) D3 x idx upd (ix3 d b k)
      = x (ix3 d b k) + ∑ e : Fin 1152, if (idx (ix2 e 0)).toInt = (d.val : Int) then upd (ix3 e b k) else 0 := by
  show Ideal.hostScatterAdd D3 x idx upd (ix3 d b k) = _
  unfold Ideal.hostScatterAdd
  congr 1
  rw [← Finset.sum_filter]
  refine Finset.sum_nbij' (fun j : S1152x1024x32.Idx => (j 0 : Fin 1152))
    (fun e : Fin 1152 => (ix3 e b k : S1152x1024x32.Idx)) ?_ ?_ ?_ ?_ ?_
  · intro j hj
    obtain ⟨e', b', k', rfl⟩ : ∃ (e' : Fin 1152) (b' : Fin 1024) (k' : Fin 32), j = ix3 e' b' k' :=
      ⟨_, _, _, eq_ix3 j⟩
    rw [Finset.mem_filter] at hj ⊢
    exact ⟨Finset.mem_univ _, ((D3_lands e' b' k' idx d b k).1 hj.2).1⟩
  · intro e he
    rw [Finset.mem_filter] at he ⊢
    exact ⟨Finset.mem_univ _, (D3_lands e b k idx d b k).2 ⟨he.2, rfl, rfl⟩⟩
  · intro j hj
    obtain ⟨e', b', k', rfl⟩ : ∃ (e' : Fin 1152) (b' : Fin 1024) (k' : Fin 32), j = ix3 e' b' k' :=
      ⟨_, _, _, eq_ix3 j⟩
    rw [Finset.mem_filter] at hj
    obtain ⟨-, rfl, rfl⟩ := (D3_lands e' b' k' idx d b k).1 hj.2
    rfl
  · intro e _; rfl
  · intro j hj
    obtain ⟨e', b', k', rfl⟩ : ∃ (e' : Fin 1152) (b' : Fin 1024) (k' : Fin 32), j = ix3 e' b' k' :=
      ⟨_, _, _, eq_ix3 j⟩
    rw [Finset.mem_filter] at hj
    obtain ⟨-, rfl, rfl⟩ := (D3_lands e' b' k' idx d b k).1 hj.2
    rfl

theorem G_read0 (e : Fin 1152) (b : Fin 1024) (k : Fin 32) (idx : IVec S1152x1 32) :
    G.start (ix3 e b k) idx 0 + G.batchCoord (ix3 e b k) 0 + G.offCoord (ix3 e b k) 0
      = min (idx (ix2 e 0)).toInt.toNat 127 := by
  rw [GatherDims.batchCoord_eq_zero _ _ _ List.not_mem_nil, GatherDims.offCoord_eq_zero _ _ _ (by decide)]
  unfold GatherDims.start
  rw [dif_pos (show (0 : Fin 3) ∈ G.startIndexMap from List.mem_singleton.mpr rfl)]
  have hsi : G.siIdx (ix3 e b k) ⟨List.idxOf (0 : Fin 3) G.startIndexMap,
      List.idxOf_lt_length_iff.2 (List.mem_singleton.mpr rfl)⟩ = ix2 e 0 := by
    funext c; refine Fin.ext ?_
    match c with
    | ⟨0, _⟩ => rfl
    | ⟨1, _⟩ => rfl
  rw [hsi]
  rfl
theorem G_read1 (e : Fin 1152) (b : Fin 1024) (k : Fin 32) (idx : IVec S1152x1 32) :
    G.start (ix3 e b k) idx 1 + G.batchCoord (ix3 e b k) 1 + G.offCoord (ix3 e b k) 1 = b.val := by
  rw [GatherDims.batchCoord_eq_zero _ _ _ List.not_mem_nil]
  unfold GatherDims.start GatherDims.offCoord
  rw [dif_neg (by decide), dif_pos (by decide)]
  simp only [Nat.zero_add, Nat.add_zero]
  rfl
theorem G_read2 (e : Fin 1152) (b : Fin 1024) (k : Fin 32) (idx : IVec S1152x1 32) :
    G.start (ix3 e b k) idx 2 + G.batchCoord (ix3 e b k) 2 + G.offCoord (ix3 e b k) 2 = k.val := by
  rw [GatherDims.batchCoord_eq_zero _ _ _ List.not_mem_nil]
  unfold GatherDims.start GatherDims.offCoord
  rw [dif_neg (by decide), dif_pos (by decide)]
  simp only [Nat.zero_add, Nat.add_zero]
  rfl

theorem gather_rows {α : Type} (x : S128x1024x32.Idx → α) (idx : IVec S1152x1 32) (e : Fin 1152) (b : Fin 1024)
    (k : Fin 32) :
    Host.gather G x idx (ix3 e b k) = x (ix3 (⟨min (idx (ix2 e 0)).toInt.toNat 127, by omega⟩ : Fin 128) b k) := by
  unfold Host.gather
  congr 1
  funext a
  refine Fin.ext ?_
  match a with
  | ⟨0, _⟩ => exact G_read0 e b k idx
  | ⟨1, _⟩ => exact G_read1 e b k idx
  | ⟨2, _⟩ => exact G_read2 e b k idx

theorem concat_left {α : Type} (a : S1024.Idx → α) (c : S128.Idx → α) (h : Shape.Concatenates [S1024, S128] S1152 0)
    (e : Fin 1024) :
    concatenate S1152 0 [⟨S1024, a⟩, ⟨S128, c⟩] h (ix1 (⟨e.val, by omega⟩ : Fin 1152)) = a (ix1 e) :=
  concatenate_pair_apply_left 0 a c h _ rfl (ix1 e) (fun b' => by
    obtain rfl : b' = 0 := Subsingleton.elim _ _
    rfl)

theorem concat_right {α : Type} (a : S1024.Idx → α) (c : S128.Idx → α) (h : Shape.Concatenates [S1024, S128] S1152 0)
    (q : Fin 128) :
    concatenate S1152 0 [⟨S1024, a⟩, ⟨S128, c⟩] h (ix1 (⟨1024 + q.val, by omega⟩ : Fin 1152)) = c (ix1 q) :=
  concatenate_pair_apply_right 0 a c h _ rfl rfl (ix1 q)
    (fun b' hb => absurd (Subsingleton.elim _ _) hb)
    (by show q.val + 1024 = 1024 + q.val; omega)

theorem fin1152_cases {P : Fin 1152 → Prop} (hl : ∀ e : Fin 1024, P ⟨e.val, by omega⟩)
    (hr : ∀ q : Fin 128, P ⟨1024 + q.val, by omega⟩) (e : Fin 1152) : P e := by
  by_cases he : e.val < 1024
  · exact hl ⟨e.val, he⟩
  · have h := hr ⟨e.val - 1024, by omega⟩
    have ee : (⟨1024 + (e.val - 1024), by omega⟩ : Fin 1152) = e := Fin.ext (by show 1024 + (e.val - 1024) = e.val; omega)
    rw [← ee]
    exact h

end Cert.RefSide

end
-- ==== Proof.RefSide.Words.lean ====
import Idealize.ShloMosaic.Lib.StableHlo.Predicate
import Idealize.ShloMosaic.Lib.ValueIdx
import Idealize.ShloMosaic.Lib.Affine
import Idealize.ShloMosaic.PureOps.Ideal.Laws

noncomputable section

namespace Cert.RefSide

open Idealize.ShloMosaic

theorem ofBits_one_f32 : Ideal.ofBits .f32 0x3F800000#32 = 1 := by
  simp [Ideal.ofBits, Ideal.ieee]
  norm_cast
  norm_num

theorem toInt_small (w : BitVec 32) (hw : w.toNat < 128) : w.toInt = (w.toNat : ℤ) :=
  StableHlo.Predicate.toInt_eq_toNat_of_lt (by omega)

theorem wrap_id (w : BitVec 32) (hw : w.toNat < 128) :
    Scalar.select (IntOp.cmpi .slt w 0#32) (IntOp.addi w 128#32) w = w := by
  have hn : ¬ IntOp.cmpi .slt w 0#32 = 1#1 := by
    rw [IntOp.cmpi_slt, toInt_small w hw]
    have z : (0#32 : BitVec 32).toInt = 0 := by decide
    rw [z]
    omega
  unfold Scalar.select
  exact if_neg hn

theorem clamp_small (w : BitVec 32) (hw : w.toNat < 128) : min w.toInt.toNat 127 = w.toNat := by
  rw [toInt_small w hw, Int.toNat_natCast]
  omega

theorem ofNat_toNat_small (q : Fin 128) : (BitVec.ofNat 32 q.val).toNat = q.val := by
  have := q.isLt
  rw [BitVec.toNat_ofNat]
  exact Nat.mod_eq_of_lt (by omega)

end Cert.RefSide

end
-- ==== Proof.RefSide.Middle.lean ====
import proofs.«206864_g62740882260319_cont_9to1_m_949_20_alg».proof.Proof.Gen.ReferenceIdeal
import proofs.«206864_g62740882260319_cont_9to1_m_949_20_alg».proof.Proof.Gen.ReferenceIdeal.Read
import proofs.«206864_g62740882260319_cont_9to1_m_949_20_alg».proof.Proof.Spec
import proofs.«206864_g62740882260319_cont_9to1_m_949_20_alg».proof.Proof.RefScatter
import proofs.«206864_g62740882260319_cont_9to1_m_949_20_alg».proof.Proof.RefSide.Hand
import proofs.«206864_g62740882260319_cont_9to1_m_949_20_alg».proof.Proof.RefSide.Words

noncomputable section

open scoped BigOperators

namespace Cert.RefSide

open Cert.ReferenceIdeal Cert.ReferenceIdeal.Read Cert.Spec Idealize.ShloMosaic Idealize.ShloMosaic.ValueIdx

variable (x0 : (⟨S1024x4096, .f32⟩ : BufTy).Contents (Elt Ideal)) (x1 : (⟨S32x32, .f32⟩ : BufTy).Contents (Elt Ideal))
  (x2 : (⟨S32, .f32⟩ : BufTy).Contents (Elt Ideal)) (x5 x6 : (⟨S1024, .i32⟩ : BufTy).Contents (Elt Ideal))

theorem v7_left (e : Fin 1024) :
    val_main_v7 (F := Ideal) x5 (ix1 (⟨e.val, by omega⟩ : Fin 1152)) = x5 (ix1 e) := by
  unfold val_main_v7; exact concat_left _ _ _ e
theorem v7_right (q : Fin 128) :
    val_main_v7 (F := Ideal) x5 (ix1 (⟨1024 + q.val, by omega⟩ : Fin 1152)) = BitVec.ofNat 32 q.val := by
  unfold val_main_v7; exact (concat_right _ _ _ q).trans rfl
theorem v8_left (e : Fin 1024) :
    val_main_v8 (F := Ideal) x6 (ix1 (⟨e.val, by omega⟩ : Fin 1152)) = x6 (ix1 e) := by
  unfold val_main_v8; exact concat_left _ _ _ e
theorem v8_right (q : Fin 128) :
    val_main_v8 (F := Ideal) x6 (ix1 (⟨1024 + q.val, by omega⟩ : Fin 1152)) = BitVec.ofNat 32 q.val := by
  unfold val_main_v8; exact (concat_right _ _ _ q).trans rfl

theorem v7_lt (h5 : ∀ e, (x5 e).toNat < 128) (e : Fin 1152) : (val_main_v7 (F := Ideal) x5 (ix1 e)).toNat < 128 := by
  refine fin1152_cases (P := fun e => (val_main_v7 (F := Ideal) x5 (ix1 e)).toNat < 128) (fun e => ?_) (fun q => ?_) e
  · show (val_main_v7 (F := Ideal) x5 (ix1 (⟨e.val, by omega⟩ : Fin 1152))).toNat < 128
    rw [v7_left]; exact h5 _
  · show (val_main_v7 (F := Ideal) x5 (ix1 (⟨1024 + q.val, by omega⟩ : Fin 1152))).toNat < 128
    rw [v7_right, ofNat_toNat_small]; exact q.isLt
theorem v8_lt (h6 : ∀ e, (x6 e).toNat < 128) (e : Fin 1152) : (val_main_v8 (F := Ideal) x6 (ix1 e)).toNat < 128 := by
  refine fin1152_cases (P := fun e => (val_main_v8 (F := Ideal) x6 (ix1 e)).toNat < 128) (fun e => ?_) (fun q => ?_) e
  · show (val_main_v8 (F := Ideal) x6 (ix1 (⟨e.val, by omega⟩ : Fin 1152))).toNat < 128
    rw [v8_left]; exact h6 _
  · show (val_main_v8 (F := Ideal) x6 (ix1 (⟨1024 + q.val, by omega⟩ : Fin 1152))).toNat < 128
    rw [v8_right, ofNat_toNat_small]; exact q.isLt

theorem v7_toInt_left (h5 : ∀ e, (x5 e).toNat < 128) (e : Fin 1024) :
    (val_main_v7 (F := Ideal) x5 (ix1 (⟨e.val, by omega⟩ : Fin 1152))).toInt = ((Nof x5 h5 e).val : ℤ) := by
  rw [v7_left, toInt_small _ (h5 _)]; rfl
theorem v7_toInt_right (q : Fin 128) :
    (val_main_v7 (F := Ideal) x5 (ix1 (⟨1024 + q.val, by omega⟩ : Fin 1152))).toInt = (q.val : ℤ) := by
  rw [v7_right, toInt_small _ (by rw [ofNat_toNat_small]; exact q.isLt), ofNat_toNat_small]
theorem v8_toInt_left (h6 : ∀ e, (x6 e).toNat < 128) (e : Fin 1024) :
    (val_main_v8 (F := Ideal) x6 (ix1 (⟨e.val, by omega⟩ : Fin 1152))).toInt = ((Nof x6 h6 e).val : ℤ) := by
  rw [v8_left, toInt_small _ (h6 _)]; rfl
theorem v8_toInt_right (q : Fin 128) :
    (val_main_v8 (F := Ideal) x6 (ix1 (⟨1024 + q.val, by omega⟩ : Fin 1152))).toInt = (q.val : ℤ) := by
  rw [v8_right, toInt_small _ (by rw [ofNat_toNat_small]; exact q.isLt), ofNat_toNat_small]

def srcN (h5 : ∀ e, (x5 e).toNat < 128) (e : Fin 1152) : Fin 128 :=
  ⟨(val_main_v7 (F := Ideal) x5 (ix1 e)).toNat, v7_lt x5 h5 e⟩
theorem srcN_left (h5 : ∀ e, (x5 e).toNat < 128) (e : Fin 1024) : srcN x5 h5 ⟨e.val, by omega⟩ = Nof x5 h5 e :=
  Fin.ext (by show (val_main_v7 (F := Ideal) x5 (ix1 (⟨e.val, by omega⟩ : Fin 1152))).toNat = (x5 (ix1 e)).toNat; rw [v7_left])
theorem srcN_right (h5 : ∀ e, (x5 e).toNat < 128) (q : Fin 128) : srcN x5 h5 ⟨1024 + q.val, by omega⟩ = q :=
  Fin.ext (by show (val_main_v7 (F := Ideal) x5 (ix1 (⟨1024 + q.val, by omega⟩ : Fin 1152))).toNat = q.val; rw [v7_right, ofNat_toNat_small])

theorem ix2_col (f : S1152x1.Idx → S1152.Idx) (hf : ∀ i : S1152x1.Idx, (f i 0).val = (i 0).val) (e : Fin 1152) :
    f (ix2 e (0 : Fin 1)) = ix1 e :=
  funext fun a => Fin.ext (by
    obtain rfl : a = 0 := Subsingleton.elim _ _
    exact hf _)

theorem v15_at (h5 : ∀ e, (x5 e).toNat < 128) (e : Fin 1152) :
    val_main_v15 (F := Ideal) x5 (ix2 e (0 : Fin 1)) = val_main_v7 (F := Ideal) x5 (ix1 e) := by
  rw [val_main_v15_apply, ix2_col idx_main_v15 (fun _ => rfl), val_main_v14_apply, val_main_v11_apply, val_main_v13_apply,
    val_main_v10_apply, val_main_v12_apply, val_main_c_apply, val_main_c_0_apply]
  exact wrap_id _ (v7_lt x5 h5 e)
theorem v24_at (h6 : ∀ e, (x6 e).toNat < 128) (e : Fin 1152) :
    val_main_v24 (F := Ideal) x6 (ix2 e (0 : Fin 1)) = val_main_v8 (F := Ideal) x6 (ix1 e) := by
  rw [val_main_v24_apply, ix2_col idx_main_v24 (fun _ => rfl), val_main_v23_apply, val_main_v20_apply, val_main_v22_apply,
    val_main_v19_apply, val_main_v21_apply, val_main_c_3_apply, val_main_c_4_apply]
  exact wrap_id _ (v8_lt x6 h6 e)
theorem v37_at (h5 : ∀ e, (x5 e).toNat < 128) (e : Fin 1152) :
    val_main_v37 (F := Ideal) x5 (ix2 e (0 : Fin 1)) = val_main_v7 (F := Ideal) x5 (ix1 e) := by
  rw [val_main_v37_apply, ix2_col idx_main_v37 (fun _ => rfl), val_main_v36_apply, val_main_v33_apply, val_main_v35_apply,
    val_main_v32_apply, val_main_v34_apply, val_main_c_7_apply, val_main_c_8_apply]
  exact wrap_id _ (v7_lt x5 h5 e)
theorem v40_at (e : Fin 1152) :
    val_main_v40 (F := Ideal) x6 (ix2 e (0 : Fin 1)) = val_main_v8 (F := Ideal) x6 (ix1 e) := by
  rw [val_main_v40_apply, ix2_col idx_main_v40 (fun _ => rfl)]

theorem v17_at (h5 : ∀ e, (x5 e).toNat < 128) (p : Fin 128) :
    val_main_v17 (F := Ideal) x5 (ix1 p) = outDegR (Nof x5 h5) p := by
  unfold val_main_v17
  rw [scatter1_apply, val_main_v9_apply, val_main_cst_apply, Ideal.ofBits_def, Ideal.ofBits_zero_f32]
  have hu : ∀ e : Fin 1152, val_main_v16 (F := Ideal) (ix1 e) = 1 := fun e => by
    rw [val_main_v16_apply, val_main_cst_1_apply, Ideal.ofBits_def, ofBits_one_f32]
  simp only [hu]
  exact Cert.RefScatter.outDeg_count (Nof x5 h5) (fun e => (val_main_v15 (F := Ideal) x5 (ix2 e (0 : Fin 1))).toInt)
    (fun e => by show (val_main_v15 (F := Ideal) x5 (ix2 _ (0 : Fin 1))).toInt = _; rw [v15_at x5 h5]; exact v7_toInt_left x5 h5 e)
    (fun q => by show (val_main_v15 (F := Ideal) x5 (ix2 _ (0 : Fin 1))).toInt = _; rw [v15_at x5 h5]; exact v7_toInt_right x5 q) p

theorem v26_at (h6 : ∀ e, (x6 e).toNat < 128) (p : Fin 128) :
    val_main_v26 (F := Ideal) x6 (ix1 p) = inDegR (Nof x6 h6) p := by
  unfold val_main_v26
  rw [scatter1_apply, val_main_v18_apply, val_main_cst_2_apply, Ideal.ofBits_def, Ideal.ofBits_zero_f32]
  have hu : ∀ e : Fin 1152, val_main_v25 (F := Ideal) (ix1 e) = 1 := fun e => by
    rw [val_main_v25_apply, val_main_cst_5_apply, Ideal.ofBits_def, ofBits_one_f32]
  simp only [hu]
  exact Cert.RefScatter.inDeg_count (Nof x6 h6) (fun e => (val_main_v24 (F := Ideal) x6 (ix2 e (0 : Fin 1))).toInt)
    (fun e => by show (val_main_v24 (F := Ideal) x6 (ix2 _ (0 : Fin 1))).toInt = _; rw [v24_at x6 h6]; exact v8_toInt_left x6 h6 e)
    (fun q => by show (val_main_v24 (F := Ideal) x6 (ix2 _ (0 : Fin 1))).toInt = _; rw [v24_at x6 h6]; exact v8_toInt_right x6 q) p

theorem v30_at (h5 : ∀ e, (x5 e).toNat < 128) (p : Fin 128) (b : Fin 1024) (k : Fin 32) :
    val_main_v30 (F := Ideal) x5 (ix3 p b k) = Ideal.rsqrt (max 1 (outDegR (Nof x5 h5) p)) := by
  rw [val_main_v30_apply, val_main_v29_apply,
    show idx_main_v29 (idx_main_v30 (ix3 p b k)) = ix1 p from
      funext fun a => Fin.ext (by obtain rfl : a = 0 := Subsingleton.elim _ _; rfl),
    val_main_v28_apply, val_main_v27_apply, val_main_call0_v1_apply, val_main_call0_v0_apply, val_main_cst_6_apply,
    v17_at x5 h5, Ideal.hostUnary_rsqrt_def, Ideal.maximumf_def, Ideal.ofBits_def, ofBits_one_f32]

theorem v45_at (h6 : ∀ e, (x6 e).toNat < 128) (d : Fin 128) (b : Fin 1024) (k : Fin 32) :
    val_main_v45 (F := Ideal) x6 (ix3 d b k) = Ideal.rsqrt (max 1 (inDegR (Nof x6 h6) d)) := by
  rw [val_main_v45_apply, val_main_v44_apply,
    show idx_main_v44 (idx_main_v45 (ix3 d b k)) = ix1 d from
      funext fun a => Fin.ext (by obtain rfl : a = 0 := Subsingleton.elim _ _; rfl),
    val_main_v43_apply, val_main_v42_apply, val_main_call1_v1_apply, val_main_call1_v0_apply, val_main_cst_10_apply,
    v26_at x6 h6, Ideal.hostUnary_rsqrt_def, Ideal.maximumf_def, Ideal.ofBits_def, ofBits_one_f32]

section
variable (hz : ∀ (p : Fin 128) (b : Fin 1024) (k : Fin 32),
  val_main_v5 (F := Ideal) x0 x1 x2 (ix3 p b k) = zR (Xof x0) (Mof x1) (Vof x2) b p k)
include hz

theorem v31_at (h5 : ∀ e, (x5 e).toNat < 128) (p : Fin 128) (b : Fin 1024) (k : Fin 32) :
    val_main_v31 (F := Ideal) x0 x1 x2 x5 (ix3 p b k) = hR (Xof x0) (Mof x1) (Vof x2) (Nof x5 h5) p b k := by
  rw [val_main_v31_apply, Ideal.mulf_def, hz, v30_at x5 h5]; rfl

theorem v38_at (h5 : ∀ e, (x5 e).toNat < 128) (e : Fin 1152) (b : Fin 1024) (k : Fin 32) :
    val_main_v38 (F := Ideal) x0 x1 x2 x5 (ix3 e b k)
      = hR (Xof x0) (Mof x1) (Vof x2) (Nof x5 h5) (srcN x5 h5 e) b k := by
  unfold val_main_v38
  rw [gather_rows]
  have hrow : (⟨min (val_main_v37 (F := Ideal) x5 (ix2 e (0 : Fin 1))).toInt.toNat 127, by omega⟩ : Fin 128)
      = srcN x5 h5 e := Fin.ext (by
    show min (val_main_v37 (F := Ideal) x5 (ix2 e (0 : Fin 1))).toInt.toNat 127 = (val_main_v7 (F := Ideal) x5 (ix1 e)).toNat
    rw [v37_at x5 h5 e]; exact clamp_small _ (v7_lt x5 h5 e))
  rw [hrow, v31_at x0 x1 x2 x5 hz h5]

theorem v41_at (h5 : ∀ e, (x5 e).toNat < 128) (h6 : ∀ e, (x6 e).toNat < 128) (d : Fin 128) (b : Fin 1024) (k : Fin 32) :
    val_main_v41 (F := Ideal) x0 x1 x2 x5 x6 (ix3 d b k)
      = aggR (Xof x0) (Mof x1) (Vof x2) (Nof x5 h5) (Nof x6 h6) d b k := by
  unfold val_main_v41
  rw [scatter3_apply, val_main_v39_apply, val_main_cst_9_apply, Ideal.ofBits_def, Ideal.ofBits_zero_f32]
  simp only [v38_at x0 x1 x2 x5 hz h5]
  exact Cert.RefScatter.agg_sum (Xof x0) (Mof x1) (Vof x2) (Nof x5 h5) (Nof x6 h6)
    (fun e => (val_main_v40 (F := Ideal) x6 (ix2 e (0 : Fin 1))).toInt) (srcN x5 h5)
    (fun e => by show (val_main_v40 (F := Ideal) x6 (ix2 _ (0 : Fin 1))).toInt = _; rw [v40_at]; exact v8_toInt_left x6 h6 e)
    (fun q => by show (val_main_v40 (F := Ideal) x6 (ix2 _ (0 : Fin 1))).toInt = _; rw [v40_at]; exact v8_toInt_right x6 q)
    (srcN_left x5 h5) (srcN_right x5 h5) d b k

theorem v46_at (h5 : ∀ e, (x5 e).toNat < 128) (h6 : ∀ e, (x6 e).toNat < 128) (d : Fin 128) (b : Fin 1024) (k : Fin 32) :
    val_main_v46 (F := Ideal) x0 x1 x2 x5 x6 (ix3 d b k)
      = aggR (Xof x0) (Mof x1) (Vof x2) (Nof x5 h5) (Nof x6 h6) d b k * Ideal.rsqrt (max 1 (inDegR (Nof x6 h6) d)) := by
  rw [val_main_v46_apply, Ideal.mulf_def, v41_at x0 x1 x2 x5 x6 hz h5 h6, v45_at x6 h6]

end

end Cert.RefSide

end
-- ==== Proof.RefSide.Ends.lean ====
import proofs.«206864_g62740882260319_cont_9to1_m_949_20_alg».proof.Proof.Gen.ReferenceIdeal.Read
import proofs.«206864_g62740882260319_cont_9to1_m_949_20_alg».proof.Proof.Spec
import Idealize.ShloMosaic.Lib.ValueIdx
import Idealize.ShloMosaic.PureOps.Ideal.Laws

noncomputable section

open scoped BigOperators

namespace Cert.RefSide

open Cert.ReferenceIdeal Cert.ReferenceIdeal.Read Cert.Spec Idealize.ShloMosaic Idealize.ShloMosaic.ValueIdx

theorem v5_at (x0 : (⟨S1024x4096, .f32⟩ : BufTy).Contents (Elt Ideal)) (x1 : (⟨S32x32, .f32⟩ : BufTy).Contents (Elt Ideal))
    (x2 : (⟨S32, .f32⟩ : BufTy).Contents (Elt Ideal)) (p : Fin 128) (b : Fin 1024) (k : Fin 32) :
    val_main_v5 (F := Ideal) x0 x1 x2 (ix3 p b k) = zR (Xof x0) (Mof x1) (Vof x2) b p k := by
  have e5 : idx_main_v5 (ix3 p b k) = ix3 b p k := funext fun a => Fin.ext (by
    match a with
    | ⟨0, _⟩ => rfl
    | ⟨1, _⟩ => rfl
    | ⟨2, _⟩ => rfl)
  rw [val_main_v5_apply, e5, val_main_v4_apply, Ideal.addf_def, val_main_v1_apply, val_main_v3_apply, val_main_v2_apply]
  unfold zR
  congr 1
  · refine Finset.sum_congr rfl fun h _ => ?_
    have hb := b.isLt
    have hp := p.isLt
    have hh := h.isLt
    have el : idx_main_v0 (lidx_main_v1 (ix3 b p k) h)
        = ix2 b ⟨p.val * 32 + h.val, by omega⟩ := funext fun a => Fin.ext (by
      match a with
      | ⟨0, _⟩ => show ((b.val * 128 + p.val) * 32 + h.val) / 4096 = b.val; omega
      | ⟨1, _⟩ => show ((b.val * 128 + p.val) * 32 + h.val) % 4096 = p.val * 32 + h.val; omega)
    have er : ridx_main_v1 (ix3 b p k) h = ix2 h k := funext fun a => Fin.ext (by
      match a with
      | ⟨0, _⟩ => rfl
      | ⟨1, _⟩ => rfl)
    rw [val_main_v0_apply, el, er]
    rfl
  · exact congrArg x2 (funext fun a => Fin.ext (by
      match a with
      | ⟨0, _⟩ => rfl))

theorem out_of_v46 (x0 : (⟨S1024x4096, .f32⟩ : BufTy).Contents (Elt Ideal)) (x1 : (⟨S32x32, .f32⟩ : BufTy).Contents (Elt Ideal))
    (x2 : (⟨S32, .f32⟩ : BufTy).Contents (Elt Ideal)) (x3 : (⟨S32x32, .f32⟩ : BufTy).Contents (Elt Ideal))
    (x4 : (⟨S32, .f32⟩ : BufTy).Contents (Elt Ideal)) (x5 x6 : (⟨S1024, .i32⟩ : BufTy).Contents (Elt Ideal))
    (A : Fin 128 → Fin 1024 → Fin 32 → EReal)
    (hA : ∀ d b k, val_main_v46 (F := Ideal) x0 x1 x2 x5 x6 (ix3 d b k) = A d b k)
    (b : Fin 1024) (d : Fin 128) (h' : Fin 32) :
    val_main_v52 (F := Ideal) x0 x1 x2 x3 x4 x5 x6
        (ix2 ⟨b.val * 128 + d.val, by have := b.isLt; have := d.isLt; omega⟩ h')
      = (∑ k, A d b k * Mof x3 k h') + Vof x4 h' := by
  have hb := b.isLt
  have hd := d.isLt
  have hh := h'.isLt
  have e52 : idx_main_v52 (ix2 (⟨b.val * 128 + d.val, by omega⟩ : Fin 131072) h') = ix3 b d h' :=
    funext fun a => Fin.ext (by
      match a with
      | ⟨0, _⟩ => show ((b.val * 128 + d.val) * 32 + h'.val) / 4096 = b.val; omega
      | ⟨1, _⟩ => show ((b.val * 128 + d.val) * 32 + h'.val) / 32 % 128 = d.val; omega
      | ⟨2, _⟩ => show ((b.val * 128 + d.val) * 32 + h'.val) % 32 = h'.val; omega)
  have e51 : idx_main_v51 (ix3 b d h') = ix3 d b h' := funext fun a => Fin.ext (by
    match a with
    | ⟨0, _⟩ => rfl
    | ⟨1, _⟩ => rfl
    | ⟨2, _⟩ => rfl)
  rw [val_main_v52_apply, e52, val_main_v51_apply, e51, val_main_v50_apply, Ideal.addf_def, val_main_v47_apply,
    val_main_v49_apply, val_main_v48_apply]
  congr 1
  · refine Finset.sum_congr rfl fun k _ => ?_
    have el : lidx_main_v47 (ix3 d b h') k = ix3 d b k := funext fun a => Fin.ext (by
      match a with
      | ⟨0, _⟩ => rfl
      | ⟨1, _⟩ => rfl
      | ⟨2, _⟩ => rfl)
    have er : ridx_main_v47 (ix3 d b h') k = ix2 k h' := funext fun a => Fin.ext (by
      match a with
      | ⟨0, _⟩ => rfl
      | ⟨1, _⟩ => rfl)
    rw [el, er, hA]
    rfl
  · exact congrArg x4 (funext fun a => Fin.ext (by
      match a with
      | ⟨0, _⟩ => rfl))

end Cert.RefSide

end
-- ==== Proof.RefSide.lean ====
import proofs.«206864_g62740882260319_cont_9to1_m_949_20_alg».proof.Defs
import proofs.«206864_g62740882260319_cont_9to1_m_949_20_alg».proof.Proof.Gen.ReferenceIdeal
import proofs.«206864_g62740882260319_cont_9to1_m_949_20_alg».proof.Proof.Gen.Pre_finite_inputs
import proofs.«206864_g62740882260319_cont_9to1_m_949_20_alg».proof.Proof.Gen.ReferenceIdeal.Run
import proofs.«206864_g62740882260319_cont_9to1_m_949_20_alg».proof.Proof.Gen.ReferenceIdeal.Read
import proofs.«206864_g62740882260319_cont_9to1_m_949_20_alg».proof.Proof.Spec
import proofs.«206864_g62740882260319_cont_9to1_m_949_20_alg».proof.Proof.RefScatter
import proofs.«206864_g62740882260319_cont_9to1_m_949_20_alg».proof.Proof.RefSide.Hand
import proofs.«206864_g62740882260319_cont_9to1_m_949_20_alg».proof.Proof.RefSide.Words
import proofs.«206864_g62740882260319_cont_9to1_m_949_20_alg».proof.Proof.RefSide.Middle
import proofs.«206864_g62740882260319_cont_9to1_m_949_20_alg».proof.Proof.RefSide.Ends
import Idealize.ShloMosaic.Lib.ValueIdx
import Idealize.ShloMosaic.Lib.Pipeline.Value
import Idealize.ShloMosaic.PureOps.Ideal.Laws

noncomputable section

open scoped BigOperators

namespace Cert.RefSide

open Cert.ReferenceIdeal Cert.ReferenceIdeal.Read Cert.Spec Idealize.ShloMosaic Idealize.ShloMosaic.ValueIdx Idealize.SL.Sem

theorem ref_out (x0 : (⟨S1024x4096, .f32⟩ : BufTy).Contents (Elt Ideal)) (x1 : (⟨S32x32, .f32⟩ : BufTy).Contents (Elt Ideal))
    (x2 : (⟨S32, .f32⟩ : BufTy).Contents (Elt Ideal)) (x3 : (⟨S32x32, .f32⟩ : BufTy).Contents (Elt Ideal))
    (x4 : (⟨S32, .f32⟩ : BufTy).Contents (Elt Ideal)) (x5 x6 : (⟨S1024, .i32⟩ : BufTy).Contents (Elt Ideal))
    (h5 : ∀ e, (x5 e).toNat < 128) (h6 : ∀ e, (x6 e).toNat < 128) (b : Fin 1024) (d : Fin 128) (h' : Fin 32) :
    val_main_v52 (F := Ideal) x0 x1 x2 x3 x4 x5 x6
        (ix2 ⟨b.val * 128 + d.val, by have := b.isLt; have := d.isLt; omega⟩ h')
      = rOut (Xof x0) (Mof x1) (Mof x3) (Vof x2) (Vof x4) (Nof x5 h5) (Nof x6 h6) b d h' := by
  unfold rOut
  exact out_of_v46 x0 x1 x2 x3 x4 x5 x6
    (fun d b k => aggR (Xof x0) (Mof x1) (Vof x2) (Nof x5 h5) (Nof x6 h6) d b k
      * Ideal.rsqrt (max 1 (inDegR (Nof x6 h6) d)))
    (fun d b k => v46_at x0 x1 x2 x5 x6 (v5_at x0 x1 x2) h5 h6 d b k) b d h'

theorem frame_ri : Cert.frame_ReferenceIdeal :=
  fun m ρ _ => (θ_run Cert.ReferenceIdeal.defs _ _).mono (fun _ h c => (h c).2)
    (Cert.ReferenceIdeal.Value.run (F := Ideal) m ρ)

end Cert.RefSide

end
-- ==== Proof.KIHist.lean ====
import proofs.«206864_g62740882260319_cont_9to1_m_949_20_alg».proof.Proof.Spec
import Idealize.ShloMosaic.PureOps.Ideal.Laws
import Idealize.ShloMosaic.Lib.ValueIdx
import Idealize.ShloMosaic.Lib.IdealHost
import Mathlib.Algebra.BigOperators.Fin
import Mathlib.Logic.Equiv.Fin.Basic

noncomputable section

open scoped BigOperators

namespace Cert.Proof.KIHist

open Idealize.ShloMosaic Idealize.ShloMosaic.ValueIdx

abbrev S16 : Shape := ⟨1, ![16]⟩
abbrev S1024 : Shape := ⟨1, ![1024]⟩
abbrev S8192 : Shape := ⟨1, ![8192]⟩
abbrev S4x128 : Shape := ⟨2, ![4, 128]⟩
abbrev S128x128 : Shape := ⟨2, ![128, 128]⟩

def lanes : IVec S16 32 := iota .scVector S16 32 [0] (by decide)

def ones16 (F : FTy → Type) [FloatOps F] : FVec F S16 .f32 := broadcast S16 (Scalar.ofBits .f32 0x3F800000#32)
def zeros16 (F : FTy → Type) [FloatOps F] : FVec F S16 .f32 := broadcast S16 (Scalar.ofBits .f32 0x00000000#32)

def loW (wid : ℕ) : BitVec 32 := BitVec.ofNat 32 (4 * wid)

-- An edge counts for the tile whose first row is lo when lo ≤ dst < lo + 4.
def chunkMask (lo : BitVec 32) (d16 : IVec S16 32) : IVec S16 1 :=
  andi (cmpi .sge d16 (broadcast S16 lo)) (cmpi .slt d16 (broadcast S16 (Scalar.addi lo 4#32)))

-- The accumulator word of a counted edge: lane · 512 + (dst − lo) · 128 + src; word 0 otherwise.
def chunkIdx (lo : BitVec 32) (lane s16 d16 : IVec S16 32) : IVec S16 32 :=
  select (chunkMask lo d16)
    (addi (addi (muli lane (broadcast S16 512#32)) (muli (subi d16 (broadcast S16 lo)) (broadcast S16 128#32))) s16)
    (broadcast S16 0#32)

abbrev InRange (idx : IVec S16 32) : Prop := ∀ a x, ((![idx] : Fin 1 → IVec S16 32) a x).toNat < S8192.size a

variable {F : FTy → Type} [FloatOps F]

def chunkStep (F : FTy → Type) [FloatOps F] (acc : Vec F S8192 .f32) (idx : IVec S16 32) (mask : IVec S16 1) (h : InRange idx) :
    Vec F S8192 .f32 :=
  storeIdx acc ![idx] (ones16 F) mask true h

def chunkOf (a : IVec S1024 32) (k : Fin 64) : IVec S16 32 :=
  fun x => a (ix1 ⟨16 * k.val + (x 0).val, by have := k.isLt; have := (x 0).isLt; simp only [Matrix.cons_val_zero] at this; omega⟩)

theorem chunkOf_apply (a : IVec S1024 32) (k : Fin 64) (x : S16.Idx) (h : 16 * k.val + (x 0).val < 1024) :
    chunkOf a k x = a (ix1 ⟨16 * k.val + (x 0).val, h⟩) := rfl

-- The accumulator after the first k chunks of sixteen edges, each a masked indexed add of ones.
open Classical in
def accAfter (F : FTy → Type) [FloatOps F] (lo : BitVec 32) (src dst : IVec S1024 32) : ℕ → Vec F S8192 .f32
  | 0 => fun _ => Scalar.ofBits .f32 0x00000000#32
  | k + 1 =>
    if hk : k < 64 then
      if h : InRange (chunkIdx lo lanes (chunkOf src ⟨k, hk⟩) (chunkOf dst ⟨k, hk⟩)) then
        chunkStep F (accAfter F lo src dst k) (chunkIdx lo lanes (chunkOf src ⟨k, hk⟩) (chunkOf dst ⟨k, hk⟩))
          (chunkMask lo (chunkOf dst ⟨k, hk⟩)) h
      else accAfter F lo src dst k
    else accAfter F lo src dst k

theorem accAfter_zero (lo : BitVec 32) (src dst : IVec S1024 32) :
    accAfter F lo src dst 0 = fun _ => Scalar.ofBits .f32 0x00000000#32 := rfl

theorem accAfter_succ (lo : BitVec 32) (src dst : IVec S1024 32) (k : ℕ) (hk : k < 64)
    (h : InRange (chunkIdx lo lanes (chunkOf src ⟨k, hk⟩) (chunkOf dst ⟨k, hk⟩))) :
    accAfter F lo src dst (k + 1)
      = chunkStep F (accAfter F lo src dst k) (chunkIdx lo lanes (chunkOf src ⟨k, hk⟩) (chunkOf dst ⟨k, hk⟩))
          (chunkMask lo (chunkOf dst ⟨k, hk⟩)) h := by
  rw [accAfter, dif_pos hk, dif_pos h]

def accSlice (acc : Vec F S8192 .f32) (off : ℕ) (h : off + 16 ≤ 8192) : FVec F S16 .f32 :=
  fun x => acc (ix1 ⟨off + (x 0).val, by have := (x 0).isLt; simp only [Matrix.cons_val_zero] at this; omega⟩)

def fold16 (z : FVec F S16 .f32) (ld : Fin 16 → FVec F S16 .f32) : FVec F S16 .f32 :=
  addf (addf (addf (addf (addf (addf (addf (addf (addf (addf (addf (addf (addf (addf (addf (addf z
    (ld 0)) (ld 1)) (ld 2)) (ld 3)) (ld 4)) (ld 5)) (ld 6)) (ld 7)) (ld 8)) (ld 9)) (ld 10)) (ld 11)) (ld 12)) (ld 13)) (ld 14)) (ld 15)

-- Block c of the four rows: the sixteen lanes' words 16 c … 16 c + 15 added up.
def laneSum (F : FTy → Type) [FloatOps F] (acc : Vec F S8192 .f32) (c : Fin 32) : FVec F S16 .f32 :=
  fold16 (zeros16 F) fun l => accSlice acc (l.val * 512 + c.val * 16) (by have := l.isLt; have := c.isLt; omega)

def tileRows (F : FTy → Type) [FloatOps F] (lo : BitVec 32) (src dst : IVec S1024 32) : Vec F S4x128 .f32 :=
  fun i => laneSum F (accAfter F lo src dst 64)
    ⟨(i 0).val * 8 + (i 1).val / 16, by
      have h0 := (i 0).isLt; have h1 := (i 1).isLt
      simp only [Matrix.cons_val_zero, Matrix.cons_val_one] at h0 h1; omega⟩
    (ix1 ⟨(i 1).val % 16, Nat.mod_lt _ (by decide)⟩)

-- The edge-count matrix: row d is row d % 4 of the tile whose first row is 4 (d / 4).
def cntVal (F : FTy → Type) [FloatOps F] (src dst : IVec S1024 32) : Vec F S128x128 .f32 :=
  fun i => tileRows F (loW ((i 0).val / 4)) src dst (ix2 ⟨(i 0).val % 4, Nat.mod_lt _ (by decide)⟩ (i 1))

theorem lo_eq (core sub : ℕ) (hc : core < 2) (hs : sub < 16) :
    Scalar.muli (Scalar.addi (Scalar.muli (BitVec.ofNat 32 sub) 2#32) (BitVec.ofNat 32 core)) 4#32 = loW (sub * 2 + core) := by
  unfold loW Scalar.muli Scalar.addi IntOp.muli IntOp.addi
  apply BitVec.eq_of_toNat_eq
  simp only [BitVec.toNat_mul, BitVec.toNat_add, BitVec.toNat_ofNat, BitVec.toNat_ofNat]
  omega

theorem loW_toNat (wid : ℕ) (hw : wid < 32) : (loW wid).toNat = 4 * wid := by
  unfold loW
  simp only [BitVec.toNat_ofNat]
  omega

theorem cntVal_rows (src dst : IVec S1024 32) (wid : ℕ) (hw : wid < 32) (r : Fin 4) (c : Fin 128) :
    cntVal F src dst (ix2 ⟨4 * wid + r.val, by have := r.isLt; omega⟩ c) = tileRows F (loW wid) src dst (ix2 r c) := by
  have h1 : (4 * wid + r.val) / 4 = wid := by have := r.isLt; omega
  have h2 : (4 * wid + r.val) % 4 = r.val := by have := r.isLt; omega
  show tileRows F (loW ((4 * wid + r.val) / 4)) src dst (ix2 ⟨(4 * wid + r.val) % 4, _⟩ c) = _
  congr 1
  · rw [h1]
  · congr 1; exact Fin.ext h2

theorem lanes_toNat (x : S16.Idx) : (lanes x).toNat = (x 0).val := by
  have hx : (x 0).val < 16 := (x 0).isLt
  unfold lanes iota
  simp only [List.foldl, BitVec.toNat_ofNat]
  omega

theorem ofBool_and_eq_one (a b : Bool) : (BitVec.ofBool a &&& BitVec.ofBool b = (1 : BitVec 1)) ↔ (a = true ∧ b = true) := by
  cases a <;> cases b <;> decide

theorem chunkMask_eq_one (lo : BitVec 32) (d16 : IVec S16 32) (x : S16.Idx) (hlo : lo.toNat ≤ 124) (hd : (d16 x).toNat < 128) :
    chunkMask lo d16 x = 1 ↔ (lo.toNat ≤ (d16 x).toNat ∧ (d16 x).toNat < lo.toNat + 4) := by
  unfold chunkMask andi cmpi broadcast IntOp.andi IntOp.cmpi Scalar.addi IntOp.addi
  simp only []
  rw [ofBool_and_eq_one, BitVec.sle_eq_decide, BitVec.slt_eq_decide, decide_eq_true_eq, decide_eq_true_eq]
  have h4 : (lo + 4#32).toNat = lo.toNat + 4 := by
    simp only [BitVec.toNat_add, BitVec.toNat_ofNat]; omega
  rw [BitVec.toInt_eq_toNat_of_lt (x := lo) (by omega), BitVec.toInt_eq_toNat_of_lt (x := d16 x) (by omega),
    BitVec.toInt_eq_toNat_of_lt (x := lo + 4#32) (by omega), h4]
  omega

theorem chunkIdx_toNat (lo : BitVec 32) (s16 d16 : IVec S16 32) (x : S16.Idx) (hlo : lo.toNat ≤ 124)
    (hs : (s16 x).toNat < 128) (hd : (d16 x).toNat < 128) :
    (chunkIdx lo lanes s16 d16 x).toNat =
      if lo.toNat ≤ (d16 x).toNat ∧ (d16 x).toNat < lo.toNat + 4 then
        (x 0).val * 512 + ((d16 x).toNat - lo.toNat) * 128 + (s16 x).toNat else 0 := by
  have hx : (x 0).val < 16 := (x 0).isLt
  unfold chunkIdx select Scalar.select
  simp only []
  by_cases hm : lo.toNat ≤ (d16 x).toNat ∧ (d16 x).toNat < lo.toNat + 4
  · rw [if_pos ((chunkMask_eq_one lo d16 x hlo hd).mpr hm), if_pos hm]
    unfold addi muli subi broadcast IntOp.addi IntOp.muli IntOp.subi
    simp only [BitVec.toNat_add, BitVec.toNat_mul, BitVec.toNat_sub, BitVec.toNat_ofNat, lanes_toNat]
    omega
  · rw [if_neg (fun h => hm ((chunkMask_eq_one lo d16 x hlo hd).mp h)), if_neg hm]
    rfl

theorem chunkIdx_inRange (src dst : IVec S1024 32) (h5 : ∀ e, (src e).toNat < 128) (h6 : ∀ e, (dst e).toNat < 128)
    (wid : ℕ) (hw : wid < 32) (k : Fin 64) : InRange (chunkIdx (loW wid) lanes (chunkOf src k) (chunkOf dst k)) := by
  intro a x
  obtain rfl : a = 0 := Fin.eq_zero a
  show (chunkIdx (loW wid) lanes (chunkOf src k) (chunkOf dst k) x).toNat < 8192
  have hx : (x 0).val < 16 := (x 0).isLt
  have hs := h5 (ix1 ⟨16 * k.val + (x 0).val, by have := k.isLt; omega⟩)
  have hd := h6 (ix1 ⟨16 * k.val + (x 0).val, by have := k.isLt; omega⟩)
  rw [chunkIdx_toNat _ _ _ _ (by rw [loW_toNat wid hw]; omega) hs hd]
  split_ifs with hm
  · rw [chunkOf_apply _ _ _ (by have := k.isLt; omega)] at hm ⊢
    rw [chunkOf_apply _ _ _ (by have := k.isLt; omega)]
    omega
  · omega

theorem chunkIdx_inRange' (lo : BitVec 32) (hlo : lo.toNat + 4 ≤ 128) (s16 d16 : IVec S16 32)
    (hs : ∀ x, (s16 x).toNat < 128) (hd : ∀ x, (d16 x).toNat < 128) : InRange (chunkIdx lo lanes s16 d16) := by
  intro a x
  obtain rfl : a = 0 := Fin.eq_zero a
  show (chunkIdx lo lanes s16 d16 x).toNat < 8192
  have hx : (x 0).val < 16 := (x 0).isLt
  have h1 := hs x
  have h2 := hd x
  rw [chunkIdx_toNat _ _ _ _ (by omega) h1 h2]
  split_ifs with hm
  · omega
  · omega

theorem storeIdx_add_ideal {s : Shape} {d : Fin 1 → ℕ} (f : Vec Ideal s .f32) (idxs : Fin s.rank → IVec ⟨1, d⟩ 32)
    (v : Vec Ideal ⟨1, d⟩ .f32) (mask : IVec ⟨1, d⟩ 1) (h : ∀ a x, (idxs a x).toNat < s.size a) (j : s.Idx) :
    storeIdx (F := Ideal) (e := .f32) f idxs v mask true h j
      = f j + ∑ k : Fin (d 0),
          if (mask (Shape.ofLane k) = 1 ∧ idxAt idxs h (Shape.ofLane k) = j) then v (Shape.ofLane k) else 0 := by
  unfold storeIdx
  rw [Fin.sum_univ_def]
  generalize List.finRange (d 0) = l
  induction l generalizing f with
  | nil => simp
  | cons k l ih =>
    rw [List.foldl_cons, ih, List.map_cons, List.sum_cons, ← add_assoc]
    congr 1
    by_cases hm : mask (Shape.ofLane k) = 1#1
    · by_cases hj : idxAt idxs h (Shape.ofLane k) = j
      · subst hj
        simp [hm]
      · have hne : ¬ ∀ a, (j a).val = (idxAt idxs h (Shape.ofLane k) a).val :=
          fun hh => hj (funext fun a => Fin.ext (hh a).symm)
        simp [hm, hj, hne]
    · simp [hm]

theorem ones16_ideal (x : S16.Idx) : ones16 Ideal x = 1 := by
  unfold ones16 broadcast
  simp

theorem ofLane_eq (l : Fin 16) : Shape.ofLane (d := ![16]) l = ix1 l := by
  funext a
  obtain rfl : a = 0 := Fin.eq_zero a
  rfl

section Value

variable (src dst : IVec S1024 32)

def edge (k : Fin 64) (l : Fin 16) : S1024.Idx :=
  ix1 ⟨16 * k.val + l.val, by have := k.isLt; have := l.isLt; omega⟩

def Hit (wid : ℕ) (k : Fin 64) (l : Fin 16) (p : ℕ) : Prop :=
  4 * wid ≤ (dst (edge k l)).toNat ∧ (dst (edge k l)).toNat < 4 * wid + 4 ∧
    l.val * 512 + ((dst (edge k l)).toNat - 4 * wid) * 128 + (src (edge k l)).toNat = p

theorem hit_iff (h5 : ∀ e, (src e).toNat < 128) (h6 : ∀ e, (dst e).toNat < 128) (wid : ℕ) (hw : wid < 32) (k : Fin 64)
    (h : InRange (chunkIdx (loW wid) lanes (chunkOf src k) (chunkOf dst k))) (l : Fin 16) (j : S8192.Idx) :
    (chunkMask (loW wid) (chunkOf dst k) (Shape.ofLane l) = 1 ∧
      idxAt ![chunkIdx (loW wid) lanes (chunkOf src k) (chunkOf dst k)] h (Shape.ofLane l) = j)
    ↔ Hit src dst wid k l (j 0).val := by
  rw [ofLane_eq]
  have hlo := loW_toNat wid hw
  have hs : (chunkOf src k (ix1 l)).toNat < 128 := h5 _
  have hd : (chunkOf dst k (ix1 l)).toNat < 128 := h6 _
  rw [chunkMask_eq_one _ _ _ (by omega) hd]
  have hidx : (idxAt ![chunkIdx (loW wid) lanes (chunkOf src k) (chunkOf dst k)] h (ix1 l) = j)
      ↔ (chunkIdx (loW wid) lanes (chunkOf src k) (chunkOf dst k) (ix1 l)).toNat = (j 0).val := by
    constructor
    · intro e; rw [← e]; rfl
    · intro e; funext a; obtain rfl : a = 0 := Fin.eq_zero a; exact Fin.ext e
  rw [hidx, chunkIdx_toNat _ _ _ _ (by omega) hs hd, hlo]
  unfold Hit
  show (4 * wid ≤ (dst (edge k l)).toNat ∧ (dst (edge k l)).toNat < 4 * wid + 4) ∧
      (if 4 * wid ≤ (dst (edge k l)).toNat ∧ (dst (edge k l)).toNat < 4 * wid + 4 then
        l.val * 512 + ((dst (edge k l)).toNat - 4 * wid) * 128 + (src (edge k l)).toNat else 0) = (j 0).val ↔ _
  constructor
  · rintro ⟨⟨h1, h2⟩, h3⟩; rw [if_pos ⟨h1, h2⟩] at h3; exact ⟨h1, h2, h3⟩
  · rintro ⟨h1, h2, h3⟩; exact ⟨⟨h1, h2⟩, by rw [if_pos ⟨h1, h2⟩]; exact h3⟩

theorem sum_lt_succ (g : Fin 64 → EReal) (K : ℕ) (hK : K < 64) :
    (∑ k : Fin 64, if k.val < K + 1 then g k else 0) = (∑ k : Fin 64, if k.val < K then g k else 0) + g ⟨K, hK⟩ := by
  have hk : ∀ k : Fin 64, (if k.val < K + 1 then g k else 0)
      = (if k.val < K then g k else 0) + (if k = ⟨K, hK⟩ then g k else 0) := by
    intro k
    by_cases h1 : k.val < K
    · have h2 : k ≠ ⟨K, hK⟩ := fun e => by rw [e] at h1; exact absurd h1 (lt_irrefl _)
      rw [if_pos h1, if_pos (Nat.lt_succ_of_lt h1), if_neg h2, add_zero]
    · by_cases h2 : k = ⟨K, hK⟩
      · subst h2; rw [if_neg h1, if_pos (Nat.lt_succ_self _), if_pos rfl, zero_add]
      · have h3 : ¬ k.val < K + 1 := fun h3 => h2 (Fin.ext (by simp only []; omega))
        rw [if_neg h1, if_neg h3, if_neg h2, add_zero]
  rw [Finset.sum_congr rfl fun k _ => hk k, Finset.sum_add_distrib, Finset.sum_ite_eq' Finset.univ ⟨K, hK⟩ g,
    if_pos (Finset.mem_univ _)]

open Classical in
theorem accAfter_ideal (h5 : ∀ e, (src e).toNat < 128) (h6 : ∀ e, (dst e).toNat < 128) (wid : ℕ) (hw : wid < 32)
    (K : ℕ) (hK : K ≤ 64) (j : S8192.Idx) :
    accAfter Ideal (loW wid) src dst K j
      = ∑ k : Fin 64, if k.val < K then (∑ l : Fin 16, if Hit src dst wid k l (j 0).val then (1 : EReal) else 0) else 0 := by
  induction K with
  | zero =>
    rw [accAfter_zero]
    simp
  | succ K ih =>
    have hK' : K < 64 := hK
    have hin := chunkIdx_inRange src dst h5 h6 wid hw ⟨K, hK'⟩
    rw [accAfter_succ _ _ _ K hK' hin, sum_lt_succ _ K hK']
    unfold chunkStep
    rw [storeIdx_add_ideal (s := S8192) (d := ![16]), ih (by omega)]
    congr 1
    apply Finset.sum_congr rfl
    intro l _
    rw [if_congr (hit_iff src dst h5 h6 wid hw ⟨K, hK'⟩ hin l j) (ones16_ideal _) rfl]

end Value

theorem zeros16_ideal (x : S16.Idx) : zeros16 Ideal x = 0 := by
  unfold zeros16 broadcast
  simp

theorem fold16_eq_foldl (z : FVec F S16 .f32) (ld : Fin 16 → FVec F S16 .f32) :
    fold16 z ld = (List.finRange 16).foldl (fun t l => addf t (ld l)) z := by
  rfl

theorem foldl_addf_ideal (l : List (Fin 16)) (z : FVec Ideal S16 .f32) (ld : Fin 16 → FVec Ideal S16 .f32) (x : S16.Idx) :
    (l.foldl (fun t i => addf t (ld i)) z) x = z x + (l.map fun i => ld i x).sum := by
  induction l generalizing z with
  | nil => simp
  | cons i l ih =>
    rw [List.foldl_cons, ih, List.map_cons, List.sum_cons, ← add_assoc]
    rfl

theorem fold16_ideal (z : FVec Ideal S16 .f32) (ld : Fin 16 → FVec Ideal S16 .f32) (x : S16.Idx) :
    fold16 z ld x = z x + ∑ l : Fin 16, ld l x := by
  rw [fold16_eq_foldl, foldl_addf_ideal, Fin.sum_univ_def]

section Value2

variable (src dst : IVec S1024 32)

theorem hit_region (h5 : ∀ e, (src e).toNat < 128) (h6 : ∀ e, (dst e).toNat < 128) (wid : ℕ) (k : Fin 64) (l l' : Fin 16)
    (r : Fin 4) (c : Fin 128) :
    Hit src dst wid k l (l'.val * 512 + r.val * 128 + c.val) ↔
      (l = l' ∧ ((dst (edge k l)).toNat = 4 * wid + r.val ∧ (src (edge k l)).toNat = c.val)) := by
  unfold Hit
  have := h5 (edge k l); have := h6 (edge k l); have := l.isLt; have := l'.isLt; have := r.isLt; have := c.isLt
  constructor
  · rintro ⟨h1, h2, h3⟩
    refine ⟨Fin.ext ?_, ?_, ?_⟩ <;> omega
  · rintro ⟨rfl, h2, h3⟩
    refine ⟨?_, ?_, ?_⟩ <;> omega

open Classical in
theorem tileRows_ideal (h5 : ∀ e, (src e).toNat < 128) (h6 : ∀ e, (dst e).toNat < 128) (wid : ℕ) (hw : wid < 32)
    (r : Fin 4) (c : Fin 128) :
    tileRows Ideal (loW wid) src dst (ix2 r c)
      = ∑ k : Fin 64, ∑ l : Fin 16,
          if ((dst (edge k l)).toNat = 4 * wid + r.val ∧ (src (edge k l)).toNat = c.val) then (1 : EReal) else 0 := by
  unfold tileRows laneSum
  rw [fold16_ideal, zeros16_ideal, zero_add]
  have hstep : ∀ l' : Fin 16,
      accSlice (accAfter Ideal (loW wid) src dst 64)
        (l'.val * 512 + (r.val * 8 + c.val / 16) * 16) (by have := l'.isLt; have := r.isLt; have := c.isLt; omega)
        (ix1 ⟨c.val % 16, Nat.mod_lt _ (by decide)⟩)
      = ∑ k : Fin 64, ∑ l : Fin 16,
          if l = l' ∧ ((dst (edge k l)).toNat = 4 * wid + r.val ∧ (src (edge k l)).toNat = c.val) then (1 : EReal) else 0 := by
    intro l'
    unfold accSlice
    rw [accAfter_ideal src dst h5 h6 wid hw 64 le_rfl]
    apply Finset.sum_congr rfl
    intro k _
    rw [if_pos k.isLt]
    apply Finset.sum_congr rfl
    intro l _
    have hp : l'.val * 512 + (r.val * 8 + c.val / 16) * 16 + c.val % 16 = l'.val * 512 + r.val * 128 + c.val := by
      have := c.isLt; omega
    show (if Hit src dst wid k l (l'.val * 512 + (r.val * 8 + c.val / 16) * 16 + c.val % 16) then (1 : EReal) else 0) = _
    rw [hp, if_congr (hit_region src dst h5 h6 wid k l l' r c) rfl rfl]
  show ∑ l' : Fin 16, accSlice (accAfter Ideal (loW wid) src dst 64)
        (l'.val * 512 + (r.val * 8 + c.val / 16) * 16) _ (ix1 ⟨c.val % 16, _⟩) = _
  rw [Finset.sum_congr rfl fun l' _ => hstep l', Finset.sum_comm]
  apply Finset.sum_congr rfl
  intro k _
  rw [Finset.sum_comm]
  apply Finset.sum_congr rfl
  intro l _
  simp only [ite_and]
  rw [Finset.sum_ite_eq Finset.univ l, if_pos (Finset.mem_univ _)]

theorem sum_ite_one_eq_card {ι : Type} [DecidableEq ι] (s : Finset ι) (P : ι → Prop) [DecidablePred P] :
    ∑ i ∈ s, (if P i then (1 : EReal) else 0) = (((s.filter P).card : ℝ) : EReal) := by
  induction s using Finset.induction_on with
  | empty => simp
  | insert a s ha ih =>
    rw [Finset.sum_insert ha, ih, Finset.filter_insert]
    by_cases h : P a
    · rw [if_pos h, if_pos h, Finset.card_insert_of_notMem (fun hm => ha (Finset.mem_of_mem_filter a hm)),
        Nat.cast_succ, EReal.coe_add, EReal.coe_one, add_comm]
    · rw [if_neg h, if_neg h, zero_add]

theorem sum_chunks_lanes (g : S1024.Idx → EReal) :
    ∑ k : Fin 64, ∑ l : Fin 16, g (edge k l) = ∑ e : Fin 1024, g (ix1 e) := by
  rw [← Fintype.sum_prod_type']
  apply Fintype.sum_equiv (finProdFinEquiv (m := 64) (n := 16))
  rintro ⟨k, l⟩
  show g (edge k l) = g (ix1 (finProdFinEquiv (k, l)))
  congr 1
  unfold edge
  congr 1
  apply Fin.ext
  show 16 * k.val + l.val = l.val + 16 * k.val
  omega

end Value2

-- Entry (d, s) of the matrix the tiles build is the number of edges from s into d.
theorem cntVal_eq (src dst : IVec S1024 32) (h5 : ∀ e, (src e).toNat < 128) (h6 : ∀ e, (dst e).toNat < 128) (d s : Fin 128) :
    cntVal Ideal src dst (ix2 d s) = Cert.Spec.cnt (Cert.Spec.Nof src h5) (Cert.Spec.Nof dst h6) d s := by
  have hd := d.isLt
  have e1 : cntVal Ideal src dst (ix2 d s)
      = tileRows Ideal (loW (d.val / 4)) src dst (ix2 ⟨d.val % 4, Nat.mod_lt _ (by decide)⟩ s) := rfl
  rw [e1, tileRows_ideal src dst h5 h6 (d.val / 4) (by omega) ⟨d.val % 4, Nat.mod_lt _ (by decide)⟩ s]
  have e2 := sum_chunks_lanes (fun e => if ((dst e).toNat = 4 * (d.val / 4) + d.val % 4 ∧ (src e).toNat = s.val)
      then (1 : EReal) else 0)
  beta_reduce at e2
  rw [e2, sum_ite_one_eq_card]
  unfold Cert.Spec.cnt Cert.Spec.Nof
  congr 3
  apply Finset.filter_congr
  intro e _
  rw [Fin.ext_iff, Fin.ext_iff]
  have : 4 * (d.val / 4) + d.val % 4 = d.val := by omega
  rw [this]

end Cert.Proof.KIHist

end
-- ==== Proof.KIOut.lean ====
import proofs.«206864_g62740882260319_cont_9to1_m_949_20_alg».proof.Proof.Gen.KernelIdeal.Skeleton
import proofs.«206864_g62740882260319_cont_9to1_m_949_20_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Proof.KIOut

open Cert.KernelIdeal Cert.KernelIdeal.Gen
open Idealize.ShloMosaic Idealize.ShloMosaic.ValueIdx

section Defs
variable {F : FTy → Type} [FloatOps F]

def scrA (cnt : Vec F S128x128 .f32) : FVec F S128x128 .f32 := k1_pay4 cnt

def scrWc (We Wg : Vec F S32x32 .f32) : FVec F S32x32 .f32 := k1_pay5 We Wg

def scrBias (cnt : Vec F S128x128 .f32) (be1 : Vec F S1x32 .f32) (Wg : Vec F S32x32 .f32) (bg1 : Vec F S1x32 .f32) :
    FVec F S128x32 .f32 := k1_pay1 (k1_pay6 be1 Wg) (k1_pay7 cnt) bg1

def blkOut (xb : Vec F S128x4096 .f32) (A : Vec F S128x128 .f32) (Wc : Vec F S32x32 .f32) (bias : Vec F S128x32 .f32) :
    FVec F S16384x32 .f32 := k1_pay2 xb A Wc bias

def xBlk (x : Vec F S1024x4096 .f32) (t : Fin 8) : Vec F S128x4096 .f32 :=
  fun j => x (ix2 (⟨t.val * 128 + (j 0).val, by have := t.isLt; have := idx2_lt0 j; omega⟩ : Fin 1024)
    (⟨(j 1).val, idx2_lt1 j⟩ : Fin 4096))

def outVal (cnt : Vec F S128x128 .f32) (We : Vec F S32x32 .f32) (be1 : Vec F S1x32 .f32) (Wg : Vec F S32x32 .f32)
    (bg1 : Vec F S1x32 .f32) (x : Vec F S1024x4096 .f32) : FVec F S131072x32 .f32 :=
  fun i => blkOut (xBlk x (⟨(i 0).val / 16384, by have := idx2_lt0 i; omega⟩ : Fin 8)) (scrA cnt) (scrWc We Wg) (scrBias cnt be1 Wg bg1)
    (ix2 (⟨(i 0).val % 16384, Nat.mod_lt _ (by decide)⟩ : Fin 16384) (⟨(i 1).val, idx2_lt1 i⟩ : Fin 32))

theorem outVal_blk (cnt : Vec F S128x128 .f32) (We : Vec F S32x32 .f32) (be1 : Vec F S1x32 .f32) (Wg : Vec F S32x32 .f32)
    (bg1 : Vec F S1x32 .f32) (x : Vec F S1024x4096 .f32) (t : Fin 8) (y : S16384x32.Idx) :
    outVal cnt We be1 Wg bg1 x (ix2 (⟨t.val * 16384 + (y 0).val, by have := t.isLt; have := idx2_lt0 y; omega⟩ : Fin 131072)
        (⟨(y 1).val, idx2_lt1 y⟩ : Fin 32))
      = blkOut (xBlk x t) (scrA cnt) (scrWc We Wg) (scrBias cnt be1 Wg bg1) y := by
  have h0 := idx2_lt0 y
  have ht : (⟨(t.val * 16384 + (y 0).val) / 16384, by have := t.isLt; omega⟩ : Fin 8) = t := Fin.ext (by show (t.val * 16384 + (y 0).val) / 16384 = t.val; omega)
  have hy : ix2 (⟨(t.val * 16384 + (y 0).val) % 16384, Nat.mod_lt _ (by decide)⟩ : Fin 16384) (⟨(y 1).val, idx2_lt1 y⟩ : Fin 32) = y := by
    funext a
    match a with
    | ⟨0, _⟩ => exact Fin.ext (by show (t.val * 16384 + (y 0).val) % 16384 = (y 0).val; omega)
    | ⟨1, _⟩ => rfl
  show blkOut (xBlk x ⟨(t.val * 16384 + (y 0).val) / 16384, _⟩) _ _ _ (ix2 ⟨(t.val * 16384 + (y 0).val) % 16384, _⟩ ⟨(y 1).val, _⟩) = _
  rw [ht, hy]

end Defs

section Layout
variable {α : Type}

theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

theorem broadcastTo_1bc_abc_apply {a b c : ℕ} (v : (⟨3, ![1, b, c]⟩ : Shape).Idx → α)
    (h : (⟨3, ![1, b, c]⟩ : Shape).Broadcasts ⟨3, ![a, b, c]⟩) (p : Fin a) (i : Fin b) (j : Fin c) :
    broadcastTo ⟨3, ![a, b, c]⟩ v h (ix3 p i j) = v (ix3 (0 : Fin 1) i j) := by
  refine broadcastTo_apply v h (ix3 p i j) (ix3 (0 : Fin 1) i j) fun ax => ?_
  match ax with
  | ⟨0, _⟩ => rfl
  | ⟨1, _⟩ =>
    show i.val = if b = 1 then 0 else i.val
    split
    · have := i.isLt; omega
    · rfl
  | ⟨2, _⟩ =>
    show j.val = if c = 1 then 0 else j.val
    split
    · have := j.isLt; omega
    · rfl

theorem transpose_ix3_102_apply {a b c : ℕ} (x : (⟨3, ![a, b, c]⟩ : Shape).Idx → α)
    (h : (⟨3, ![a, b, c]⟩ : Shape).Transposes [1, 0, 2] ⟨3, ![b, a, c]⟩) (p : Fin b) (q : Fin a) (r : Fin c) :
    transpose ⟨3, ![b, a, c]⟩ [1, 0, 2] x h (ix3 p q r) = x (ix3 q p r) :=
  transpose_apply _ x h _ _ fun e => match e with | ⟨0, _⟩ => rfl | ⟨1, _⟩ => rfl | ⟨2, _⟩ => rfl

theorem shapeCast_4096x128_128x32x128_apply (x : S4096x128.Idx → α) (h : S4096x128.ShapeCasts S128x32x128)
    (s : Fin 128) (j : Fin 32) (l : Fin 128) :
    shapeCast S128x32x128 x h (ix3 s j l)
      = x (ix2 (⟨s.val * 32 + j.val, by have := s.isLt; have := j.isLt; omega⟩ : Fin 4096) l) :=
  shapeCast_apply x h _ _ (by
    rw [Shape.rowMajor_val_two, Shape.rowMajor_val_three]
    rfl)

theorem shapeCast_128x128x32_16384x32_apply (x : S128x128x32.Idx → α) (h : S128x128x32.ShapeCasts S16384x32)
    (p q : Fin 128) (c : Fin 32) :
    shapeCast S16384x32 x h (ix2 (⟨p.val * 128 + q.val, by have := p.isLt; have := q.isLt; omega⟩ : Fin 16384) c)
      = x (ix3 p q c) :=
  shapeCast_apply x h _ _ (by
    rw [Shape.rowMajor_val_two, Shape.rowMajor_val_three]
    rfl)

theorem shapeCast_16384x32_128x128x32_apply (x : S16384x32.Idx → α) (h : S16384x32.ShapeCasts S128x128x32)
    (p q : Fin 128) (c : Fin 32) :
    shapeCast S128x128x32 x h (ix3 p q c)
      = x (ix2 (⟨p.val * 128 + q.val, by have := p.isLt; have := q.isLt; omega⟩ : Fin 16384) c) :=
  shapeCast_apply x h _ _ (by
    rw [Shape.rowMajor_val_two, Shape.rowMajor_val_three]
    rfl)

end Layout

theorem eye_word (d s : Fin 128) :
    ((((IntOp.cmpi .eq (BitVec.ofNat 32 d.val) (BitVec.ofNat 32 s.val)).setWidth 32).toInt : ℝ) : EReal)
      = if d = s then 1 else 0 := by
  have hd := d.isLt
  have hs := s.isLt
  by_cases h : d = s
  · subst h
    simp [IntOp.cmpi]
  · have hne : BitVec.ofNat 32 d.val ≠ BitVec.ofNat 32 s.val := by
      intro e
      have e' := congrArg BitVec.toNat e
      simp only [BitVec.toNat_ofNat] at e'
      exact h (Fin.ext (by omega))
    have hb : (BitVec.ofNat 32 d.val == BitVec.ofNat 32 s.val) = false := beq_eq_false_iff_ne.mpr hne
    simp [IntOp.cmpi, hb, h]

theorem lhs_w_0 (i : S32x32.Idx) (q : dot_S32x32_S32x32_S32x32_1_0_0_1_n_n.contr.Idx) :
    (dot_S32x32_S32x32_S32x32_1_0_0_1_n_n.lhsIdx i q 0).val = (i 0).val := by
  unfold DotDims.lhsIdx
  rw [dif_neg (show ¬(0 : Fin S32x32.rank) ∈ dot_S32x32_S32x32_S32x32_1_0_0_1_n_n.lhsBatch by decide), dif_pos (show (0 : Fin S32x32.rank) ∈ dot_S32x32_S32x32_S32x32_1_0_0_1_n_n.lhsNonContracting by decide)]
  rfl
theorem lhs_w_1 (i : S32x32.Idx) (q : dot_S32x32_S32x32_S32x32_1_0_0_1_n_n.contr.Idx) :
    (dot_S32x32_S32x32_S32x32_1_0_0_1_n_n.lhsIdx i q 1).val = (q ⟨0, by decide⟩).val :=
  dot_S32x32_S32x32_S32x32_1_0_0_1_n_n.lhsIdx_val_of_single rfl i q
theorem rhs_w_0 (i : S32x32.Idx) (q : dot_S32x32_S32x32_S32x32_1_0_0_1_n_n.contr.Idx) :
    (dot_S32x32_S32x32_S32x32_1_0_0_1_n_n.rhsIdx i q 0).val = (q ⟨0, by decide⟩).val :=
  dot_S32x32_S32x32_S32x32_1_0_0_1_n_n.rhsIdx_val_of_single rfl i q
theorem rhs_w_1 (i : S32x32.Idx) (q : dot_S32x32_S32x32_S32x32_1_0_0_1_n_n.contr.Idx) :
    (dot_S32x32_S32x32_S32x32_1_0_0_1_n_n.rhsIdx i q 1).val = (i 1).val := by
  unfold DotDims.rhsIdx
  rw [dif_neg (show ¬(1 : Fin S32x32.rank) ∈ dot_S32x32_S32x32_S32x32_1_0_0_1_n_n.rhsBatch by decide), dif_pos (show (1 : Fin S32x32.rank) ∈ dot_S32x32_S32x32_S32x32_1_0_0_1_n_n.rhsNonContracting by decide)]
  rfl

theorem matmul_w_apply (lhs : FVec Ideal S32x32 .f32) (rhs : FVec Ideal S32x32 .f32) (i : Fin 32) (j : Fin 32) :
    matmul dot_S32x32_S32x32_S32x32_1_0_0_1_n_n none lhs rhs (constant (F := Ideal) S32x32 .f32 0x00000000#32) (ix2 i j)
      = ∑ k : Fin 32, lhs (ix2 i k) * rhs (ix2 k j) := by
  simp only [matmul]
  rw [Ideal.matmul_constant_zero_apply, ← Equiv.sum_comp (contrEquiv1 dot_S32x32_S32x32_S32x32_1_0_0_1_n_n 32 rfl rfl).symm]
  refine Finset.sum_congr rfl fun k _ => ?_
  have hk := contrEquiv1_symm_val dot_S32x32_S32x32_S32x32_1_0_0_1_n_n 32 rfl rfl k
  have el : dot_S32x32_S32x32_S32x32_1_0_0_1_n_n.lhsIdx (ix2 i j) ((contrEquiv1 dot_S32x32_S32x32_S32x32_1_0_0_1_n_n 32 rfl rfl).symm k) = ix2 i k := funext fun a => Fin.ext (by
    match a with
    | ⟨0, _⟩ => exact lhs_w_0 _ _
    | ⟨1, _⟩ => exact (lhs_w_1 _ _).trans hk)
  have er : dot_S32x32_S32x32_S32x32_1_0_0_1_n_n.rhsIdx (ix2 i j) ((contrEquiv1 dot_S32x32_S32x32_S32x32_1_0_0_1_n_n 32 rfl rfl).symm k) = ix2 k j := funext fun a => Fin.ext (by
    match a with
    | ⟨0, _⟩ => exact (rhs_w_0 _ _).trans hk
    | ⟨1, _⟩ => exact rhs_w_1 _ _)
  rw [el, er]

theorem lhs_b_0 (i : S1x32.Idx) (q : dot_S1x32_S32x32_S1x32_1_0_0_1_n_n.contr.Idx) :
    (dot_S1x32_S32x32_S1x32_1_0_0_1_n_n.lhsIdx i q 0).val = (i 0).val := by
  unfold DotDims.lhsIdx
  rw [dif_neg (show ¬(0 : Fin S1x32.rank) ∈ dot_S1x32_S32x32_S1x32_1_0_0_1_n_n.lhsBatch by decide), dif_pos (show (0 : Fin S1x32.rank) ∈ dot_S1x32_S32x32_S1x32_1_0_0_1_n_n.lhsNonContracting by decide)]
  rfl
theorem lhs_b_1 (i : S1x32.Idx) (q : dot_S1x32_S32x32_S1x32_1_0_0_1_n_n.contr.Idx) :
    (dot_S1x32_S32x32_S1x32_1_0_0_1_n_n.lhsIdx i q 1).val = (q ⟨0, by decide⟩).val :=
  dot_S1x32_S32x32_S1x32_1_0_0_1_n_n.lhsIdx_val_of_single rfl i q
theorem rhs_b_0 (i : S1x32.Idx) (q : dot_S1x32_S32x32_S1x32_1_0_0_1_n_n.contr.Idx) :
    (dot_S1x32_S32x32_S1x32_1_0_0_1_n_n.rhsIdx i q 0).val = (q ⟨0, by decide⟩).val :=
  dot_S1x32_S32x32_S1x32_1_0_0_1_n_n.rhsIdx_val_of_single rfl i q
theorem rhs_b_1 (i : S1x32.Idx) (q : dot_S1x32_S32x32_S1x32_1_0_0_1_n_n.contr.Idx) :
    (dot_S1x32_S32x32_S1x32_1_0_0_1_n_n.rhsIdx i q 1).val = (i 1).val := by
  unfold DotDims.rhsIdx
  rw [dif_neg (show ¬(1 : Fin S32x32.rank) ∈ dot_S1x32_S32x32_S1x32_1_0_0_1_n_n.rhsBatch by decide), dif_pos (show (1 : Fin S32x32.rank) ∈ dot_S1x32_S32x32_S1x32_1_0_0_1_n_n.rhsNonContracting by decide)]
  rfl

theorem matmul_b_apply (lhs : FVec Ideal S1x32 .f32) (rhs : FVec Ideal S32x32 .f32) (i : Fin 1) (j : Fin 32) :
    matmul dot_S1x32_S32x32_S1x32_1_0_0_1_n_n none lhs rhs (constant (F := Ideal) S1x32 .f32 0x00000000#32) (ix2 i j)
      = ∑ k : Fin 32, lhs (ix2 i k) * rhs (ix2 k j) := by
  simp only [matmul]
  rw [Ideal.matmul_constant_zero_apply, ← Equiv.sum_comp (contrEquiv1 dot_S1x32_S32x32_S1x32_1_0_0_1_n_n 32 rfl rfl).symm]
  refine Finset.sum_congr rfl fun k _ => ?_
  have hk := contrEquiv1_symm_val dot_S1x32_S32x32_S1x32_1_0_0_1_n_n 32 rfl rfl k
  have el : dot_S1x32_S32x32_S1x32_1_0_0_1_n_n.lhsIdx (ix2 i j) ((contrEquiv1 dot_S1x32_S32x32_S1x32_1_0_0_1_n_n 32 rfl rfl).symm k) = ix2 i k := funext fun a => Fin.ext (by
    match a with
    | ⟨0, _⟩ => exact lhs_b_0 _ _
    | ⟨1, _⟩ => exact (lhs_b_1 _ _).trans hk)
  have er : dot_S1x32_S32x32_S1x32_1_0_0_1_n_n.rhsIdx (ix2 i j) ((contrEquiv1 dot_S1x32_S32x32_S1x32_1_0_0_1_n_n 32 rfl rfl).symm k) = ix2 k j := funext fun a => Fin.ext (by
    match a with
    | ⟨0, _⟩ => exact (rhs_b_0 _ _).trans hk
    | ⟨1, _⟩ => exact rhs_b_1 _ _)
  rw [el, er]

theorem lhs_c_0 (i : S16384x32.Idx) (q : dot_S16384x32_S32x32_S16384x32_1_0_0_1_n_n.contr.Idx) :
    (dot_S16384x32_S32x32_S16384x32_1_0_0_1_n_n.lhsIdx i q 0).val = (i 0).val := by
  unfold DotDims.lhsIdx
  rw [dif_neg (show ¬(0 : Fin S16384x32.rank) ∈ dot_S16384x32_S32x32_S16384x32_1_0_0_1_n_n.lhsBatch by decide), dif_pos (show (0 : Fin S16384x32.rank) ∈ dot_S16384x32_S32x32_S16384x32_1_0_0_1_n_n.lhsNonContracting by decide)]
  rfl
theorem lhs_c_1 (i : S16384x32.Idx) (q : dot_S16384x32_S32x32_S16384x32_1_0_0_1_n_n.contr.Idx) :
    (dot_S16384x32_S32x32_S16384x32_1_0_0_1_n_n.lhsIdx i q 1).val = (q ⟨0, by decide⟩).val :=
  dot_S16384x32_S32x32_S16384x32_1_0_0_1_n_n.lhsIdx_val_of_single rfl i q
theorem rhs_c_0 (i : S16384x32.Idx) (q : dot_S16384x32_S32x32_S16384x32_1_0_0_1_n_n.contr.Idx) :
    (dot_S16384x32_S32x32_S16384x32_1_0_0_1_n_n.rhsIdx i q 0).val = (q ⟨0, by decide⟩).val :=
  dot_S16384x32_S32x32_S16384x32_1_0_0_1_n_n.rhsIdx_val_of_single rfl i q
theorem rhs_c_1 (i : S16384x32.Idx) (q : dot_S16384x32_S32x32_S16384x32_1_0_0_1_n_n.contr.Idx) :
    (dot_S16384x32_S32x32_S16384x32_1_0_0_1_n_n.rhsIdx i q 1).val = (i 1).val := by
  unfold DotDims.rhsIdx
  rw [dif_neg (show ¬(1 : Fin S32x32.rank) ∈ dot_S16384x32_S32x32_S16384x32_1_0_0_1_n_n.rhsBatch by decide), dif_pos (show (1 : Fin S32x32.rank) ∈ dot_S16384x32_S32x32_S16384x32_1_0_0_1_n_n.rhsNonContracting by decide)]
  rfl

theorem matmul_c_apply (lhs : FVec Ideal S16384x32 .f32) (rhs : FVec Ideal S32x32 .f32) (i : Fin 16384) (j : Fin 32) :
    matmul dot_S16384x32_S32x32_S16384x32_1_0_0_1_n_n none lhs rhs (constant (F := Ideal) S16384x32 .f32 0x00000000#32) (ix2 i j)
      = ∑ k : Fin 32, lhs (ix2 i k) * rhs (ix2 k j) := by
  simp only [matmul]
  rw [Ideal.matmul_constant_zero_apply, ← Equiv.sum_comp (contrEquiv1 dot_S16384x32_S32x32_S16384x32_1_0_0_1_n_n 32 rfl rfl).symm]
  refine Finset.sum_congr rfl fun k _ => ?_
  have hk := contrEquiv1_symm_val dot_S16384x32_S32x32_S16384x32_1_0_0_1_n_n 32 rfl rfl k
  have el : dot_S16384x32_S32x32_S16384x32_1_0_0_1_n_n.lhsIdx (ix2 i j) ((contrEquiv1 dot_S16384x32_S32x32_S16384x32_1_0_0_1_n_n 32 rfl rfl).symm k) = ix2 i k := funext fun a => Fin.ext (by
    match a with
    | ⟨0, _⟩ => exact lhs_c_0 _ _
    | ⟨1, _⟩ => exact (lhs_c_1 _ _).trans hk)
  have er : dot_S16384x32_S32x32_S16384x32_1_0_0_1_n_n.rhsIdx (ix2 i j) ((contrEquiv1 dot_S16384x32_S32x32_S16384x32_1_0_0_1_n_n 32 rfl rfl).symm k) = ix2 k j := funext fun a => Fin.ext (by
    match a with
    | ⟨0, _⟩ => exact (rhs_c_0 _ _).trans hk
    | ⟨1, _⟩ => exact rhs_c_1 _ _)
  rw [el, er]

theorem lhs_adj_0 (i : S128x32x128.Idx) (q : dot_S128x128_S128x32x128_S128x32x128_1_0_0_12_n_n.contr.Idx) :
    (dot_S128x128_S128x32x128_S128x32x128_1_0_0_12_n_n.lhsIdx i q 0).val = (i 0).val := by
  unfold DotDims.lhsIdx
  rw [dif_neg (show ¬(0 : Fin S128x128.rank) ∈ dot_S128x128_S128x32x128_S128x32x128_1_0_0_12_n_n.lhsBatch by decide), dif_pos (show (0 : Fin S128x128.rank) ∈ dot_S128x128_S128x32x128_S128x32x128_1_0_0_12_n_n.lhsNonContracting by decide)]
  rfl
theorem lhs_adj_1 (i : S128x32x128.Idx) (q : dot_S128x128_S128x32x128_S128x32x128_1_0_0_12_n_n.contr.Idx) :
    (dot_S128x128_S128x32x128_S128x32x128_1_0_0_12_n_n.lhsIdx i q 1).val = (q ⟨0, by decide⟩).val :=
  dot_S128x128_S128x32x128_S128x32x128_1_0_0_12_n_n.lhsIdx_val_of_single rfl i q
theorem rhs_adj_0 (i : S128x32x128.Idx) (q : dot_S128x128_S128x32x128_S128x32x128_1_0_0_12_n_n.contr.Idx) :
    (dot_S128x128_S128x32x128_S128x32x128_1_0_0_12_n_n.rhsIdx i q 0).val = (q ⟨0, by decide⟩).val :=
  dot_S128x128_S128x32x128_S128x32x128_1_0_0_12_n_n.rhsIdx_val_of_single rfl i q
theorem rhs_adj_1 (i : S128x32x128.Idx) (q : dot_S128x128_S128x32x128_S128x32x128_1_0_0_12_n_n.contr.Idx) :
    (dot_S128x128_S128x32x128_S128x32x128_1_0_0_12_n_n.rhsIdx i q 1).val = (i 1).val := by
  unfold DotDims.rhsIdx
  rw [dif_neg (show ¬(1 : Fin S128x32x128.rank) ∈ dot_S128x128_S128x32x128_S128x32x128_1_0_0_12_n_n.rhsBatch by decide), dif_pos (show (1 : Fin S128x32x128.rank) ∈ dot_S128x128_S128x32x128_S128x32x128_1_0_0_12_n_n.rhsNonContracting by decide)]
  rfl
theorem rhs_adj_2 (i : S128x32x128.Idx) (q : dot_S128x128_S128x32x128_S128x32x128_1_0_0_12_n_n.contr.Idx) :
    (dot_S128x128_S128x32x128_S128x32x128_1_0_0_12_n_n.rhsIdx i q 2).val = (i 2).val := by
  unfold DotDims.rhsIdx
  rw [dif_neg (show ¬(2 : Fin S128x32x128.rank) ∈ dot_S128x128_S128x32x128_S128x32x128_1_0_0_12_n_n.rhsBatch by decide), dif_pos (show (2 : Fin S128x32x128.rank) ∈ dot_S128x128_S128x32x128_S128x32x128_1_0_0_12_n_n.rhsNonContracting by decide)]
  rfl

theorem matmul_adj_apply (lhs : FVec Ideal S128x128 .f32) (rhs : FVec Ideal S128x32x128 .f32) (d : Fin 128) (h : Fin 32) (l : Fin 128) :
    matmul dot_S128x128_S128x32x128_S128x32x128_1_0_0_12_n_n none lhs rhs (constant (F := Ideal) S128x32x128 .f32 0x00000000#32) (ix3 d h l)
      = ∑ s : Fin 128, lhs (ix2 d s) * rhs (ix3 s h l) := by
  simp only [matmul]
  rw [Ideal.matmul_constant_zero_apply, ← Equiv.sum_comp (contrEquiv1 dot_S128x128_S128x32x128_S128x32x128_1_0_0_12_n_n 128 rfl rfl).symm]
  refine Finset.sum_congr rfl fun s _ => ?_
  have hk := contrEquiv1_symm_val dot_S128x128_S128x32x128_S128x32x128_1_0_0_12_n_n 128 rfl rfl s
  have el : dot_S128x128_S128x32x128_S128x32x128_1_0_0_12_n_n.lhsIdx (ix3 d h l) ((contrEquiv1 dot_S128x128_S128x32x128_S128x32x128_1_0_0_12_n_n 128 rfl rfl).symm s) = ix2 d s := funext fun a => Fin.ext (by
    match a with
    | ⟨0, _⟩ => exact lhs_adj_0 _ _
    | ⟨1, _⟩ => exact (lhs_adj_1 _ _).trans hk)
  have er : dot_S128x128_S128x32x128_S128x32x128_1_0_0_12_n_n.rhsIdx (ix3 d h l) ((contrEquiv1 dot_S128x128_S128x32x128_S128x32x128_1_0_0_12_n_n 128 rfl rfl).symm s) = ix3 s h l := funext fun a => Fin.ext (by
    match a with
    | ⟨0, _⟩ => exact (rhs_adj_0 _ _).trans hk
    | ⟨1, _⟩ => exact rhs_adj_1 _ _
    | ⟨2, _⟩ => exact rhs_adj_2 _ _)
  rw [el, er]

theorem one_bits : Ideal.ofBits .f32 0x3F800000#32 = 1 := IdealRules.sign_bit.ideal_onePat .f32

theorem rowSum_apply (v : FVec Ideal S128x128 .f32) (d : Fin 128) :
    multiReduction (F := Ideal) .add [1] S128 v 0x00000000#32 reduces_S128x128_S128_2 (.inl rfl) rfl (ix1 d)
      = ∑ s : Fin 128, v (ix2 d s) := by
  refine (Ideal.multiReduction_add_single v 0x00000000#32 reduces_S128x128_S128_2 (.inl rfl) rfl (ix1 d)).trans ?_
  exact Finset.sum_congr rfl fun s _ => congrArg v (funext fun a => Fin.ext (match a with | ⟨0, _⟩ => rfl | ⟨1, _⟩ => rfl))

theorem colSum_apply (v : FVec Ideal S128x128 .f32) (s : Fin 128) :
    multiReduction (F := Ideal) .add [0] S128 v 0x00000000#32 reduces_S128x128_S128 (.inl rfl) rfl (ix1 s)
      = ∑ d : Fin 128, v (ix2 d s) := by
  refine (Ideal.multiReduction_add_single v 0x00000000#32 reduces_S128x128_S128 (.inl rfl) rfl (ix1 s)).trans ?_
  exact Finset.sum_congr rfl fun d _ => congrArg v (funext fun a => Fin.ext (match a with | ⟨0, _⟩ => rfl | ⟨1, _⟩ => rfl))

theorem scrA_eq (cnt : Vec Ideal S128x128 .f32) : scrA cnt = k1_pay3 cnt := by
  unfold scrA k1_pay4
  exact shapeCast_self _ _

theorem scrA_apply (cnt : Vec Ideal S128x128 .f32) (d s : Fin 128) :
    scrA cnt (ix2 d s)
      = Ideal.rsqrt ((∑ s' : Fin 128, cnt (ix2 d s')) + 1) * (cnt (ix2 d s) + (if d = s then 1 else 0))
          * Ideal.rsqrt ((∑ d' : Fin 128, cnt (ix2 d' s)) + 1) := by
  rw [scrA_eq]
  unfold k1_pay3
  simp only [shapeCast_self]
  rw [mulf_apply, mulf_apply, addf_apply]
  congr 1
  · congr 1
    · refine (broadcastTo_a1_ab_apply _ _ d s).trans ?_
      refine (shapeCast_a_a1_apply _ _ d 0).trans ?_
      show Ideal.rsqrt (multiReduction (F := Ideal) .add [1] S128 cnt 0x00000000#32 reduces_S128x128_S128_2 (.inl rfl) rfl (ix1 d)
        + Ideal.ofBits .f32 0x3F800000#32) = _
      rw [rowSum_apply, one_bits]
    · congr 1
      show ((((IntOp.cmpi .eq (iota .tc S128x128 32 [0] iota_S128x128_d0_w32 (ix2 d s)) (iota .tc S128x128 32 [1] iota_S128x128_d1_w32 (ix2 d s))).setWidth 32).toInt : ℝ) : EReal) = _
      rw [iota_single_apply, iota_single_apply]
      exact eye_word d s
  · refine (broadcastTo_1b_ab_apply _ _ d s).trans ?_
    refine (shapeCast_a_1a_apply _ _ 0 s).trans ?_
    show Ideal.rsqrt (multiReduction (F := Ideal) .add [0] S128 cnt 0x00000000#32 reduces_S128x128_S128 (.inl rfl) rfl (ix1 s)
      + Ideal.ofBits .f32 0x3F800000#32) = _
    rw [colSum_apply, one_bits]

theorem scrWc_apply (We Wg : Vec Ideal S32x32 .f32) (i j : Fin 32) :
    scrWc We Wg (ix2 i j) = ∑ k : Fin 32, We (ix2 i k) * Wg (ix2 k j) := by
  unfold scrWc k1_pay5
  simp only [shapeCast_self]
  exact matmul_w_apply We Wg i j

theorem scrBias_apply (cnt : Vec Ideal S128x128 .f32) (be1 : Vec Ideal S1x32 .f32) (Wg : Vec Ideal S32x32 .f32)
    (bg1 : Vec Ideal S1x32 .f32) (d : Fin 128) (h' : Fin 32) :
    scrBias cnt be1 Wg bg1 (ix2 d h')
      = (∑ s : Fin 128, scrA cnt (ix2 d s)) * (∑ k : Fin 32, be1 (ix2 (0 : Fin 1) k) * Wg (ix2 k h'))
          + bg1 (ix2 (0 : Fin 1) h') := by
  rw [scrA_eq]
  unfold scrBias k1_pay1 k1_pay6 k1_pay7
  simp only [shapeCast_self]
  rw [addf_apply, mulf_apply]
  congr 1
  · congr 1
    · refine (broadcastTo_a1_ab_apply _ _ d h').trans ?_
      refine (shapeCast_a_a1_apply _ _ d 0).trans ?_
      exact rowSum_apply _ d
    · refine (broadcastTo_1b_ab_apply _ _ d h').trans ?_
      exact matmul_b_apply be1 Wg 0 h'
  · exact broadcastTo_1b_ab_apply _ _ d h'

theorem blkOut_apply (xb : Vec Ideal S128x4096 .f32) (A : Vec Ideal S128x128 .f32) (Wc : Vec Ideal S32x32 .f32)
    (bias : Vec Ideal S128x32 .f32) (l d : Fin 128) (h' : Fin 32) :
    blkOut xb A Wc bias (ix2 (⟨l.val * 128 + d.val, by have := l.isLt; have := d.isLt; omega⟩ : Fin 16384) h')
      = (∑ k : Fin 32, (∑ s : Fin 128, A (ix2 d s)
            * xb (ix2 l (⟨s.val * 32 + k.val, by have := s.isLt; have := k.isLt; omega⟩ : Fin 4096))) * Wc (ix2 k h'))
          + bias (ix2 d h') := by
  unfold blkOut k1_pay2
  refine (shapeCast_128x128x32_16384x32_apply _ _ l d h').trans ?_
  rw [addf_apply]
  congr 1
  · refine (transpose_ix3_102_apply _ _ l d h').trans ?_
    refine (shapeCast_16384x32_128x128x32_apply _ _ d l h').trans ?_
    refine (matmul_c_apply _ _ (⟨d.val * 128 + l.val, by have := l.isLt; have := d.isLt; omega⟩ : Fin 16384) h').trans ?_
    refine Finset.sum_congr rfl fun k _ => ?_
    refine congrArg (fun z : EReal => z * Wc (ix2 k h')) ?_
    refine (shapeCast_128x128x32_16384x32_apply _ _ d l k).trans ?_
    refine (transpose_ix3_021_apply _ _ d l k).trans ?_
    refine (matmul_adj_apply _ _ d k l).trans ?_
    refine Finset.sum_congr rfl fun s _ => ?_
    refine congrArg (fun z : EReal => A (ix2 d s) * z) ?_
    refine (shapeCast_4096x128_128x32x128_apply _ _ s k l).trans ?_
    exact transpose_ix2_apply _ _ _ l
  · refine (broadcastTo_1bc_abc_apply _ _ l d h').trans ?_
    exact shapeCast_ab_1ab_apply _ _ 0 d h'

theorem outVal_eq (cnt : Vec Ideal S128x128 .f32) (x1 x3 : Vec Ideal S32x32 .f32) (b1 b3 : Vec Ideal S1x32 .f32)
    (x : Vec Ideal S1024x4096 .f32) (a2 a4 : S32.Idx → EReal) (src dst : Fin 1024 → Fin 128)
    (hcnt : ∀ d s, cnt (ix2 d s) = Cert.Spec.cnt src dst d s)
    (hb1 : ∀ i : Fin 32, b1 (ix2 (0 : Fin 1) i) = a2 (ix1 i)) (hb3 : ∀ i : Fin 32, b3 (ix2 (0 : Fin 1) i) = a4 (ix1 i))
    (b : Fin 1024) (d : Fin 128) (h' : Fin 32) :
    outVal (F := Ideal) cnt x1 b1 x3 b3 x
        (ix2 (⟨b.val * 128 + d.val, by have := b.isLt; have := d.isLt; omega⟩ : Fin 131072) h')
      = Cert.Spec.kOut (Cert.Spec.Xof x) (Cert.Spec.Mof x1) (Cert.Spec.Mof x3) (Cert.Spec.Vof a2) (Cert.Spec.Vof a4) src dst b d h' := by
  have hd := d.isLt
  obtain ⟨t, l, rfl⟩ : ∃ (t : Fin 8) (l : Fin 128), b = (⟨t.val * 128 + l.val, by have := t.isLt; have := l.isLt; omega⟩ : Fin 1024) :=
    ⟨⟨b.val / 128, by have := b.isLt; omega⟩, ⟨b.val % 128, Nat.mod_lt _ (by decide)⟩, Fin.ext (by show b.val = b.val / 128 * 128 + b.val % 128; omega)⟩
  have ht := t.isLt
  have hl := l.isLt
  have hrow : (⟨(t.val * 128 + l.val) * 128 + d.val, by omega⟩ : Fin 131072)
      = ⟨t.val * 16384 + (l.val * 128 + d.val), by omega⟩ := Fin.ext (by show (t.val * 128 + l.val) * 128 + d.val = t.val * 16384 + (l.val * 128 + d.val); omega)
  have hA : ∀ d s, scrA cnt (ix2 d s) = Cert.Spec.adjN src dst d s := fun d s => by
    rw [scrA_apply]
    simp only [hcnt]
    rfl
  show outVal (F := Ideal) cnt x1 b1 x3 b3 x (ix2 (⟨(t.val * 128 + l.val) * 128 + d.val, _⟩ : Fin 131072) h') = _
  rw [hrow]
  refine (outVal_blk cnt x1 b1 x3 b3 x t (ix2 (⟨l.val * 128 + d.val, by omega⟩ : Fin 16384) h')).trans ?_
  rw [blkOut_apply, scrBias_apply]
  simp only [hA, scrWc_apply, hb1, hb3]
  rfl

end Cert.Proof.KIOut

end
-- ==== Proof.KernelIdealCommon.lean ====
import proofs.«206864_g62740882260319_cont_9to1_m_949_20_alg».proof.Defs
import proofs.«206864_g62740882260319_cont_9to1_m_949_20_alg».proof.Proof.Gen.KernelIdeal
import Idealize.ShloMosaic.Lib.SparseCore.Launch
import Idealize.ShloMosaic.Lib.SparseCore.Ops
import Idealize.ShloMosaic.Lib.Pipeline.Kit
import Idealize.ShloMosaic.Lib.Pipeline.Regions
import Idealize.ShloMosaic.Lib.Transfers
import Idealize.ShloMosaic.Lib.StableHlo.Run
import Idealize.ShloMosaic.Lib.Tactic

noncomputable section

namespace Cert.Proof.KernelIdealCommon

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.Sem
open Idealize.ShloMosaic.Rounds

variable {F : FTy → Type}

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UP : Type := URounds (GSem nD τ sig) Unit
abbrev UU : Type := UH × (UP × Counters)

abbrev 𝕄T (F : FTy → Type) : Type := MT nD τ sig (HIx 1) (Elt F) ℕ UU ℕ

def EH : Emb UH (MT nD τ sig (HIx 1) (Elt F) ℕ UU ℕ) :=
  (Emb.inl : Emb UH UU).trans (uEmb (nD := nD) (sig := sig) (Ix := HIx 1) (Val := Elt F) (Name := ℕ) (U := UU) (Lvl := ℕ)).toEmb
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb

instance EH_landsIn : (EH : Emb UH (𝕄T F)).LandsIn (upEmb : UEmb _ (𝕄T F)) := by unfold EH; infer_instance
instance EP_landsIn : (EP : Emb UP (𝕄T F)).LandsIn (upEmb : UEmb _ (𝕄T F)) := by unfold EP; infer_instance

end Cert.Proof.KernelIdealCommon

end
-- ==== Proof.KIPay.lean ====
import proofs.«206864_g62740882260319_cont_9to1_m_949_20_alg».proof.Proof.KernelIdealCommon

noncomputable section

namespace Cert.Proof.KIPay

open Cert.KernelIdeal Cert.KernelIdeal.Gen
open Cert.Proof.KernelIdealCommon

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type}

abbrev srcLoc (d : Dev nD) : Loc nD τ sig := (SparseCore.T d).loc main_arg5
abbrev dstLoc (d : Dev nD) : Loc nD τ sig := (SparseCore.T d).loc main_arg6
abbrev cntLoc (d : Dev nD) : Loc nD τ sig := (SparseCore.T d).loc main_v0

abbrev srcV : Memref sig .scVector .hbm S1024 .i32 := Memref.whole main_arg5_scv
abbrev dstV : Memref sig .scVector .hbm S1024 .i32 := Memref.whole main_arg6_scv
abbrev cntV : Memref sig .scVector .hbm S128x128 .f32 := Memref.whole main_v0_scv
abbrev s0 : Memref sig .scVector .vmem S1024 .i32 := Memref.whole cc0_scratch0
abbrev s1 : Memref sig .scVector .vmem S1024 .i32 := Memref.whole cc0_scratch1
abbrev s2 : Memref sig .scVector .vmem S8192 .f32 := Memref.whole cc0_scratch2
abbrev s3 : Memref sig .scVector .vmem S4x128 .f32 := Memref.whole cc0_scratch3
abbrev cV (L : grid0.Coords) : Fin τ.nSC := (L 0).castLE hcore0
abbrev jV (L : grid0.Coords) : Fin τ.nSub := (L 1).castLE hsub0

def coordsV (c : Fin (grid0.bound 0)) (s : Fin (grid0.bound 1)) : grid0.Coords :=
  fun | 0 => c | 1 => s | ⟨_ + 2, h⟩ => absurd h (Nat.not_lt.2 (Nat.le_add_left _ _))

abbrev rowsR (L : grid0.Coords) : Rect S128x128 := Rect.unit (s := S128x128) (k0_off1 L) S4x128.size (k0_off1_inb L)
abbrev cntRows (L : grid0.Coords) : Memref sig .scVector .hbm S4x128 .f32 := (cntV).slice (rowsR L) (fun _ => rfl)
abbrev rowsSet (L : grid0.Coords) : Finset S128x128.Idx := (cntRows L).view.set

def coreRows (c : Fin 2) : Finset S128x128.Idx := (Finset.univ : Finset (Fin 16)).biUnion fun s => rowsSet (coordsV c s)

abbrev qC (c : Fin 2) : PosShare TreeShare := shareTok fullShare 2 c
abbrev qT (c : Fin 2) (s : Fin 16) : PosShare TreeShare := shareTok (qC c) 16 s
abbrev qMainRest : PosShare TreeShare := shareDrop fullShare 2
variable (m : (ℓ : Loc nD τ sig) → Buf (Elt F) ℓ)

local notation "𝕄" => 𝕄T F

def coreT (d : Dev nD) (c : Fin 2) (f : Buf (Elt F) (cntLoc d)) : sProp 𝕄 :=
  iprop((srcLoc d ↦{qC c} m (srcLoc d)) ∗ (dstLoc d ↦{qC c} m (dstLoc d)) ∗ (cntLoc d ↦[coreRows c]{fullShare} f))

def tileT (d : Dev nD) (c : Fin 2) (s : Fin 16) (f : Buf (Elt F) (cntLoc d)) : sProp 𝕄 :=
  iprop((srcLoc d ↦{qT c s} m (srcLoc d)) ∗ (dstLoc d ↦{qT c s} m (dstLoc d)) ∗ (cntLoc d ↦[rowsSet (coordsV c s)]{fullShare} f))

theorem coreT_eq (d : Dev nD) (c : Fin 2) (f : Buf (Elt F) (cntLoc d)) :
    coreT m d c f = iprop((srcLoc d ↦{qC c} m (srcLoc d)) ∗ (dstLoc d ↦{qC c} m (dstLoc d)) ∗ (cntLoc d ↦[coreRows c]{fullShare} f)) := rfl
theorem tileT_eq (d : Dev nD) (c : Fin 2) (s : Fin 16) (f : Buf (Elt F) (cntLoc d)) :
    tileT m d c s f = iprop((srcLoc d ↦{qT c s} m (srcLoc d)) ∗ (dstLoc d ↦{qT c s} m (dstLoc d)) ∗ (cntLoc d ↦[rowsSet (coordsV c s)]{fullShare} f)) := rfl

instance coreT_storable (d : Dev nD) (c : Fin 2) (f : Buf (Elt F) (cntLoc d)) : BI.Storable (upEmb : UEmb _ 𝕄) (coreT m d c f) := by
  unfold coreT; infer_instance
instance tileT_storable (d : Dev nD) (c : Fin 2) (s : Fin 16) (f : Buf (Elt F) (cntLoc d)) : BI.Storable (upEmb : UEmb _ 𝕄) (tileT m d c s f) := by
  unfold tileT; infer_instance

def mainRest (d : Dev nD) : sProp 𝕄 :=
  iprop((srcLoc d ↦{qMainRest} m (srcLoc d)) ∗ (dstLoc d ↦{qMainRest} m (dstLoc d)))

end Cert.Proof.KIPay

end
-- ==== Proof.KIHand.lean ====
import proofs.«206864_g62740882260319_cont_9to1_m_949_20_alg».proof.Proof.KIPay

noncomputable section

namespace Cert.Proof.KIHand

open Cert.KernelIdeal Cert.KernelIdeal.Gen
open Cert.Proof.KernelIdealCommon Cert.Proof.KIPay

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => 𝕄T F

variable (m : (ℓ : Loc nD τ sig) → Buf (Elt F) ℓ)

abbrev a0Loc (d : Dev nD) : Loc nD τ sig := (SparseCore.T d).loc main_arg0
abbrev a1Loc (d : Dev nD) : Loc nD τ sig := (SparseCore.T d).loc main_arg1
abbrev a2Loc (d : Dev nD) : Loc nD τ sig := (SparseCore.T d).loc main_arg2
abbrev a3Loc (d : Dev nD) : Loc nD τ sig := (SparseCore.T d).loc main_arg3
abbrev a4Loc (d : Dev nD) : Loc nD τ sig := (SparseCore.T d).loc main_arg4
abbrev v1Loc (d : Dev nD) : Loc nD τ sig := (SparseCore.T d).loc main_v1
abbrev v2Loc (d : Dev nD) : Loc nD τ sig := (SparseCore.T d).loc main_v2
abbrev outLoc (d : Dev nD) : Loc nD τ sig := (SparseCore.T d).loc main_v3

variable (cv : (d : Dev nD) → Buf (Elt F) (cntLoc d)) (ov : (d : Dev nD) → Buf (Elt F) (outLoc d))

def P : (K (F := F)).Pay (nD := nD) (Val := Elt F) (Name := ℕ) (U := UU) where
  st := fun q d c => match q with | 0 => coreT m d (Fin.cast nCore_zero c) (m (cntLoc d))
  dn := fun q d c => match q with | 0 => coreT m d (Fin.cast nCore_zero c) (cv d)
  go := fun q d c i => match q with | 0 => tileT m d (Fin.cast nCore_zero c) (Fin.cast nSub_zero i) (m (cntLoc d))
  td := fun q d c i => match q with | 0 => tileT m d (Fin.cast nCore_zero c) (Fin.cast nSub_zero i) (cv d)
  x := fun _ _ => iprop(emp)

instance P_storable : (P (F := F) m cv).IsStorable where
  st q d c := match q with
    | 0 => (inferInstance : BI.Storable (upEmb : UEmb _ 𝕄) (coreT m d (Fin.cast nCore_zero c) (m (cntLoc d))))
  dn q d c := match q with
    | 0 => (inferInstance : BI.Storable (upEmb : UEmb _ 𝕄) (coreT m d (Fin.cast nCore_zero c) (cv d)))
  go q d c i := match q with
    | 0 => (inferInstance : BI.Storable (upEmb : UEmb _ 𝕄) (tileT m d (Fin.cast nCore_zero c) (Fin.cast nSub_zero i) (m (cntLoc d))))
  td q d c i := match q with
    | 0 => (inferInstance : BI.Storable (upEmb : UEmb _ 𝕄) (tileT m d (Fin.cast nCore_zero c) (Fin.cast nSub_zero i) (cv d)))

theorem P_st (d : Dev nD) (c : Fin ((K (F := F)).nCore 0)) : (P m cv).st 0 d c = coreT m d (Fin.cast nCore_zero c) (m (cntLoc d)) := rfl
theorem P_dn (d : Dev nD) (c : Fin ((K (F := F)).nCore 0)) : (P m cv).dn 0 d c = coreT m d (Fin.cast nCore_zero c) (cv d) := rfl
theorem P_go (d : Dev nD) (c : Fin ((K (F := F)).nCore 0)) (i : Fin ((K (F := F)).nSub 0)) :
    (P m cv).go 0 d c i = tileT m d (Fin.cast nCore_zero c) (Fin.cast nSub_zero i) (m (cntLoc d)) := rfl
theorem P_td (d : Dev nD) (c : Fin ((K (F := F)).nCore 0)) (i : Fin ((K (F := F)).nSub 0)) :
    (P m cv).td 0 d c i = tileT m d (Fin.cast nCore_zero c) (Fin.cast nSub_zero i) (cv d) := rfl
theorem P_x (q : Fin 1) (thr : Thread nD τ) : (P m cv).x q thr = iprop(emp) := rfl

def FIN (d : Dev nD) : sProp 𝕄 :=
  iprop((outLoc d ↦{fullShare} ov d) ∗ (a0Loc d ↦{fullShare} m (a0Loc d)) ∗ (a1Loc d ↦{fullShare} m (a1Loc d)) ∗ (a2Loc d ↦{fullShare} m (a2Loc d))
    ∗ (a3Loc d ↦{fullShare} m (a3Loc d)) ∗ (a4Loc d ↦{fullShare} m (a4Loc d)) ∗ (srcLoc d ↦{fullShare} m (srcLoc d)) ∗ (dstLoc d ↦{fullShare} m (dstLoc d)))

def fq (d : Dev nD) (s' : Phys nD τ sig (Elt F)) : Prop :=
  s'.mem.mem (outLoc d) = ov d ∧ s'.mem.mem (a0Loc d) = m (a0Loc d) ∧ s'.mem.mem (a1Loc d) = m (a1Loc d) ∧ s'.mem.mem (a2Loc d) = m (a2Loc d)
    ∧ s'.mem.mem (a3Loc d) = m (a3Loc d) ∧ s'.mem.mem (a4Loc d) = m (a4Loc d) ∧ s'.mem.mem (srcLoc d) = m (srcLoc d) ∧ s'.mem.mem (dstLoc d) = m (dstLoc d)

def QC : PUnit × MemSt nD τ sig (Elt F) → Prop := fun r => ∀ c : Dev nD,
  r.2.mem (outLoc c) = ov c ∧ r.2.mem (a0Loc c) = m (a0Loc c) ∧ r.2.mem (a1Loc c) = m (a1Loc c) ∧ r.2.mem (a2Loc c) = m (a2Loc c)
    ∧ r.2.mem (a3Loc c) = m (a3Loc c) ∧ r.2.mem (a4Loc c) = m (a4Loc c) ∧ r.2.mem (srcLoc c) = m (srcLoc c) ∧ r.2.mem (dstLoc c) = m (dstLoc c)

end Cert.Proof.KIHand

end
-- ==== Proof.KIElem.lean ====
import proofs.«206864_g62740882260319_cont_9to1_m_949_20_alg».proof.Proof.KIHand
import proofs.«206864_g62740882260319_cont_9to1_m_949_20_alg».proof.Proof.Gen.KernelIdeal.Launch
import Idealize.ShloMosaic.Lib.SparseCore.Launch
import Idealize.ShloMosaic.Lib.Pipeline.Kit
import Idealize.ShloMosaic.Lib.Pipeline.Regions
import Idealize.ShloMosaic.Lib.Tactic

noncomputable section

namespace Cert.Proof.KIElem

open Cert.KernelIdeal Cert.KernelIdeal.Gen
open Cert.Proof.KernelIdealCommon Cert.Proof.KIPay Cert.Proof.KIHand

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => 𝕄T F

variable (m : (ℓ : Loc nD τ sig) → Buf (Elt F) ℓ)

variable [FloatOps F]

variable (cv : (d : Dev nD) → Buf (Elt F) (cntLoc d)) (ov : (d : Dev nD) → Buf (Elt F) (outLoc d))

abbrev aP : (p : Fin 1) → (pcfgs (F := F) p).Adm := fun p => (cfgs p).toPCfg_adm
abbrev CF : Fin 1 → Pipeline.Cfg sig Λ₀ := Pipeline.pin (pcfgs (F := F)) aP

theorem cf_inj : Function.Injective (Pipeline.cellOf (nD := nD) (τ := τ) (CF (F := F))) := cellOf_inj

def G (d : Dev nD) : sProp 𝕄 :=
  iprop(Pipeline.cellsGhost (CF (F := F)) EP 0 d ∗ Pipeline.toksInit (CF (F := F)) EP 0 d)

def u₀ : UU :=
  (initOf (K (F := F)).hsCells (K (F := F)).hsToks,
    (initOf (Pipeline.cells (nD := nD) (τ := τ) (CF (F := F)) cf_inj) (Pipeline.launchToks (nD := nD) (τ := τ) (CF (F := F)) cf_inj), 1))

theorem ownU_split (a : UH) (b : UP) : (ownU ((a, (b, 1)) : UU) : sProp 𝕄) ⊢ iprop(BI.own (EH a) ∗ BI.own (EP b)) := by
  iintro Hu
  ihave H := (ownU_pair _ _) $$ Hu
  icases H with ⟨HH, HR⟩
  ihave H' := (own_pair_emb embR b (1 : Counters)) $$ HR
  icases H' with ⟨HP, -⟩
  isplitl [HH]; · iexact HH
  iexact HP

omit [FloatOps F] in
theorem bigSep_emp' {I : Type} (s : Finset I) : (bigSep s fun _ => iprop(emp)) = (iprop(emp) : sProp 𝕄) := bigSep_emp_const s

theorem ghost_deal :
    iprop((bigSep Finset.univ fun c : Dev nD => bigSep Finset.univ fun p : Fin 1 => Pipeline.cellsGhost (CF (F := F)) EP p c)
        ∗ (bigSep Finset.univ fun c : Dev nD => bigSep Finset.univ fun p : Fin 1 => (Pipeline.toksInit (CF (F := F)) EP p c : sProp 𝕄)))
      ⊢ bigSep Finset.univ fun d : Dev nD => G (F := F) d := by
  unfold G
  rw [bigSep_sep', bigSep_congr fun c _ => bigSep_univ_of_subsingleton (0 : Fin 1),
    bigSep_congr fun c _ => bigSep_univ_of_subsingleton (0 : Fin 1)]

theorem Px_emp :
    (bigSep Finset.univ fun thr : Thread nD τ => bigSep Finset.univ fun q : Fin 1 => (P m cv).x q thr) = (iprop(emp) : sProp 𝕄) := by
  simp only [P_x]
  rw [bigSep_congr fun _ _ => bigSep_emp' _, bigSep_emp']

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m cv).x q thr) := by
  unfold u₀
  rw [Px_emp]
  iintro Hu
  ihave H := (ownU_split _ _) $$ Hu
  icases H with ⟨HH, HP⟩
  imod (Pipeline.fund_ghost (CF (F := F)) EP cf_inj) $$ HP with ⟨Hg, Ht⟩
  imodintro
  isplitl [HH]; · iexact HH
  isplitl [Hg Ht]
  · iapply ghost_deal
    isplitl [Hg]; · iexact Hg
    iexact Ht
  iempintro

omit [FloatOps F] in
theorem agree_keep {ℓ : Loc nD τ sig} {f : Buf (Elt F) ℓ} (s' : Phys nD τ sig (Elt F)) :
    iprop(SI s' ∗ ℓ ↦{fullShare} f) ⊢ (iprop(⌜s'.mem.mem ℓ = f⌝ ∗ SI s') : sProp 𝕄) := by
  iintro ⟨HSI, Hp⟩
  ihave H := (persistent_entails_right (SI_pointsTo_agree (st := s') (ℓ := ℓ) (I := Finset.univ) (q := fullShare) (f := f))) $$ [HSI Hp]
  · isplitl [HSI] <;> iassumption
  icases H with ⟨%h, HSI, -⟩
  isplitr
  · ipureintro; exact funext fun i => h i (Finset.mem_univ i)
  iexact HSI

theorem hfin (d : Dev nD) (s' : Phys nD τ sig (Elt F)) : iprop(FIN m ov d ∗ SI s') ⊢ (⌜fq m ov d s'⌝ : sProp 𝕄) := by
  unfold FIN fq
  iintro ⟨⟨Ho, H0, H1, H2, H3, H4, Hs, Hd⟩, HSI⟩
  ihave H := (agree_keep s') $$ [HSI Ho]
  · isplitl [HSI] <;> iassumption
  icases H with ⟨%ho, HSI⟩
  ihave H := (agree_keep s') $$ [HSI H0]
  · isplitl [HSI] <;> iassumption
  icases H with ⟨%h0, HSI⟩
  ihave H := (agree_keep s') $$ [HSI H1]
  · isplitl [HSI] <;> iassumption
  icases H with ⟨%h1, HSI⟩
  ihave H := (agree_keep s') $$ [HSI H2]
  · isplitl [HSI] <;> iassumption
  icases H with ⟨%h2, HSI⟩
  ihave H := (agree_keep s') $$ [HSI H3]
  · isplitl [HSI] <;> iassumption
  icases H with ⟨%h3, HSI⟩
  ihave H := (agree_keep s') $$ [HSI H4]
  · isplitl [HSI] <;> iassumption
  icases H with ⟨%h4, HSI⟩
  ihave H := (agree_keep s') $$ [HSI Hs]
  · isplitl [HSI] <;> iassumption
  icases H with ⟨%hs, HSI⟩
  ihave H := (agree_keep s') $$ [HSI Hd]
  · isplitl [HSI] <;> iassumption
  icases H with ⟨%hd, -⟩
  ipureintro
  exact ⟨ho, h0, h1, h2, h3, h4, hs, hd⟩

end Cert.Proof.KIElem

end
-- ==== Proof.KIHost.lean ====
import proofs.«206864_g62740882260319_cont_9to1_m_949_20_alg».proof.Proof.KIHand
import Idealize.ShloMosaic.Lib.SparseCore.Launch
import Idealize.ShloMosaic.Lib.StableHlo.Run
import Idealize.ShloMosaic.Lib.Tactic

noncomputable section

namespace Cert.Proof.KIHost

open Cert.KernelIdeal Cert.KernelIdeal.Gen
open Cert.Proof.KernelIdealCommon Cert.Proof.KIPay Cert.Proof.KIHand

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => 𝕄T F

variable (m : (ℓ : Loc nD τ sig) → Buf (Elt F) ℓ)

variable [FloatOps F]

omit [FloatOps F] in
theorem unscopedBufs_eq (d : Dev nD) (W : (b : Ref sig .tc) → Buf (Elt F) ((d.tc : Thread nD τ).loc b)) :
    (unscopedBufs d W : sProp 𝕄) = iprop((a0Loc d ↦{fullShare} W main_arg0) ∗ (a1Loc d ↦{fullShare} W main_arg1)
      ∗ (a2Loc d ↦{fullShare} W main_arg2) ∗ (a3Loc d ↦{fullShare} W main_arg3) ∗ (a4Loc d ↦{fullShare} W main_arg4)
      ∗ (srcLoc d ↦{fullShare} W main_arg5) ∗ (dstLoc d ↦{fullShare} W main_arg6) ∗ (cntLoc d ↦{fullShare} W main_v0)
      ∗ (v1Loc d ↦{fullShare} W main_v1) ∗ (v2Loc d ↦{fullShare} W main_v2) ∗ (outLoc d ↦{fullShare} W main_v3)) := by
  unfold unscopedBufs
  rw [show (Finset.univ.filter fun b : Ref sig .tc => ¬ b.isScoped)
      = {main_arg0, main_arg1, main_arg2, main_arg3, main_arg4, main_arg5, main_arg6, main_v0, main_v1, main_v2, main_v3} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

def v1Val (d : Dev nD) : Buf (Elt F) (v1Loc d) := fun i => shapeCast S1x32 (m (a2Loc d)) shapeCasts_S32_S1x32 i
def v2Val (d : Dev nD) : Buf (Elt F) (v2Loc d) := fun i => shapeCast S1x32 (m (a4Loc d)) shapeCasts_S32_S1x32 i

abbrev a2' : DevRef τ sig := Proc.devRef .tc (main_arg2 : Ref sig .tc)
abbrev a4' : DevRef τ sig := Proc.devRef .tc (main_arg4 : Ref sig .tc)
abbrev v1' : DevRef τ sig := Proc.devRef .tc (main_v1 : Ref sig .tc)
abbrev v2' : DevRef τ sig := Proc.devRef .tc (main_v2 : Ref sig .tc)

abbrev opR1 : HloOp τ sig (Elt F) := StableHlo.reshape main_arg2 main_v1 rfl shapeCasts_S32_S1x32
abbrev opR2 : HloOp τ sig (Elt F) := StableHlo.reshape main_arg4 main_v2 rfl shapeCasts_S32_S1x32

def V0 (d : Dev nD) : Valuation τ sig (Elt F) := fun b => m (d, b)

abbrev SR1 : Finset (DevRef τ sig) := {a2', v1'}
abbrev SR2 : Finset (DevRef τ sig) := {a4', v2'}

theorem held_SR1 (d : Dev nD) (W : Valuation τ sig (Elt F)) :
    (held (T d) SR1 W : sProp 𝕄) = iprop((a2Loc d ↦{fullShare} W a2') ∗ (v1Loc d ↦{fullShare} W v1')) := by
  unfold held SR1
  rw [SparseCore.bigSep_insert' (by decide), bigSep_singleton]

theorem held_SR2 (d : Dev nD) (W : Valuation τ sig (Elt F)) :
    (held (T d) SR2 W : sProp 𝕄) = iprop((a4Loc d ↦{fullShare} W a4') ∗ (v2Loc d ↦{fullShare} W v2')) := by
  unfold held SR2
  rw [SparseCore.bigSep_insert' (by decide), bigSep_singleton]

theorem res1_a2 (d : Dev nD) : (opR1 (F := F)).result (V0 m d) a2' = m (a2Loc d) :=
  (opR1 (F := F)).result_of_not_mem (V0 m d) (b := a2') (show a2' ∉ ({v1'} : Finset (DevRef τ sig)) by decide)
theorem res2_a4 (d : Dev nD) : (opR2 (F := F)).result (V0 m d) a4' = m (a4Loc d) :=
  (opR2 (F := F)).result_of_not_mem (V0 m d) (b := a4') (show a4' ∉ ({v2'} : Finset (DevRef τ sig)) by decide)
theorem res1_v1 (d : Dev nD) : (opR1 (F := F)).result (V0 m d) v1' = v1Val m d :=
  (StableHlo.reshape_result main_arg2 main_v1 rfl shapeCasts_S32_S1x32 ⟨by decide, rfl⟩ ⟨by decide, rfl⟩ (V0 m d)).trans rfl
theorem res2_v2 (d : Dev nD) : (opR2 (F := F)).result (V0 m d) v2' = v2Val m d :=
  (StableHlo.reshape_result main_arg4 main_v2 rfl shapeCasts_S32_S1x32 ⟨by decide, rfl⟩ ⟨by decide, rfl⟩ (V0 m d)).trans rfl

theorem wp_reshape1 {Λ : Labels} {defs : Defs nD τ sig (Elt F) Λ} (𝒱 : Variants) (bd : Option 𝒱.V) (E : Set ℕ) {α : Type} (d : Dev nD)
    {k : ((b : (opR1 (F := F)).writes) → b.1.ty.Contents (Elt F)) → Prog (TpuEff nD τ sig (Elt F) Λ (SparseCore.T d).2) α} {Q : α → sProp 𝕄} :
    iprop(boundary (T d) ∗ (a2Loc d ↦{fullShare} m (a2Loc d)) ∗ (v1Loc d ↦{fullShare} m (v1Loc d)))
      ⊢ iprop(((boundary (T d) ∗ (a2Loc d ↦{fullShare} m (a2Loc d)) ∗ (v1Loc d ↦{fullShare} v1Val m d))
          -∗ wp frame (wpE defs 𝒱 (T d) bd) E (k ((opR1 (F := F)).fn fun b => V0 m d b.1)) Q)
        -∗ wp frame (wpE defs 𝒱 (T d) bd) E (hlo rfl opR1 k) Q) := by
  have h := wp_hlo_within (defs := defs) 𝒱 (T d) bd E (op := opR1 (F := F)) (S := SR1) (k := k) (Q := Q)
    (hp := rfl) (Finset.Subset.refl _) (V := V0 m d)
  rw [held_SR1, held_SR1, res1_a2, res1_v1] at h
  exact h

theorem wp_reshape2 {Λ : Labels} {defs : Defs nD τ sig (Elt F) Λ} (𝒱 : Variants) (bd : Option 𝒱.V) (E : Set ℕ) {α : Type} (d : Dev nD)
    {k : ((b : (opR2 (F := F)).writes) → b.1.ty.Contents (Elt F)) → Prog (TpuEff nD τ sig (Elt F) Λ (SparseCore.T d).2) α} {Q : α → sProp 𝕄} :
    iprop(boundary (T d) ∗ (a4Loc d ↦{fullShare} m (a4Loc d)) ∗ (v2Loc d ↦{fullShare} m (v2Loc d)))
      ⊢ iprop(((boundary (T d) ∗ (a4Loc d ↦{fullShare} m (a4Loc d)) ∗ (v2Loc d ↦{fullShare} v2Val m d))
          -∗ wp frame (wpE defs 𝒱 (T d) bd) E (k ((opR2 (F := F)).fn fun b => V0 m d b.1)) Q)
        -∗ wp frame (wpE defs 𝒱 (T d) bd) E (hlo rfl opR2 k) Q) := by
  have h := wp_hlo_within (defs := defs) 𝒱 (T d) bd E (op := opR2 (F := F)) (S := SR2) (k := k) (Q := Q)
    (hp := rfl) (Finset.Subset.refl _) (V := V0 m d)
  rw [held_SR2, held_SR2, res2_a4, res2_v2] at h
  exact h

end Cert.Proof.KIHost

end
-- ==== Proof.KISplit.lean ====
import proofs.«206864_g62740882260319_cont_9to1_m_949_20_alg».proof.Proof.KIPay

noncomputable section

namespace Cert.Proof.KISplit

open Cert.KernelIdeal Cert.KernelIdeal.Gen
open Cert.Proof.KernelIdealCommon Cert.Proof.KIPay

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop pointsTo_toks_split pointsTo_toks_join)

variable {F : FTy → Type}

local notation "𝕄" => 𝕄T F

theorem rowsSet_eq (L : grid0.Coords) : rowsSet L = (rowsR L).set := by
  show ((View.whole (main_v0_scv : Ref sig .scVector)).slice (rowsR L)).set = _
  rw [View.set_slice]; exact Finset.map_refl

theorem mem_rowsSet (L : grid0.Coords) (i : S128x128.Idx) :
    i ∈ rowsSet L ↔ 8 * (L 1).val + 4 * (L 0).val ≤ (i 0).val ∧ (i 0).val < 8 * (L 1).val + 4 * (L 0).val + 4 := by
  rw [rowsSet_eq, Rect.mem_set_unit, k0_off1_eq, Fin.forall_fin_two]
  have h1 : (i 1).val < 128 := (i 1).isLt
  constructor
  · rintro ⟨⟨h0, h0'⟩, -⟩
    exact ⟨h0, h0'⟩
  · rintro ⟨h0, h0'⟩
    exact ⟨⟨h0, h0'⟩, Nat.zero_le _, by simpa using h1⟩

theorem rows_disjoint {L L' : grid0.Coords} (h : (L 0).val ≠ (L' 0).val ∨ (L 1).val ≠ (L' 1).val) :
    Disjoint (rowsSet L) (rowsSet L') := by
  rw [Finset.disjoint_left]
  intro i hi hi'
  rw [mem_rowsSet] at hi hi'
  have h0 : (L 0).val < 2 := (L 0).isLt
  have h0' : (L' 0).val < 2 := (L' 0).isLt
  omega

theorem tiles_disjoint (c : Fin 2) : ∀ s ∈ (Finset.univ : Finset (Fin 16)), ∀ s' ∈ (Finset.univ : Finset (Fin 16)), s ≠ s' →
    Disjoint (rowsSet (coordsV c s)) (rowsSet (coordsV c s')) :=
  fun s _ s' _ h => rows_disjoint (Or.inr (by
    show s.val ≠ s'.val
    exact fun e => h (Fin.ext e)))

theorem mem_coreRows (c : Fin 2) (i : S128x128.Idx) : i ∈ coreRows c ↔ (i 0).val % 8 / 4 = c.val := by
  unfold coreRows
  rw [Finset.mem_biUnion]
  have hr : (i 0).val < 128 := (i 0).isLt
  have hc : c.val < 2 := c.isLt
  constructor
  · rintro ⟨s, -, hs⟩
    rw [mem_rowsSet] at hs
    have e0 : (coordsV c s 0).val = c.val := rfl
    have e1 : (coordsV c s 1).val = s.val := rfl
    rw [e0, e1] at hs
    omega
  · intro h
    refine ⟨⟨(i 0).val / 8, by omega⟩, Finset.mem_univ _, ?_⟩
    rw [mem_rowsSet]
    show 8 * ((i 0).val / 8) + 4 * c.val ≤ (i 0).val ∧ (i 0).val < 8 * ((i 0).val / 8) + 4 * c.val + 4
    omega

theorem cores_disjoint : ∀ c ∈ (Finset.univ : Finset (Fin 2)), ∀ c' ∈ (Finset.univ : Finset (Fin 2)), c ≠ c' →
    Disjoint (coreRows c) (coreRows c') := by
  intro c _ c' _ h
  rw [Finset.disjoint_left]
  intro i hi hi'
  rw [mem_coreRows] at hi hi'
  exact h (Fin.ext (hi.symm.trans hi'))

theorem cores_cover : (Finset.univ : Finset (Fin 2)).biUnion coreRows = Finset.univ := by
  ext i
  simp only [Finset.mem_biUnion, Finset.mem_univ, true_and, iff_true]
  have hr : (i 0).val < 128 := (i 0).isLt
  exact ⟨⟨(i 0).val % 8 / 4, by omega⟩, (mem_coreRows _ i).mpr rfl⟩

variable (m : (ℓ : Loc nD τ sig) → Buf (Elt F) ℓ) (d : Dev nD)

theorem cnt_core_rows (c : Fin 2) (f : Buf (Elt F) (cntLoc d)) :
    (cntLoc d ↦[coreRows c]{fullShare} f : sProp 𝕄)
      = bigSep Finset.univ fun s : Fin 16 => cntLoc d ↦[rowsSet (coordsV c s)]{fullShare} f := by
  unfold coreRows
  exact pointsTo_biUnion Finset.univ (ℓ := cntLoc d) (fun s : Fin 16 => rowsSet (coordsV c s)) (tiles_disjoint c)

theorem cnt_cores (f : Buf (Elt F) (cntLoc d)) :
    (cntLoc d ↦{fullShare} f : sProp 𝕄) = bigSep Finset.univ fun c : Fin 2 => cntLoc d ↦[coreRows c]{fullShare} f := by
  rw [← pointsTo_biUnion Finset.univ (ℓ := cntLoc d) coreRows cores_disjoint, cores_cover]

theorem tiles_eq (c : Fin 2) (g : Buf (Elt F) (cntLoc d)) :
    (bigSep Finset.univ fun s : Fin 16 => tileT m d c s g)
      = iprop((bigSep Finset.univ fun s : Fin 16 => srcLoc d ↦{qT c s} m (srcLoc d))
          ∗ (bigSep Finset.univ fun s : Fin 16 => dstLoc d ↦{qT c s} m (dstLoc d))
          ∗ (bigSep Finset.univ fun s : Fin 16 => cntLoc d ↦[rowsSet (coordsV c s)]{fullShare} g)) := by
  simp only [tileT_eq]
  rw [bigSep_sep', bigSep_sep']

theorem cores_eq (g : Buf (Elt F) (cntLoc d)) :
    (bigSep Finset.univ fun c : Fin 2 => coreT m d c g)
      = iprop((bigSep Finset.univ fun c : Fin 2 => srcLoc d ↦{qC c} m (srcLoc d))
          ∗ (bigSep Finset.univ fun c : Fin 2 => dstLoc d ↦{qC c} m (dstLoc d))
          ∗ (bigSep Finset.univ fun c : Fin 2 => cntLoc d ↦[coreRows c]{fullShare} g)) := by
  simp only [coreT_eq]
  rw [bigSep_sep', bigSep_sep']

theorem split_core (c : Fin 2) (f₀ f : Buf (Elt F) (cntLoc d)) :
    coreT m d c f₀ ⊢ |={Set.univ}=> iprop((bigSep Finset.univ fun s : Fin 16 => tileT m d c s f₀)
      ∗ ((bigSep Finset.univ fun s : Fin 16 => tileT m d c s f) -∗ coreT m d c f)) := by
  rw [tiles_eq, tiles_eq, coreT_eq, coreT_eq, cnt_core_rows, cnt_core_rows]
  iintro ⟨Hs, Hd, Hc⟩
  ihave Hs' := (pointsTo_toks_split (qC c) 16) $$ Hs
  ihave Hd' := (pointsTo_toks_split (qC c) 16) $$ Hd
  icases Hs' with ⟨Hsr, Hst⟩
  icases Hd' with ⟨Hdr, Hdt⟩
  imodintro
  isplitl [Hst Hdt Hc]
  · isplitl [Hst]; · iexact Hst
    isplitl [Hdt]; · iexact Hdt
    iexact Hc
  iintro ⟨Hst, Hdt, Hc⟩
  isplitl [Hsr Hst]
  · iapply (pointsTo_toks_join (qC c) 16)
    isplitl [Hsr]; · iexact Hsr
    iexact Hst
  isplitl [Hdr Hdt]
  · iapply (pointsTo_toks_join (qC c) 16)
    isplitl [Hdr]; · iexact Hdr
    iexact Hdt
  iexact Hc

theorem main_split (f₀ : Buf (Elt F) (cntLoc d)) :
    iprop((srcLoc d ↦{fullShare} m (srcLoc d)) ∗ (dstLoc d ↦{fullShare} m (dstLoc d)) ∗ (cntLoc d ↦{fullShare} f₀))
      ⊢ iprop((bigSep Finset.univ fun c : Fin 2 => coreT m d c f₀) ∗ mainRest m d) := by
  rw [cores_eq, cnt_cores]
  unfold mainRest
  iintro ⟨Hs, Hd, Hc⟩
  ihave Hs' := (pointsTo_toks_split fullShare 2) $$ Hs
  ihave Hd' := (pointsTo_toks_split fullShare 2) $$ Hd
  icases Hs' with ⟨Hsr, Hst⟩
  icases Hd' with ⟨Hdr, Hdt⟩
  isplitl [Hst Hdt Hc]
  · isplitl [Hst]; · iexact Hst
    isplitl [Hdt]; · iexact Hdt
    iexact Hc
  isplitl [Hsr]; · iexact Hsr
  iexact Hdr

theorem main_join (f : Buf (Elt F) (cntLoc d)) :
    iprop((bigSep Finset.univ fun c : Fin 2 => coreT m d c f) ∗ mainRest m d)
      ⊢ iprop((srcLoc d ↦{fullShare} m (srcLoc d)) ∗ (dstLoc d ↦{fullShare} m (dstLoc d)) ∗ (cntLoc d ↦{fullShare} f)) := by
  rw [cores_eq, cnt_cores]
  unfold mainRest
  iintro ⟨⟨Hst, Hdt, Hc⟩, Hsr, Hdr⟩
  isplitl [Hsr Hst]
  · iapply (pointsTo_toks_join fullShare 2)
    isplitl [Hsr]; · iexact Hsr
    iexact Hst
  isplitl [Hdr Hdt]
  · iapply (pointsTo_toks_join fullShare 2)
    isplitl [Hdr]; · iexact Hdr
    iexact Hdt
  iexact Hc

end Cert.Proof.KISplit

end
-- ==== Proof.KILaunch.lean ====
import proofs.«206864_g62740882260319_cont_9to1_m_949_20_alg».proof.Proof.KIHand
import proofs.«206864_g62740882260319_cont_9to1_m_949_20_alg».proof.Proof.KIElem
import proofs.«206864_g62740882260319_cont_9to1_m_949_20_alg».proof.Proof.KIHost
import proofs.«206864_g62740882260319_cont_9to1_m_949_20_alg».proof.Proof.KISplit
import proofs.«206864_g62740882260319_cont_9to1_m_949_20_alg».proof.Proof.Gen.KernelIdeal.Launch
import Idealize.ShloMosaic.Lib.SparseCore.Launch
import Idealize.ShloMosaic.Lib.StableHlo.Run
import Idealize.ShloMosaic.Lib.Pipeline.Kit
import Idealize.ShloMosaic.Lib.Pipeline.Regions
import Idealize.ShloMosaic.Lib.Tactic

noncomputable section

namespace Cert.Proof.KILaunch

open Cert.KernelIdeal Cert.KernelIdeal.Gen
open Cert.Proof.KernelIdealCommon Cert.Proof.KIPay Cert.Proof.KIHand Cert.Proof.KIElem Cert.Proof.KIHost Cert.Proof.KISplit

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => 𝕄T F

variable (m : (ℓ : Loc nD τ sig) → Buf (Elt F) ℓ) (ρ : Dev nD → PrngReg)

variable [FloatOps F]

variable (cv : (d : Dev nD) → Buf (Elt F) (cntLoc d)) (ov : (d : Dev nD) → Buf (Elt F) (outLoc d))

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

omit [FloatOps F] in
theorem vecSplit : (K (F := F)).VecSplit' (P m cv) 0 := by
  intro d c
  rw [P_st, P_dn]
  simp only [P_go, P_td]
  rw [bigSep_tasks (F := F) (fun i => tileT m d (Fin.cast nCore_zero c) i (m (cntLoc d))),
    bigSep_tasks (F := F) (fun i => tileT m d (Fin.cast nCore_zero c) i (cv d))]
  exact split_core m d _ _ _

omit [FloatOps F] in
theorem st0_eq (d : Dev nD) :
    (bigSep Finset.univ fun c : Fin ((K (F := F)).nCore 0) => (P m cv).st 0 d c) = bigSep Finset.univ fun c : Fin 2 => coreT m d c (m (cntLoc d)) := by
  simp only [P_st]; exact bigSep_cores (F := F) (fun c => coreT m d c (m (cntLoc d)))
omit [FloatOps F] in
theorem dn0_eq (d : Dev nD) :
    (bigSep Finset.univ fun c : Fin ((K (F := F)).nCore 0) => (P m cv).dn 0 d c) = bigSep Finset.univ fun c : Fin 2 => coreT m d c (cv d) := by
  simp only [P_dn]; exact bigSep_cores (F := F) (fun c => coreT m d c (cv d))

def arrs (d : Dev nD) (y : Buf (Elt F) (outLoc d)) : sProp 𝕄 :=
  iprop((cntLoc d ↦{fullShare} cv d) ∗ (a1Loc d ↦{fullShare} m (a1Loc d)) ∗ (v1Loc d ↦{fullShare} v1Val m d) ∗ (a3Loc d ↦{fullShare} m (a3Loc d))
    ∗ (v2Loc d ↦{fullShare} v2Val m d) ∗ (a0Loc d ↦{fullShare} m (a0Loc d)) ∗ (outLoc d ↦{fullShare} y))

def RegionRun : Prop :=
  ∀ (d : Dev nD) (y0 : Buf (Elt F) (outLoc d)) (O : CellTallies nD τ sig (HIx 1)) (Rc : Set (SemLoc sig × HIx 1)), (∀ g, O g none = 0) →
    ∀ (Q : PUnit → sProp 𝕄),
      iprop((iprop(boundary (T d) ∗ arrs m cv d (ov d) ∗ ∃ W : Waits sig (HIx 1), ⌜(↑W : Set (SemLoc sig × HIx 1)) ⊆ Rc ∪ {p | p.2 = none}⌝ ∗ owes (T d) O W)
            -∗ wp frame (wpE ((K (F := F)).defs (D (F := F))) 𝒱 (T d) none) Set.univ (.ret ⟨⟩) Q)
          ∗ boundary (T d) ∗ arrs m cv d y0 ∗ (∃ W : Waits sig (HIx 1), ⌜(↑W : Set (SemLoc sig × HIx 1)) ⊆ Rc⌝ ∗ owes (T d) O W)
          ∗ levAts (K (F := F)).L (K (F := F)).lev ∗ G (F := F) d)
        ⊢ wp frame (wpE ((K (F := F)).defs (D (F := F))) 𝒱 (T d) none) Set.univ
            (.op (.customCall (SparseCore.inner (Pipeline.entry 0)) ()) fun _ => .ret ⟨⟩) Q

theorem hmain (hregion : RegionRun m cv ov) (κ : GSem nD τ sig → ℕ) (d : Dev nD) :
    iprop((K (F := F)).ctx EH (P m cv) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m ov d) := by
  unfold SparseCore.Cfg.tcRes
  rw [unscopedBufs_eq]
  simp only [main, wp_bind, wp_pure]
  iintro ⟨#Hctx, Hst, ⟨Hb, ⟨H0, H1, H2, H3, H4, H5, H6, Hv0, Hv1, Hv2, Hv3⟩, -, -⟩, HG⟩
  ihave Hs := (main_split m d (m (cntLoc d))) $$ [H5 H6 Hv0]
  · isplitl [H5]; · iexact H5
    isplitl [H6]; · iexact H6
    iexact Hv0
  icases Hs with ⟨Hcores, Hrest⟩
  iapply ((K (F := F)).wp_run (D (F := F)) 𝒱 (EH := EH) (P := P m cv) κ d 0) $$ [Hst Hcores Hrest Hb H0 H1 H2 H3 H4 Hv1 Hv2 Hv3 HG]
  isplitr; · iexact Hctx
  isplitl [Hst]; · iexact Hst
  isplitl [Hcores]
  · rw [st0_eq]; iexact Hcores
  iintro ⟨Hst, Hdn⟩
  ihave Hdn' := (Entails.of_eq (dn0_eq m cv d)) $$ Hdn
  ihave Hj := (main_join m d (cv d)) $$ [Hdn' Hrest]
  · isplitl [Hdn']; · iexact Hdn'
    iexact Hrest
  icases Hj with ⟨H5, H6, Hv0⟩
  iapply (wp_reshape1 m 𝒱 none Set.univ d) $$ [Hb H2 Hv1]
  · isplitl [Hb]; · iexact Hb
    isplitl [H2]; · iexact H2
    iexact Hv1
  iintro ⟨Hb, H2, Hv1⟩
  rw [wp_ret]; imodintro
  iapply (wp_reshape2 m 𝒱 none Set.univ d) $$ [Hb H4 Hv2]
  · isplitl [Hb]; · iexact Hb
    isplitl [H4]; · iexact H4
    iexact Hv2
  iintro ⟨Hb, H4, Hv2⟩
  rw [wp_ret]; imodintro
  have hO1 : ∀ g, (K (F := F)).Otc d 1 g none = 0 := fun g => by rw [(K (F := F)).Otc_end d (n := 1) le_rfl]; rfl
  unfold SparseCore.Cfg.tcSt
  icases Hst with ⟨⟨%W, %hW, HO⟩, Hst'⟩
  iapply (hregion d (m (outLoc d)) ((K (F := F)).Otc d 1) {p | (K (F := F)).lev (SparseCore.T d, p.1) p.2 ≤ 8 * 1} hO1 _) $$ [Hb Hv0 H1 Hv1 H3 Hv2 H0 Hv3 HO HG Hst' H2 H4 H5 H6]
  isplitl [Hst' H2 H4 H5 H6]
  · iintro ⟨Hb, Harr, %W', %hW', HO⟩
    unfold arrs
    icases Harr with ⟨Hv0, H1, Hv1, H3, Hv2, H0, Hv3⟩
    rw [wp_ret]; imodintro; imodintro
    isplitl [HO Hst']
    · isplitl [HO]
      · iexists W'; isplitr
        · ipureintro
          intro p hp
          rcases hW' (Finset.mem_coe.mpr hp) with h | h
          · exact h
          · show (K (F := F)).lev (SparseCore.T d, p.1) p.2 ≤ 8 * 1
            rw [show p.2 = none from h]; exact Nat.zero_le _
        · iexact HO
      · iexact Hst'
    · unfold FIN
      isplitl [Hv3]; · iexact Hv3
      isplitl [H0]; · iexact H0
      isplitl [H1]; · iexact H1
      isplitl [H2]; · iexact H2
      isplitl [H3]; · iexact H3
      isplitl [H4]; · iexact H4
      isplitl [H5]; · iexact H5
      iexact H6
  isplitl [Hb]; · iexact Hb
  isplitl [Hv0 H1 Hv1 H3 Hv2 H0 Hv3]
  · unfold arrs
    isplitl [Hv0]; · iexact Hv0
    isplitl [H1]; · iexact H1
    isplitl [Hv1]; · iexact Hv1
    isplitl [H3]; · iexact H3
    isplitl [Hv2]; · iexact Hv2
    isplitl [H0]; · iexact H0
    iexact Hv3
  isplitl [HO]
  · iexists W; isplitr
    · ipureintro; exact fun p hp => hW p (Finset.mem_coe.mp hp)
    · iexact HO
  isplitr
  · iapply (SparseCore.Cfg.ctx_levAts κ); iexact Hctx
  iexact HG

end Cert.Proof.KILaunch

end
-- ==== Proof.KITop.lean ====
import proofs.«206864_g62740882260319_cont_9to1_m_949_20_alg».proof.Proof.KIHand
import proofs.«206864_g62740882260319_cont_9to1_m_949_20_alg».proof.Proof.KISplit
import proofs.«206864_g62740882260319_cont_9to1_m_949_20_alg».proof.Proof.KIElem
import proofs.«206864_g62740882260319_cont_9to1_m_949_20_alg».proof.Proof.Gen.KernelIdeal.Launch
import proofs.«206864_g62740882260319_cont_9to1_m_949_20_alg».proof.Proof.KIHist
import proofs.«206864_g62740882260319_cont_9to1_m_949_20_alg».proof.Proof.KIOut
import proofs.«206864_g62740882260319_cont_9to1_m_949_20_alg».proof.Proof.KIHost
import Idealize.ShloMosaic.Lib.SparseCore.Launch
import Idealize.ShloMosaic.Lib.StableHlo.Run
import Idealize.ShloMosaic.Lib.Pipeline.Kit
import Idealize.ShloMosaic.Lib.Pipeline.Regions
import Idealize.ShloMosaic.Lib.Tactic

noncomputable section

namespace Cert.Proof.KITop

open Cert.KernelIdeal Cert.KernelIdeal.Gen
open Cert.Proof.KernelIdealCommon Cert.Proof.KIPay Cert.Proof.KIHand Cert.Proof.KISplit Cert.Proof.KIElem

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => 𝕄T F

variable (m : (ℓ : Loc nD τ sig) → Buf (Elt F) ℓ) (ρ : Dev nD → PrngReg)

variable [FloatOps F]

variable (cv : (d : Dev nD) → Buf (Elt F) (cntLoc d)) (ov : (d : Dev nD) → Buf (Elt F) (outLoc d))

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

omit [FloatOps F] in
theorem vecSplit : (K (F := F)).VecSplit' (P m cv) 0 := by
  intro d c
  rw [P_st, P_dn]
  simp only [P_go, P_td]
  rw [bigSep_tasks (F := F) (fun i => tileT m d (Fin.cast nCore_zero c) i (m (cntLoc d))),
    bigSep_tasks (F := F) (fun i => tileT m d (Fin.cast nCore_zero c) i (cv d))]
  exact split_core m d _ _ _

def HTile : Prop := (K (F := F)).TileObl (D (F := F)) 𝒱 (P m cv) v₀ 0

def HMain : Prop :=
  ∀ (κ : GSem nD τ sig → ℕ) (d : Dev nD),
    iprop((K (F := F)).ctx EH (P m cv) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m ov d)

theorem run_launch [∀ e, Nonempty (Elt F e)] (htile : HTile m cv) (hmain : HMain m ρ cv ov) :
    θ_run (Cert.KernelIdeal.defs (F := F)) (Cert.KernelIdeal.threads (F := F)) ⟨m, fun _ => 0, ρ⟩ (QC m ov) :=
  SparseCore.Cfg.θ_run_sc (K := K (F := F)) (D := D (F := F)) (𝒱 := 𝒱) (EH := EH) (P := P m cv) facts v₀
    (fun q hq => match q with | 0 => nomatch hq)
    (fun q _ => match q with | 0 => htile)
    (fun q _ => match q with | 0 => SparseCore.Cfg.VecSplit.of_plain (vecSplit m cv))
    m ρ main (G (F := F)) (FIN m ov) (u₀ (F := F)) (sep_elim_left.trans (hu₀ m cv)) hmain (fq m ov) (hfin m ov) (QC m ov) (fun _ h => h)

def cvF (d : Dev nD) : Buf (Elt F) (cntLoc d) := KIHist.cntVal F (m (srcLoc d)) (m (dstLoc d))
def ovF (d : Dev nD) : Buf (Elt F) (outLoc d) :=
  KIOut.outVal (cvF m d) (m (a1Loc d)) (KIHost.v1Val m d) (m (a3Loc d)) (KIHost.v2Val m d) (m (a0Loc d))

theorem run_main_of [∀ e, Nonempty (Elt F e)] (htile : HTile m (cvF m)) (hmain : HMain m ρ (cvF m) (ovF m)) :
    θ_run (Cert.KernelIdeal.defs (F := F)) (Cert.KernelIdeal.threads (F := F)) ⟨m, fun _ => 0, ρ⟩
      (QC m fun d => KIOut.outVal (KIHist.cntVal F (m (srcLoc d)) (m (dstLoc d))) (m (a1Loc d)) (KIHost.v1Val m d) (m (a3Loc d))
        (KIHost.v2Val m d) (m (a0Loc d))) :=
  run_launch m ρ (cvF m) (ovF m) htile hmain

end Cert.Proof.KITop

end
-- ==== Proof.KIRegionData.lean ====
import proofs.«206864_g62740882260319_cont_9to1_m_949_20_alg».proof.Proof.KernelIdealCommon
import proofs.«206864_g62740882260319_cont_9to1_m_949_20_alg».proof.Proof.Gen.KernelIdeal.Skeleton
import proofs.«206864_g62740882260319_cont_9to1_m_949_20_alg».proof.Proof.Gen.KernelIdeal.Launch
import proofs.«206864_g62740882260319_cont_9to1_m_949_20_alg».proof.Proof.Gen.KernelIdeal.Points
import Idealize.ShloMosaic.Lib.Pipeline.Regions
import Idealize.ShloMosaic.Lib.Tactic

noncomputable section

namespace Cert.Proof.KIRegion

open Cert.KernelIdeal Cert.KernelIdeal.Gen
open Cert.Proof.KernelIdealCommon

open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

abbrev pt (c : Dev nD) (b : Ref sig .tc) (f : Buf (Elt F) ((c : Thread nD τ).loc b)) : sProp 𝕄 :=
  ((c : Thread nD τ).loc b) ↦{fullShare} f

abbrev adm : (p : Fin 1) → (pcfgs (F := F) p).Adm := fun p => (cfgs p).toPCfg_adm

section Data

variable (cnt : Vec F S128x128 .f32) (We : Vec F S32x32 .f32) (be1 : Vec F S1x32 .f32) (Wg : Vec F S32x32 .f32)
  (bg1 : Vec F S1x32 .f32) (x : Vec F S1024x4096 .f32) (y0 : Vec F S131072x32 .f32)
  (O : CellTallies nD τ sig (HIx 1)) (Rc : Set (SemLoc sig × HIx 1))

def arrs (c : Dev nD) (y : Vec F S131072x32 .f32) : sProp 𝕄 :=
  iprop(pt c main_v0 cnt ∗ pt c main_arg1 We ∗ pt c main_v1 be1 ∗ pt c main_arg3 Wg ∗ pt c main_v2 bg1 ∗ pt c main_arg0 x ∗ pt c main_v3 y)

abbrev valA : Vec F S128x128 .f32 := k1_pay4 cnt
abbrev valWc : Vec F S32x32 .f32 := k1_pay5 We Wg
abbrev valBias : Vec F S128x32 .f32 := k1_pay1 (k1_pay6 be1 Wg) (k1_pay7 cnt) bg1

abbrev xStg (t : Fin cfg1.N) : (cfg1.win 5).block.Idx → Elt F (cfg1.win 5).elt :=
  ((cfg1.win 5).blk t).view.read (Elt F) x

abbrev outStg (t : Fin cfg1.N) : (cfg1.win 6).block.Idx → Elt F (cfg1.win 6).elt :=
  k1_pay2 (xStg x t) (valA cnt) (valWc We Wg) (valBias cnt be1 Wg bg1)

def scr (c : Dev nD) : sProp 𝕄 :=
  iprop(pt c cc1_scratch0 (valA cnt) ∗ pt c cc1_scratch1 (valWc We Wg) ∗ pt c cc1_scratch2 (valBias cnt be1 Wg bg1))

def dat (c : Dev nD) : Dat τ (Elt F) (HIx 1) ℕ UU ℕ cfg1 c where
  A w := match w with
    | ⟨0, _⟩ => cnt
    | ⟨1, _⟩ => We
    | ⟨2, _⟩ => be1
    | ⟨3, _⟩ => Wg
    | ⟨4, _⟩ => bg1
    | ⟨5, _⟩ => x
    | ⟨6, _⟩ => y0
  after w t := match w with
    | ⟨0, _⟩ => ((cfg1.win 0).blk t).view.read (Elt F) cnt
    | ⟨1, _⟩ => ((cfg1.win 1).blk t).view.read (Elt F) We
    | ⟨2, _⟩ => ((cfg1.win 2).blk t).view.read (Elt F) be1
    | ⟨3, _⟩ => ((cfg1.win 3).blk t).view.read (Elt F) Wg
    | ⟨4, _⟩ => ((cfg1.win 4).blk t).view.read (Elt F) bg1
    | ⟨5, _⟩ => xStg x t
    | ⟨6, _⟩ => outStg cnt We be1 Wg bg1 x t
  Φ t := if t.val = 0 then Pipeline.scopedRest (Ix := HIx 1) (Name := ℕ) (U := UU) (Lvl := ℕ) (Val := Elt F) spec1 c
    else scr cnt We be1 Wg bg1 c
  q _ := fullShare
  owed _ := O
  recorded _ := Rc

def pdats : (p : Fin 1) → (c : Dev nD) → Dat τ (Elt F) (HIx 1) ℕ UU ℕ (Pipeline.pin (pcfgs (F := F)) adm p) c :=
  fun _ c => dat cnt We be1 Wg bg1 x y0 O Rc c

end Data

end Cert.Proof.KIRegion

end
-- ==== Proof.KIRegionOut.lean ====
import proofs.«206864_g62740882260319_cont_9to1_m_949_20_alg».proof.Proof.KIRegionData
import proofs.«206864_g62740882260319_cont_9to1_m_949_20_alg».proof.Proof.KIOut
import Idealize.ShloMosaic.Lib.Pipeline.Value

noncomputable section

namespace Cert.Proof.KIRegion

open Cert.KernelIdeal Cert.KernelIdeal.Gen
open Cert.Proof.KernelIdealCommon

open Idealize.ShloMosaic Idealize.ShloMosaic.ValueIdx
open Idealize.ShloMosaic.TcCoe
open Idealize.ShloMosaic.SparseCore.Cfg (HIx)
open Idealize.SL Idealize.SL.Sem
open Idealize.ShloMosaic.Rounds
open Idealize.ShloMosaic.Pipeline (Dat Cfg Window)

variable {F : FTy → Type} [FloatOps F]

theorem idx_facts : ∀ t : Fin cfg1.N,
    win1_0.index t (0 : Fin 2) = 0 ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0
    ∧ win1_6.index t (0 : Fin 2) = t.val ∧ win1_6.index t (1 : Fin 2) = 0 :=
  (by decide +kernel : ∀ t : Fin grid1.N, _)

theorem lt8 (t : Fin cfg1.N) : t.val < 8 := Nat.lt_of_lt_of_eq t.isLt N_1

theorem blk_read0 (cnt : Vec F S128x128 .f32) (t : Fin cfg1.N) : ((cfg1.win 0).blk t).view.read (Elt F) cnt = cnt := by
  obtain ⟨e0, e1, -⟩ := idx_facts t
  funext j
  show cnt (((cfg1.win 0).blk t).view.emb j) = cnt j
  refine congrArg cnt (funext fun a => Fin.ext ?_)
  match a with
  | ⟨0, _⟩ => show win1_0.index t (0 : Fin 2) * 128 + 1 * (j 0).val = (j 0).val; omega
  | ⟨1, _⟩ => show win1_0.index t (1 : Fin 2) * 128 + 1 * (j 1).val = (j 1).val; omega

theorem blk_read1 (We : Vec F S32x32 .f32) (t : Fin cfg1.N) : ((cfg1.win 1).blk t).view.read (Elt F) We = We := by
  obtain ⟨-, -, e0, e1, -⟩ := idx_facts t
  funext j
  show We (((cfg1.win 1).blk t).view.emb j) = We j
  refine congrArg We (funext fun a => Fin.ext ?_)
  match a with
  | ⟨0, _⟩ => show win1_1.index t (0 : Fin 2) * 32 + 1 * (j 0).val = (j 0).val; omega
  | ⟨1, _⟩ => show win1_1.index t (1 : Fin 2) * 32 + 1 * (j 1).val = (j 1).val; omega

theorem blk_read2 (be1 : Vec F S1x32 .f32) (t : Fin cfg1.N) : ((cfg1.win 2).blk t).view.read (Elt F) be1 = be1 := by
  obtain ⟨-, -, -, -, e0, e1, -⟩ := idx_facts t
  funext j
  show be1 (((cfg1.win 2).blk t).view.emb j) = be1 j
  refine congrArg be1 (funext fun a => Fin.ext ?_)
  match a with
  | ⟨0, _⟩ => show win1_2.index t (0 : Fin 2) * 1 + 1 * (j 0).val = (j 0).val; omega
  | ⟨1, _⟩ => show win1_2.index t (1 : Fin 2) * 32 + 1 * (j 1).val = (j 1).val; omega

theorem blk_read3 (Wg : Vec F S32x32 .f32) (t : Fin cfg1.N) : ((cfg1.win 3).blk t).view.read (Elt F) Wg = Wg := by
  obtain ⟨-, -, -, -, -, -, e0, e1, -⟩ := idx_facts t
  funext j
  show Wg (((cfg1.win 3).blk t).view.emb j) = Wg j
  refine congrArg Wg (funext fun a => Fin.ext ?_)
  match a with
  | ⟨0, _⟩ => show win1_3.index t (0 : Fin 2) * 32 + 1 * (j 0).val = (j 0).val; omega
  | ⟨1, _⟩ => show win1_3.index t (1 : Fin 2) * 32 + 1 * (j 1).val = (j 1).val; omega

theorem blk_read4 (bg1 : Vec F S1x32 .f32) (t : Fin cfg1.N) : ((cfg1.win 4).blk t).view.read (Elt F) bg1 = bg1 := by
  obtain ⟨-, -, -, -, -, -, -, -, e0, e1, -⟩ := idx_facts t
  funext j
  show bg1 (((cfg1.win 4).blk t).view.emb j) = bg1 j
  refine congrArg bg1 (funext fun a => Fin.ext ?_)
  match a with
  | ⟨0, _⟩ => show win1_4.index t (0 : Fin 2) * 1 + 1 * (j 0).val = (j 0).val; omega
  | ⟨1, _⟩ => show win1_4.index t (1 : Fin 2) * 32 + 1 * (j 1).val = (j 1).val; omega

abbrev pnt (t : Fin cfg1.N) : Fin 8 := ⟨t.val, lt8 t⟩

theorem xStg_eq (x : Vec F S1024x4096 .f32) (t : Fin cfg1.N) : xStg x t = KIOut.xBlk x (pnt t) := by
  obtain ⟨-, -, -, -, -, -, -, -, -, -, e0, e1, -⟩ := idx_facts t
  funext j
  show x (((cfg1.win 5).blk t).view.emb j)
    = x (ix2 (⟨t.val * 128 + (j 0).val, _⟩ : Fin 1024) (⟨(j 1).val, _⟩ : Fin 4096))
  refine congrArg x (funext fun a => Fin.ext ?_)
  match a with
  | ⟨0, _⟩ => show win1_5.index t (0 : Fin 2) * 128 + 1 * (j 0).val = t.val * 128 + (j 0).val; omega
  | ⟨1, _⟩ => show win1_5.index t (1 : Fin 2) * 4096 + 1 * (j 1).val = (j 1).val; omega

section Data

variable (cnt : Vec F S128x128 .f32) (We : Vec F S32x32 .f32) (be1 : Vec F S1x32 .f32) (Wg : Vec F S32x32 .f32)
  (bg1 : Vec F S1x32 .f32) (x : Vec F S1024x4096 .f32) (y0 : Vec F S131072x32 .f32)
  (O : CellTallies nD τ sig (HIx 1)) (Rc : Set (SemLoc sig × HIx 1))

theorem flushed_eq (c : Dev nD) (t : Fin cfg1.N) :
    (dat cnt We be1 Wg bg1 x y0 O Rc c).flushed 6 t
      = ((cfg1.win 6).blk t).view.read (Elt F) (KIOut.outVal cnt We be1 Wg bg1 x) := by
  obtain ⟨-, -, -, -, -, -, -, -, -, -, -, -, e0, e1⟩ := idx_facts t
  show (cfg1.win 6).cut (grid1.coords t) ((dat cnt We be1 Wg bg1 x y0 O Rc c).after 6 t) = _
  dsimp only [dat]
  funext j
  have hj : ((cfg1.win 6).blk t).view.emb j
      = ix2 (⟨(pnt t).val * 16384 + (j 0).val, by have := lt8 t; have h0 : (j 0).val < 16384 := (j 0).isLt; show t.val * 16384 + (j 0).val < 131072; omega⟩ : Fin 131072)
          (⟨(j 1).val, (j 1).isLt⟩ : Fin 32) :=
    funext fun a => Fin.ext (match a with
      | ⟨0, _⟩ => by show win1_6.index t (0 : Fin 2) * 16384 + 1 * (j 0).val = t.val * 16384 + (j 0).val; omega
      | ⟨1, _⟩ => by show win1_6.index t (1 : Fin 2) * 32 + 1 * (j 1).val = (j 1).val; omega)
  refine Eq.trans ?_ (congrArg (KIOut.outVal cnt We be1 Wg bg1 x) hj).symm
  refine Eq.trans ?_ (KIOut.outVal_blk cnt We be1 Wg bg1 x (pnt t) j).symm
  exact congrArg (fun b : Vec F S128x4096 .f32 =>
    KIOut.blkOut b (KIOut.scrA cnt) (KIOut.scrWc We Wg) (KIOut.scrBias cnt be1 Wg bg1) j) (xStg_eq x t)

theorem mem_blk6 (t : Fin cfg1.N) (i : S131072x32.Idx) :
    i ∈ ((cfg1.win 6).blk t).view.set ↔ ∀ a : Fin 2, win1_6.index t a * S16384x32.size a ≤ (i a).val
      ∧ (i a).val < win1_6.index t a * S16384x32.size a + S16384x32.size a := by
  show i ∈ ((View.whole main_v3).slice (win1_6.rect t)).set ↔ _
  rw [View.set_slice_whole, Rect.mem_set_unit]
  exact Iff.rfl

theorem cover6 (i : S131072x32.Idx) :
    ∃ t : Fin cfg1.N, (cfg1.win 6).flush t = true ∧ i ∈ ((cfg1.win 6).blk t).view.set := by
  have hi0 : (i 0).val < 131072 := (i 0).isLt
  have hi1 : (i 1).val < 32 := (i 1).isLt
  have hN : cfg1.N = 8 := N_1
  obtain ⟨t, ht⟩ : ∃ t : Fin cfg1.N, t.val = (i 0).val / 16384 := ⟨⟨(i 0).val / 16384, by rw [hN]; omega⟩, rfl⟩
  obtain ⟨-, -, -, -, -, -, -, -, -, -, -, -, e0, e1⟩ := idx_facts t
  refine ⟨t, flush1_6 t, ?_⟩
  rw [mem_blk6]
  intro a
  match a with
  | ⟨0, _⟩ =>
    show win1_6.index t (0 : Fin 2) * 16384 ≤ (i 0).val ∧ (i 0).val < win1_6.index t (0 : Fin 2) * 16384 + 16384
    omega
  | ⟨1, _⟩ =>
    show win1_6.index t (1 : Fin 2) * 32 ≤ (i 1).val ∧ (i 1).val < win1_6.index t (1 : Fin 2) * 32 + 32
    omega

theorem out_eq (c : Dev nD) :
    (dat cnt We be1 Wg bg1 x y0 O Rc c).arrAt 6 cfg1.N = KIOut.outVal cnt We be1 Wg bg1 x :=
  (dat cnt We be1 Wg bg1 x y0 O Rc c).arrAt_eq_of_cover 6 (KIOut.outVal cnt We be1 Wg bg1 x)
    (fun t _ => flushed_eq cnt We be1 Wg bg1 x y0 O Rc c t) cover6

theorem in_eq (c : Dev nD) (w : Fin 7) (hw : (cfg1.win w).isOut = false) (n : Nat) :
    (dat cnt We be1 Wg bg1 x y0 O Rc c).arrAt w n = (dat cnt We be1 Wg bg1 x y0 O Rc c).A w :=
  (dat cnt We be1 Wg bg1 x y0 O Rc c).arrAt_in w hw n

end Data

end Cert.Proof.KIRegion

end
-- ==== Proof.KIRegionSeg.lean ====
import proofs.«206864_g62740882260319_cont_9to1_m_949_20_alg».proof.Proof.KIRegionData
import proofs.«206864_g62740882260319_cont_9to1_m_949_20_alg».proof.Proof.KIOut
import proofs.«206864_g62740882260319_cont_9to1_m_949_20_alg».proof.Proof.Gen.KernelIdeal.Launch
import Idealize.ShloMosaic.Lib.Pipeline.Regions
import Idealize.ShloMosaic.Lib.Tactic

noncomputable section

namespace Cert.Proof.KIRegion

open Cert.KernelIdeal Cert.KernelIdeal.Gen
open Cert.Proof.KernelIdealCommon

open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

section Seg

variable (cnt : Vec F S128x128 .f32) (We : Vec F S32x32 .f32) (be1 : Vec F S1x32 .f32) (Wg : Vec F S32x32 .f32)
  (bg1 : Vec F S1x32 .f32) (x : Vec F S1024x4096 .f32) (y0 : Vec F S131072x32 .f32)
  (O : CellTallies nD τ sig (HIx 1)) (Rc : Set (SemLoc sig × HIx 1))

theorem reg_hwaits (hO : ∀ g, O g none = 0) (lv : GSem nD τ sig → HIx 1 → ℕ) (hlv : (K (F := F)).Refines lv) (c : Dev nD) :
    (levAts (K (F := F)).L lv : sProp 𝕄)
      ⊢ Pipeline.cellsWaits (Pipeline.pin (pcfgs (F := F)) adm) (pdats cnt We be1 Wg bg1 x y0 O Rc) (none : HIx 1) 0 c :=
  Pipeline.cellsWaits_intro _ _ _ 0 c fun w s t => (K (F := F)).mayWait_none _ hO lv hlv

theorem reg_hentry (lv : GSem nD τ sig → HIx 1 → ℕ) (c : Dev nD) :
    iprop(iprop(arrs cnt We be1 Wg bg1 x c y0 ∗ Pipeline.owesWithin c O Rc) ∗ Pipeline.ownSems0 (fun k : PEmpty => k.elim) c
        ∗ levAts (K (F := F)).L lv)
      ⊢ |={Set.univ}=> iprop((pdats cnt We be1 Wg bg1 x y0 O Rc 0 c).arrays ((pdats cnt We be1 Wg bg1 x y0 O Rc 0 c).arrAt · 0)
          ∗ Pipeline.prefHeld (pcfgs (F := F) 0).pre c (fun _ => fullShare) (adm (F := F) 0).1
          ∗ (pdats cnt We be1 Wg bg1 x y0 O Rc 0 c).owesAt none 0 ∗ BI.emp ∗ BI.emp) := by
  rw [Pipeline.ownSems0_none,
    Pipeline.arrays_eq (Pipeline.pin (pcfgs (F := F)) adm) (pdats cnt We be1 Wg bg1 x y0 O Rc) 0 c
      launch1.arr_whole ((pdats cnt We be1 Wg bg1 x y0 O Rc 0 c).share_full fun _ => rfl)]
  rw [bigSep_W1]
  unfold arrs
  iintro ⟨⟨⟨H0, H1, H2, H3, H4, H5, H6⟩, HO⟩, -, -⟩
  imodintro
  isplitl [H0 H1 H2 H3 H4 H5 H6]
  · isplitl [H0]; · iexact H0
    isplitl [H1]; · iexact H1
    isplitl [H2]; · iexact H2
    isplitl [H3]; · iexact H3
    isplitl [H4]; · iexact H4
    isplitl [H5]; · iexact H5
    iexact H6
  isplitr
  · unfold Pipeline.prefHeld
    rw [show (Finset.univ : Finset (Fin (pcfgs (F := F) 0).pre.K)) = ∅ from rfl, BI.bigSep_empty]
    iempintro
  isplitl [HO]
  · iapply (Pipeline.owesWithin_mono c O (B := Rc) (B' := Rc ∪ cfg1.waitPairs none) Set.subset_union_left)
    iexact HO
  isplitr <;> iempintro

theorem reg_hin (c : Dev nD) :
    iprop(BI.emp ∗ Pipeline.prefHeld (pcfgs (F := F) 0).pre c (fun _ => fullShare) (adm (F := F) 0).1
        ∗ Pipeline.scopedRest (Pipeline.pin (pcfgs (F := F)) adm 0).spec c)
      ⊢ (pdats cnt We be1 Wg bg1 x y0 O Rc 0 c).Φ 0 := by
  rw [show (pdats cnt We be1 Wg bg1 x y0 O Rc 0 c).Φ 0
      = Pipeline.scopedRest (Ix := HIx 1) (Name := ℕ) (U := UU) (Lvl := ℕ) (Val := Elt F) spec1 c from rfl]
  iintro ⟨-, -, Hr⟩
  iexact Hr

theorem reg_hout (c : Dev nD) :
    (pdats cnt We be1 Wg bg1 x y0 O Rc 0 c).Φ (Fin.last _)
      ⊢ iprop(BI.emp ∗ Pipeline.ownSems0 (fun k : PEmpty => k.elim) c
          ∗ Pipeline.scopedRest (Pipeline.pin (pcfgs (F := F)) adm 0).spec c) := by
  rw [Pipeline.ownSems0_none,
    show (pdats cnt We be1 Wg bg1 x y0 O Rc 0 c).Φ (Fin.last _) = scr cnt We be1 Wg bg1 c from rfl,
    show (Pipeline.scopedRest (Ix := HIx 1) (Name := ℕ) (U := UU) (Lvl := ℕ) (Val := Elt F) (Pipeline.pin (pcfgs (F := F)) adm 0).spec c : sProp 𝕄)
      = Pipeline.scopedRest (Ix := HIx 1) (Name := ℕ) (U := UU) (Lvl := ℕ) (Val := Elt F) spec1 c from rfl,
    scopedRest1_eq]
  unfold scr
  iintro ⟨H0, H1, H2⟩
  isplitr; · iempintro
  isplitr; · iempintro
  isplitl [H0]; · iexists _; iexact H0
  isplitl [H1]; · iexists _; iexact H1
  iexists _; iexact H2

theorem reg_hexit (c : Dev nD)
    (hout : (pdats cnt We be1 Wg bg1 x y0 O Rc 0 c).arrAt 6 cfg1.N = KIOut.outVal cnt We be1 Wg bg1 x)
    (hins : ∀ w : Fin 7, (cfg1.win w).isOut = false →
      (pdats cnt We be1 Wg bg1 x y0 O Rc 0 c).arrAt w cfg1.N = (pdats cnt We be1 Wg bg1 x y0 O Rc 0 c).A w) :
    iprop((pdats cnt We be1 Wg bg1 x y0 O Rc 0 c).arrays ((pdats cnt We be1 Wg bg1 x y0 O Rc 0 c).arrAt · cfg1.N)
        ∗ (pdats cnt We be1 Wg bg1 x y0 O Rc 0 c).owesAt none (Fin.last _) ∗ BI.emp ∗ BI.emp)
      ⊢ |={Set.univ}=> iprop(arrs cnt We be1 Wg bg1 x c (KIOut.outVal cnt We be1 Wg bg1 x)
          ∗ Pipeline.owesWithin c O (Rc ∪ cfg1.waitPairs none)) := by
  have hF : ∀ w : Fin 7, (pdats cnt We be1 Wg bg1 x y0 O Rc 0 c).arrAt w cfg1.N
      = (dat cnt We be1 Wg bg1 x (KIOut.outVal cnt We be1 Wg bg1 x) O Rc c).A w := by
    intro w
    fin_cases w
    · exact hins 0 rfl
    · exact hins 1 rfl
    · exact hins 2 rfl
    · exact hins 3 rfl
    · exact hins 4 rfl
    · exact hins 5 rfl
    · exact hout
  rw [show ((pdats cnt We be1 Wg bg1 x y0 O Rc 0 c).arrAt · cfg1.N)
      = (dat cnt We be1 Wg bg1 x (KIOut.outVal cnt We be1 Wg bg1 x) O Rc c).A from funext hF,
    Pipeline.arrays_eq (Pipeline.pin (pcfgs (F := F)) adm) (pdats cnt We be1 Wg bg1 x y0 O Rc) 0 c
      launch1.arr_whole ((pdats cnt We be1 Wg bg1 x y0 O Rc 0 c).share_full fun _ => rfl)]
  rw [bigSep_W1]
  unfold arrs
  iintro ⟨⟨H0, H1, H2, H3, H4, H5, H6⟩, HO, -, -⟩
  imodintro
  isplitl [H0 H1 H2 H3 H4 H5 H6]
  · isplitl [H0]; · iexact H0
    isplitl [H1]; · iexact H1
    isplitl [H2]; · iexact H2
    isplitl [H3]; · iexact H3
    isplitl [H4]; · iexact H4
    isplitl [H5]; · iexact H5
    iexact H6
  iexact HO

end Seg

end Cert.Proof.KIRegion

end
-- ==== Proof.KIRegion.lean ====
import proofs.«206864_g62740882260319_cont_9to1_m_949_20_alg».proof.Proof.KIRegionData
import proofs.«206864_g62740882260319_cont_9to1_m_949_20_alg».proof.Proof.Gen.KernelIdeal.Skeleton
import proofs.«206864_g62740882260319_cont_9to1_m_949_20_alg».proof.Proof.Gen.KernelIdeal.Launch
import proofs.«206864_g62740882260319_cont_9to1_m_949_20_alg».proof.Proof.Gen.KernelIdeal.Points
import proofs.«206864_g62740882260319_cont_9to1_m_949_20_alg».proof.Proof.KIOut
import proofs.«206864_g62740882260319_cont_9to1_m_949_20_alg».proof.Proof.KIRegionOut
import proofs.«206864_g62740882260319_cont_9to1_m_949_20_alg».proof.Proof.KIRegionSeg
import Idealize.ShloMosaic.Lib.Pipeline.Regions
import Idealize.ShloMosaic.Lib.Pipeline.FrameBody
import Idealize.ShloMosaic.Lib.Pipeline.Value
import Idealize.ShloMosaic.Lib.Tactic

noncomputable section

namespace Cert.Proof.KIRegion

open Cert.KernelIdeal Cert.KernelIdeal.Gen
open Cert.Proof.KernelIdealCommon

open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

abbrev cond1 (i : grid1.Coords) : Prop :=
  (Scalar.cmpi .ne (Scalar.extui (Scalar.cmpi .eq (BitVec.ofNat 32 (i 0).val) 0#32)) 0#32) = 1#1

theorem hcond1 : ∀ t : Fin cfg1.N, cond1 (grid1.coords t) ↔ t.val % 8 = 0 :=
  (by decide +kernel : ∀ t : Fin grid1.N, cond1 (grid1.coords t) ↔ t.val % 8 = 0)

theorem off2 : (![0, 0] : Fin 2 → Nat) = fun _ => 0 := by funext a; fin_cases a <;> rfl

section Whole

variable {S : Shape} {e : EltTy} {sp : Space}

theorem readAt_unread (m : Memref sig .tc sp S e) (hm : m.IsWhole) (X : S.Idx → Elt F e) {off : Fin S.rank → Nat}
    (h : off = fun _ => 0) (inb : ∀ a, off a + S.size a ≤ S.size a) :
    View.readAt (Elt F) m.view (Rect.unit off S.size inb).toLoadRect (hm.unread X) = X := by
  show View.ld (m.view.read (Elt F) (hm.unread X)) (Rect.unit off S.size inb) = X
  rw [hm.read_unread, View.ld_unit_zero h]

theorem read_writes_unit (v : View sig .tc sp S e) (f : v.ty.Contents (Elt F)) {off : Fin S.rank → Nat}
    (h : off = fun _ => 0) (inb : ∀ a, off a + S.size a ≤ S.size a) (w : S.Idx → Elt F e) :
    v.read (Elt F) (v.writes (Elt F) f [(⟨Rect.unit off S.size inb, w⟩ : View.Piece (Elt F) S e)]) = w := by
  rw [View.read_writes_eq_canon _ _ _ (fun y => ⟨_, List.mem_singleton_self _, View.mem_set_unit_zero h inb y⟩),
    View.canon_unit_zero h]

end Whole

section Run

variable (c : Dev nD) (i : grid1.Coords)
  (arg1 : Memref sig .tc .vmem S128x128 .f32) (harg1 : arg1.IsWhole) (arg2 : Memref sig .tc .vmem S32x32 .f32) (harg2 : arg2.IsWhole)
  (arg3 : Memref sig .tc .vmem S1x32 .f32) (harg3 : arg3.IsWhole) (arg4 : Memref sig .tc .vmem S32x32 .f32) (harg4 : arg4.IsWhole)
  (arg5 : Memref sig .tc .vmem S1x32 .f32) (harg5 : arg5.IsWhole) (arg6 : Memref sig .tc .vmem S128x4096 .f32) (harg6 : arg6.IsWhole)
  (arg7 : Memref sig .tc .vmem S16384x32 .f32) (harg7 : arg7.IsWhole) (arg8 : Memref sig .tc .vmem S128x128 .f32) (harg8 : arg8.IsWhole)
  (arg9 : Memref sig .tc .vmem S32x32 .f32) (harg9 : arg9.IsWhole) (arg10 : Memref sig .tc .vmem S128x32 .f32) (harg10 : arg10.IsWhole)
  (cnt : Vec F S128x128 .f32) (We : Vec F S32x32 .f32) (be1 : Vec F S1x32 .f32) (Wg : Vec F S32x32 .f32)
  (bg1 : Vec F S1x32 .f32) (xb : Vec F S128x4096 .f32)

abbrev runPost : sProp 𝕄 :=
  iprop(owns (c : Thread nD τ) arg1 fullShare cnt ∗ owns (c : Thread nD τ) arg2 fullShare We ∗ owns (c : Thread nD τ) arg3 fullShare be1
    ∗ owns (c : Thread nD τ) arg4 fullShare Wg ∗ owns (c : Thread nD τ) arg5 fullShare bg1 ∗ owns (c : Thread nD τ) arg6 fullShare xb
    ∗ owns (c : Thread nD τ) arg7 fullShare (k1_pay2 xb (valA cnt) (valWc We Wg) (valBias cnt be1 Wg bg1))
    ∗ owns (c : Thread nD τ) arg8 fullShare (valA cnt) ∗ owns (c : Thread nD τ) arg9 fullShare (valWc We Wg)
    ∗ owns (c : Thread nD τ) arg10 fullShare (valBias cnt be1 Wg bg1))

theorem run_first (hc : cond1 i) (E : Set ℕ) (Q : PUnit → sProp 𝕄) :
    iprop(owns (c : Thread nD τ) arg1 fullShare cnt ∗ owns (c : Thread nD τ) arg2 fullShare We ∗ owns (c : Thread nD τ) arg3 fullShare be1
        ∗ owns (c : Thread nD τ) arg4 fullShare Wg ∗ owns (c : Thread nD τ) arg5 fullShare bg1 ∗ owns (c : Thread nD τ) arg6 fullShare xb
        ∗ (∃ d, owns (c : Thread nD τ) arg7 fullShare d) ∗ (∃ d, owns (c : Thread nD τ) arg8 fullShare d)
        ∗ (∃ d, owns (c : Thread nD τ) arg9 fullShare d) ∗ (∃ d, owns (c : Thread nD τ) arg10 fullShare d)
        ∗ (runPost (F := F) c arg1 arg2 arg3 arg4 arg5 arg6 arg7 arg8 arg9 arg10 cnt We be1 Wg bg1 xb -∗ Q ⟨⟩))
      ⊢ wp frame (wpE (defs₀ (F := F)) 𝒱₀ c none) E
          (cc1__fused_kernel i arg1 harg1 arg2 harg2 arg3 harg3 arg4 harg4 arg5 harg5 arg6 harg6 arg7 harg7 arg8 harg8 arg9 harg9 arg10 harg10) Q := by
  simp only [cc1__fused_kernel_eq_skeleton]; unfold cc1__fused_kernel_skel
  simp only [k1_part1_eq_skeleton]; unfold k1_part1_skel
  dsimp only [runPost]; unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩,
    ⟨%d7, %f7, -, H7⟩, ⟨%d8, %f8, -, H8⟩, ⟨%d9, %f9, -, H9⟩, ⟨%d10, %f10, -, H10⟩, Hk⟩
  obtain rfl := harg1.eq_unread hf1
  obtain rfl := harg2.eq_unread hf2
  obtain rfl := harg3.eq_unread hf3
  obtain rfl := harg4.eq_unread hf4
  obtain rfl := harg5.eq_unread hf5
  obtain rfl := harg6.eq_unread hf6
  sl_exec (disch := first | exact hc)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; swap; · iexact H7
    ipureintro
    unfold run_first.sl.v6 run_first.sl.v10 run_first.sl.v14 run_first.sl.H8_1 run_first.sl.H9_1 run_first.sl.H10_1
    simp only [readAt_unread _ harg1 cnt off2, readAt_unread _ harg2 We off2, readAt_unread _ harg3 be1 off2,
      readAt_unread _ harg4 Wg off2, readAt_unread _ harg5 bg1 off2, readAt_unread _ harg6 xb off2,
      View.readCov_unit_zero (S := S128x128) _ off2, View.readCov_unit_zero (S := S32x32) _ off2,
      View.readCov_unit_zero (S := S128x32) _ off2,
      read_writes_unit (S := S16384x32) _ _ off2, read_writes_unit (S := S128x128) _ _ off2,
      read_writes_unit (S := S32x32) _ _ off2, read_writes_unit (S := S128x32) _ _ off2]
  isplitl [H8]
  · iexists _; isplitr; swap; · iexact H8
    ipureintro
    unfold run_first.sl.H8_1
    simp only [readAt_unread _ harg1 cnt off2, readAt_unread _ harg2 We off2, readAt_unread _ harg3 be1 off2,
      readAt_unread _ harg4 Wg off2, readAt_unread _ harg5 bg1 off2, readAt_unread _ harg6 xb off2,
      View.readCov_unit_zero (S := S128x128) _ off2, View.readCov_unit_zero (S := S32x32) _ off2,
      View.readCov_unit_zero (S := S128x32) _ off2,
      read_writes_unit (S := S16384x32) _ _ off2, read_writes_unit (S := S128x128) _ _ off2,
      read_writes_unit (S := S32x32) _ _ off2, read_writes_unit (S := S128x32) _ _ off2]
  isplitl [H9]
  · iexists _; isplitr; swap; · iexact H9
    ipureintro
    unfold run_first.sl.H9_1
    simp only [readAt_unread _ harg1 cnt off2, readAt_unread _ harg2 We off2, readAt_unread _ harg3 be1 off2,
      readAt_unread _ harg4 Wg off2, readAt_unread _ harg5 bg1 off2, readAt_unread _ harg6 xb off2,
      View.readCov_unit_zero (S := S128x128) _ off2, View.readCov_unit_zero (S := S32x32) _ off2,
      View.readCov_unit_zero (S := S128x32) _ off2,
      read_writes_unit (S := S16384x32) _ _ off2, read_writes_unit (S := S128x128) _ _ off2,
      read_writes_unit (S := S32x32) _ _ off2, read_writes_unit (S := S128x32) _ _ off2]
  · iexists _; isplitr; swap; · iexact H10
    ipureintro
    unfold run_first.sl.H10_1
    simp only [readAt_unread _ harg1 cnt off2, readAt_unread _ harg2 We off2, readAt_unread _ harg3 be1 off2,
      readAt_unread _ harg4 Wg off2, readAt_unread _ harg5 bg1 off2, readAt_unread _ harg6 xb off2,
      View.readCov_unit_zero (S := S128x128) _ off2, View.readCov_unit_zero (S := S32x32) _ off2,
      View.readCov_unit_zero (S := S128x32) _ off2,
      read_writes_unit (S := S16384x32) _ _ off2, read_writes_unit (S := S128x128) _ _ off2,
      read_writes_unit (S := S32x32) _ _ off2, read_writes_unit (S := S128x32) _ _ off2]

theorem run_later (hc : ¬ cond1 i) (E : Set ℕ) (Q : PUnit → sProp 𝕄) :
    iprop(owns (c : Thread nD τ) arg1 fullShare cnt ∗ owns (c : Thread nD τ) arg2 fullShare We ∗ owns (c : Thread nD τ) arg3 fullShare be1
        ∗ owns (c : Thread nD τ) arg4 fullShare Wg ∗ owns (c : Thread nD τ) arg5 fullShare bg1 ∗ owns (c : Thread nD τ) arg6 fullShare xb
        ∗ (∃ d, owns (c : Thread nD τ) arg7 fullShare d) ∗ owns (c : Thread nD τ) arg8 fullShare (valA cnt)
        ∗ owns (c : Thread nD τ) arg9 fullShare (valWc We Wg) ∗ owns (c : Thread nD τ) arg10 fullShare (valBias cnt be1 Wg bg1)
        ∗ (runPost (F := F) c arg1 arg2 arg3 arg4 arg5 arg6 arg7 arg8 arg9 arg10 cnt We be1 Wg bg1 xb -∗ Q ⟨⟩))
      ⊢ wp frame (wpE (defs₀ (F := F)) 𝒱₀ c none) E
          (cc1__fused_kernel i arg1 harg1 arg2 harg2 arg3 harg3 arg4 harg4 arg5 harg5 arg6 harg6 arg7 harg7 arg8 harg8 arg9 harg9 arg10 harg10) Q := by
  simp only [cc1__fused_kernel_eq_skeleton]; unfold cc1__fused_kernel_skel
  dsimp only [runPost]; unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩,
    ⟨%d7, %f7, -, H7⟩, ⟨%f8, %hf8, H8⟩, ⟨%f9, %hf9, H9⟩, ⟨%f10, %hf10, H10⟩, Hk⟩
  obtain rfl := harg1.eq_unread hf1
  obtain rfl := harg2.eq_unread hf2
  obtain rfl := harg3.eq_unread hf3
  obtain rfl := harg4.eq_unread hf4
  obtain rfl := harg5.eq_unread hf5
  obtain rfl := harg6.eq_unread hf6
  obtain rfl := harg8.eq_unread hf8
  obtain rfl := harg9.eq_unread hf9
  obtain rfl := harg10.eq_unread hf10
  sl_exec (disch := first | exact hc)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; swap; · iexact H7
    ipureintro
    simp only [readAt_unread _ harg6 xb off2, readAt_unread _ harg8 (valA cnt) off2, readAt_unread _ harg9 (valWc We Wg) off2,
      readAt_unread _ harg10 (valBias cnt be1 Wg bg1) off2, read_writes_unit (S := S16384x32) _ _ off2]
  isplitl [H8]
  · iexists _; isplitr; · ipureintro; exact harg8.read_unread _
    iexact H8
  isplitl [H9]
  · iexists _; isplitr; · ipureintro; exact harg9.read_unread _
    iexact H9
  · iexists _; isplitr; · ipureintro; exact harg10.read_unread _
    iexact H10

end Run

section Data

variable (cnt : Vec F S128x128 .f32) (We : Vec F S32x32 .f32) (be1 : Vec F S1x32 .f32) (Wg : Vec F S32x32 .f32)
  (bg1 : Vec F S1x32 .f32) (x : Vec F S1024x4096 .f32) (y0 : Vec F S131072x32 .f32)
  (O : CellTallies nD τ sig (HIx 1)) (Rc : Set (SemLoc sig × HIx 1))

abbrev ms0 (t : Fin cfg1.N) : Memref sig .tc .vmem S128x128 .f32 := win1_0.stage (cfg1.slots t 0)
abbrev hs0 (t : Fin cfg1.N) : (ms0 t).IsWhole := hstage1_0 ((cfg1.slots t 0).cast nbuf1_0)
abbrev ms1 (t : Fin cfg1.N) : Memref sig .tc .vmem S32x32 .f32 := win1_1.stage (cfg1.slots t 1)
abbrev hs1 (t : Fin cfg1.N) : (ms1 t).IsWhole := hstage1_1 ((cfg1.slots t 1).cast nbuf1_1)
abbrev ms2 (t : Fin cfg1.N) : Memref sig .tc .vmem S1x32 .f32 := win1_2.stage (cfg1.slots t 2)
abbrev hs2 (t : Fin cfg1.N) : (ms2 t).IsWhole := hstage1_2 ((cfg1.slots t 2).cast nbuf1_2)
abbrev ms3 (t : Fin cfg1.N) : Memref sig .tc .vmem S32x32 .f32 := win1_3.stage (cfg1.slots t 3)
abbrev hs3 (t : Fin cfg1.N) : (ms3 t).IsWhole := hstage1_3 ((cfg1.slots t 3).cast nbuf1_3)
abbrev ms4 (t : Fin cfg1.N) : Memref sig .tc .vmem S1x32 .f32 := win1_4.stage (cfg1.slots t 4)
abbrev hs4 (t : Fin cfg1.N) : (ms4 t).IsWhole := hstage1_4 ((cfg1.slots t 4).cast nbuf1_4)
abbrev ms5 (t : Fin cfg1.N) : Memref sig .tc .vmem S128x4096 .f32 := win1_5.stage (cfg1.slots t 5)
abbrev hs5 (t : Fin cfg1.N) : (ms5 t).IsWhole := hstage1_5 ((cfg1.slots t 5).cast nbuf1_5)
abbrev ms6 (t : Fin cfg1.N) : Memref sig .tc .vmem S16384x32 .f32 := win1_6.stage (cfg1.slots t 6)
abbrev hs6 (t : Fin cfg1.N) : (ms6 t).IsWhole := hstage1_6 ((cfg1.slots t 6).cast nbuf1_6)

theorem before0 (c : Dev nD) (t : Fin cfg1.N) (d) : (dat cnt We be1 Wg bg1 x y0 O Rc c).before 0 t d = cnt :=
  (((dat cnt We be1 Wg bg1 x y0 O Rc c).before_in_eq_fetched 0 rfl (fun _ => rfl) (fun _ _ _ => rfl) (fun _ => rfl) t d).trans rfl).trans
    (blk_read0 cnt t)
theorem before1 (c : Dev nD) (t : Fin cfg1.N) (d) : (dat cnt We be1 Wg bg1 x y0 O Rc c).before 1 t d = We :=
  (((dat cnt We be1 Wg bg1 x y0 O Rc c).before_in_eq_fetched 1 rfl (fun _ => rfl) (fun _ _ _ => rfl) (fun _ => rfl) t d).trans rfl).trans
    (blk_read1 We t)
theorem before2 (c : Dev nD) (t : Fin cfg1.N) (d) : (dat cnt We be1 Wg bg1 x y0 O Rc c).before 2 t d = be1 :=
  (((dat cnt We be1 Wg bg1 x y0 O Rc c).before_in_eq_fetched 2 rfl (fun _ => rfl) (fun _ _ _ => rfl) (fun _ => rfl) t d).trans rfl).trans
    (blk_read2 be1 t)
theorem before3 (c : Dev nD) (t : Fin cfg1.N) (d) : (dat cnt We be1 Wg bg1 x y0 O Rc c).before 3 t d = Wg :=
  (((dat cnt We be1 Wg bg1 x y0 O Rc c).before_in_eq_fetched 3 rfl (fun _ => rfl) (fun _ _ _ => rfl) (fun _ => rfl) t d).trans rfl).trans
    (blk_read3 Wg t)
theorem before4 (c : Dev nD) (t : Fin cfg1.N) (d) : (dat cnt We be1 Wg bg1 x y0 O Rc c).before 4 t d = bg1 :=
  (((dat cnt We be1 Wg bg1 x y0 O Rc c).before_in_eq_fetched 4 rfl (fun _ => rfl) (fun _ _ _ => rfl) (fun _ => rfl) t d).trans rfl).trans
    (blk_read4 bg1 t)
theorem before5 (c : Dev nD) (t : Fin cfg1.N) (d) : (dat cnt We be1 Wg bg1 x y0 O Rc c).before 5 t d = xStg x t :=
  ((dat cnt We be1 Wg bg1 x y0 O Rc c).before_in_eq_fetched 5 rfl (fun _ => rfl) (fun _ _ _ => rfl) (fun _ => rfl) t d).trans rfl
theorem before6 (c : Dev nD) (t : Fin cfg1.N) (d) : (dat cnt We be1 Wg bg1 x y0 O Rc c).before 6 t d = d :=
  (dat cnt We be1 Wg bg1 x y0 O Rc c).before_out_reset 6 rfl t
    (by by_cases h : t.val = 0
        · exact .inl h
        · exact .inr ⟨h, flush1_6 _⟩) d

theorem after0 (c : Dev nD) (t : Fin cfg1.N) : (dat cnt We be1 Wg bg1 x y0 O Rc c).after 0 t = cnt := blk_read0 cnt t
theorem after1 (c : Dev nD) (t : Fin cfg1.N) : (dat cnt We be1 Wg bg1 x y0 O Rc c).after 1 t = We := blk_read1 We t
theorem after2 (c : Dev nD) (t : Fin cfg1.N) : (dat cnt We be1 Wg bg1 x y0 O Rc c).after 2 t = be1 := blk_read2 be1 t
theorem after3 (c : Dev nD) (t : Fin cfg1.N) : (dat cnt We be1 Wg bg1 x y0 O Rc c).after 3 t = Wg := blk_read3 Wg t
theorem after4 (c : Dev nD) (t : Fin cfg1.N) : (dat cnt We be1 Wg bg1 x y0 O Rc c).after 4 t = bg1 := blk_read4 bg1 t
theorem after5 (c : Dev nD) (t : Fin cfg1.N) : (dat cnt We be1 Wg bg1 x y0 O Rc c).after 5 t = xStg x t := rfl
theorem after6 (c : Dev nD) (t : Fin cfg1.N) :
    (dat cnt We be1 Wg bg1 x y0 O Rc c).after 6 t = outStg cnt We be1 Wg bg1 x t := rfl

theorem Φ_zero (c : Dev nD) (t : Fin (cfg1.N + 1)) (h : t.val = 0) :
    (dat cnt We be1 Wg bg1 x y0 O Rc c).Φ t
      = Pipeline.scopedRest (Ix := HIx 1) (Name := ℕ) (U := UU) (Lvl := ℕ) (Val := Elt F) spec1 c := if_pos h
theorem Φ_pos (c : Dev nD) (t : Fin (cfg1.N + 1)) (h : t.val ≠ 0) :
    (dat cnt We be1 Wg bg1 x y0 O Rc c).Φ t = scr cnt We be1 Wg bg1 c := if_neg h

theorem sound_body (c : Dev nD) (t : Fin cfg1.N) :
    iprop((dat cnt We be1 Wg bg1 x y0 O Rc c).Φ t.castSucc ∗ (dat cnt We be1 Wg bg1 x y0 O Rc c).owesAt (none : HIx 1) t.castSucc
        ∗ (∃ d, owns (c : Thread nD τ) (st1_0 t) fullShare ((dat cnt We be1 Wg bg1 x y0 O Rc c).before 0 t d))
        ∗ (∃ d, owns (c : Thread nD τ) (st1_1 t) fullShare ((dat cnt We be1 Wg bg1 x y0 O Rc c).before 1 t d))
        ∗ (∃ d, owns (c : Thread nD τ) (st1_2 t) fullShare ((dat cnt We be1 Wg bg1 x y0 O Rc c).before 2 t d))
        ∗ (∃ d, owns (c : Thread nD τ) (st1_3 t) fullShare ((dat cnt We be1 Wg bg1 x y0 O Rc c).before 3 t d))
        ∗ (∃ d, owns (c : Thread nD τ) (st1_4 t) fullShare ((dat cnt We be1 Wg bg1 x y0 O Rc c).before 4 t d))
        ∗ (∃ d, owns (c : Thread nD τ) (st1_5 t) fullShare ((dat cnt We be1 Wg bg1 x y0 O Rc c).before 5 t d))
        ∗ (∃ d, owns (c : Thread nD τ) (st1_6 t) fullShare ((dat cnt We be1 Wg bg1 x y0 O Rc c).before 6 t d)))
      ⊢ wp frame (wpE (defs₀ (F := F)) 𝒱₀ c none) Set.univ (bodyAt1 t) (fun _ =>
          iprop((dat cnt We be1 Wg bg1 x y0 O Rc c).Φ t.succ ∗ (dat cnt We be1 Wg bg1 x y0 O Rc c).owesAt (none : HIx 1) t.succ
            ∗ owns (c : Thread nD τ) (st1_0 t) fullShare ((dat cnt We be1 Wg bg1 x y0 O Rc c).after 0 t)
            ∗ owns (c : Thread nD τ) (st1_1 t) fullShare ((dat cnt We be1 Wg bg1 x y0 O Rc c).after 1 t)
            ∗ owns (c : Thread nD τ) (st1_2 t) fullShare ((dat cnt We be1 Wg bg1 x y0 O Rc c).after 2 t)
            ∗ owns (c : Thread nD τ) (st1_3 t) fullShare ((dat cnt We be1 Wg bg1 x y0 O Rc c).after 3 t)
            ∗ owns (c : Thread nD τ) (st1_4 t) fullShare ((dat cnt We be1 Wg bg1 x y0 O Rc c).after 4 t)
            ∗ owns (c : Thread nD τ) (st1_5 t) fullShare ((dat cnt We be1 Wg bg1 x y0 O Rc c).after 5 t)
            ∗ owns (c : Thread nD τ) (st1_6 t) fullShare ((dat cnt We be1 Wg bg1 x y0 O Rc c).after 6 t))) := by
  simp only [before0, before1, before2, before3, before4, before5, before6, after0, after1, after2, after3, after4, after5, after6]
  rw [show (dat cnt We be1 Wg bg1 x y0 O Rc c).owesAt (none : HIx 1) t.succ
      = (dat cnt We be1 Wg bg1 x y0 O Rc c).owesAt (none : HIx 1) t.castSucc from rfl,
    Φ_pos cnt We be1 Wg bg1 x y0 O Rc c t.succ (Nat.succ_ne_zero _)]
  by_cases ht : t.val = 0
  · have hc : cond1 (grid1.coords t) := (hcond1 t).mpr (by rw [ht])
    have R := run_first (F := F) c (grid1.coords t) (ms0 t) (hs0 t) (ms1 t) (hs1 t) (ms2 t) (hs2 t) (ms3 t) (hs3 t) (ms4 t) (hs4 t)
      (ms5 t) (hs5 t) (ms6 t) (hs6 t) (Memref.whole cc1_scratch0) (Memref.isWhole_whole _) (Memref.whole cc1_scratch1) (Memref.isWhole_whole _)
      (Memref.whole cc1_scratch2) (Memref.isWhole_whole _) cnt We be1 Wg bg1 (xStg x t) hc Set.univ
    simp only [runPost, owns_whole] at R
    rw [Φ_zero cnt We be1 Wg bg1 x y0 O Rc c t.castSucc ht, scopedRest1_eq]
    iintro ⟨⟨⟨%s0, S0⟩, ⟨%s1, S1⟩, ⟨%s2, S2⟩⟩, Howes, ⟨%d0, H0⟩, ⟨%d1, H1⟩, ⟨%d2, H2⟩, ⟨%d3, H3⟩, ⟨%d4, H4⟩, ⟨%d5, H5⟩, ⟨%d6, H6⟩⟩
    iapply (R _)
    isplitl [H0]; · iexact H0
    isplitl [H1]; · iexact H1
    isplitl [H2]; · iexact H2
    isplitl [H3]; · iexact H3
    isplitl [H4]; · iexact H4
    isplitl [H5]; · iexact H5
    isplitl [H6]; · iexists d6; iexact H6
    isplitl [S0]; · iexists s0; iexact S0
    isplitl [S1]; · iexists s1; iexact S1
    isplitl [S2]; · iexists s2; iexact S2
    iintro ⟨H0, H1, H2, H3, H4, H5, H6, S0, S1, S2⟩
    isplitl [S0 S1 S2]
    · unfold scr; isplitl [S0]; · iexact S0
      isplitl [S1]; · iexact S1
      iexact S2
    isplitl [Howes]; · iexact Howes
    isplitl [H0]; · iexact H0
    isplitl [H1]; · iexact H1
    isplitl [H2]; · iexact H2
    isplitl [H3]; · iexact H3
    isplitl [H4]; · iexact H4
    isplitl [H5]; · iexact H5
    iexact H6
  · have hc : ¬ cond1 (grid1.coords t) := fun h => ht (by have h8 := (hcond1 t).mp h; have hlt := t.isLt; have hN : cfg1.N = 8 := N_1; omega)
    have R := run_later (F := F) c (grid1.coords t) (ms0 t) (hs0 t) (ms1 t) (hs1 t) (ms2 t) (hs2 t) (ms3 t) (hs3 t) (ms4 t) (hs4 t)
      (ms5 t) (hs5 t) (ms6 t) (hs6 t) (Memref.whole cc1_scratch0) (Memref.isWhole_whole _) (Memref.whole cc1_scratch1) (Memref.isWhole_whole _)
      (Memref.whole cc1_scratch2) (Memref.isWhole_whole _) cnt We be1 Wg bg1 (xStg x t) hc Set.univ
    simp only [runPost, owns_whole] at R
    rw [Φ_pos cnt We be1 Wg bg1 x y0 O Rc c t.castSucc ht]
    unfold scr
    iintro ⟨⟨S0, S1, S2⟩, Howes, ⟨%d0, H0⟩, ⟨%d1, H1⟩, ⟨%d2, H2⟩, ⟨%d3, H3⟩, ⟨%d4, H4⟩, ⟨%d5, H5⟩, ⟨%d6, H6⟩⟩
    iapply (R _)
    isplitl [H0]; · iexact H0
    isplitl [H1]; · iexact H1
    isplitl [H2]; · iexact H2
    isplitl [H3]; · iexact H3
    isplitl [H4]; · iexact H4
    isplitl [H5]; · iexact H5
    isplitl [H6]; · iexists d6; iexact H6
    isplitl [S0]; · iexact S0
    isplitl [S1]; · iexact S1
    isplitl [S2]; · iexact S2
    iintro ⟨H0, H1, H2, H3, H4, H5, H6, S0, S1, S2⟩
    isplitl [S0 S1 S2]
    · isplitl [S0]; · iexact S0
      isplitl [S1]; · iexact S1
      iexact S2
    isplitl [Howes]; · iexact Howes
    isplitl [H0]; · iexact H0
    isplitl [H1]; · iexact H1
    isplitl [H2]; · iexact H2
    isplitl [H3]; · iexact H3
    isplitl [H4]; · iexact H4
    isplitl [H5]; · iexact H5
    iexact H6

theorem body_obligation (c : Dev nD) :
    BodyObligation (dat cnt We be1 Wg bg1 x y0 O Rc c) (defs₀ (F := F)) 𝒱₀ (none : HIx 1) Set.univ := fun t => by
  rw [bigSep_W1, bigSep_W1]
  exact sound_body cnt We be1 Wg bg1 x y0 O Rc c t

def reg (hO : ∀ g, O g none = 0) (lv : GSem nD τ sig → HIx 1 → ℕ) (hlv : (K (F := F)).Refines lv) :
    Pipeline.RegionSeg (pcfgs (F := F)) adm (pdats cnt We be1 Wg bg1 x y0 O Rc) (none : HIx 1) defs₀ 𝒱₀ (K (F := F)).L lv 0 where
  win := launch1.win.to₀
  block_pos := launch1.block_pos
  stage_whole := launch1.stage_whole
  K := PEmpty
  osem k := k.elim
  ho := Pipeline.OwnSemFacts.none _
  hbody c := (body_obligation cnt We be1 Wg bg1 x y0 O Rc c).loose
  hwaits c := reg_hwaits cnt We be1 Wg bg1 x y0 O Rc hO lv hlv c
  pre c := iprop(arrs cnt We be1 Wg bg1 x c y0 ∗ Pipeline.owesWithin c O Rc)
  post c := iprop(arrs cnt We be1 Wg bg1 x c (KIOut.outVal cnt We be1 Wg bg1 x) ∗ Pipeline.owesWithin c O (Rc ∪ cfg1.waitPairs none))
  X _ := BI.emp
  Y _ := BI.emp
  Z _ := BI.emp
  hentry c := reg_hentry cnt We be1 Wg bg1 x y0 O Rc lv c
  hin c := reg_hin cnt We be1 Wg bg1 x y0 O Rc c
  hout c := reg_hout cnt We be1 Wg bg1 x y0 O Rc c
  hexit c := reg_hexit cnt We be1 Wg bg1 x y0 O Rc c (out_eq cnt We be1 Wg bg1 x y0 O Rc c)
    (fun w hw => in_eq cnt We be1 Wg bg1 x y0 O Rc c w hw cfg1.N)

end Data

end Cert.Proof.KIRegion

end
-- ==== Proof.KIMainRegion.lean ====
import proofs.«206864_g62740882260319_cont_9to1_m_949_20_alg».proof.Proof.KIRegion
import proofs.«206864_g62740882260319_cont_9to1_m_949_20_alg».proof.Proof.KIElem
import Idealize.ShloMosaic.Lib.SparseCore.Threads
import Idealize.ShloMosaic.Lib.Pipeline.Regions
import Idealize.ShloMosaic.Lib.Tactic

noncomputable section

namespace Cert.Proof.KIMainRegion

open Cert.KernelIdeal Cert.KernelIdeal.Gen
open Cert.Proof.KernelIdealCommon Cert.Proof.KIRegion

open Idealize.ShloMosaic
open Idealize.ShloMosaic.TcCoe Idealize.ShloMosaic.Tactic
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

theorem waitPairs_none : cfg1.waitPairs (none : HIx 1) ⊆ {p : SemLoc sig × HIx 1 | p.2 = none} := by
  rintro p ⟨w, s, rfl⟩; rfl

section Step

variable (cnt : Vec F S128x128 .f32) (We : Vec F S32x32 .f32) (be1 : Vec F S1x32 .f32) (Wg : Vec F S32x32 .f32)
  (bg1 : Vec F S1x32 .f32) (x : Vec F S1024x4096 .f32) (y0 : Vec F S131072x32 .f32)
  (O : CellTallies nD τ sig (HIx 1)) (Rc : Set (SemLoc sig × HIx 1))

theorem reg_pre (d : Dev nD) (hO : ∀ g, O g none = 0) (lv : GSem nD τ sig → HIx 1 → ℕ) (hlv : (K (F := F)).Refines lv) :
    (reg cnt We be1 Wg bg1 x y0 O Rc hO lv hlv).pre d = iprop(arrs cnt We be1 Wg bg1 x d y0 ∗ Pipeline.owesWithin d O Rc) := rfl
theorem reg_post (d : Dev nD) (hO : ∀ g, O g none = 0) (lv : GSem nD τ sig → HIx 1 → ℕ) (hlv : (K (F := F)).Refines lv) :
    (reg cnt We be1 Wg bg1 x y0 O Rc hO lv hlv).post d
      = iprop(arrs cnt We be1 Wg bg1 x d (KIOut.outVal cnt We be1 Wg bg1 x) ∗ Pipeline.owesWithin d O (Rc ∪ cfg1.waitPairs none)) := rfl

set_option backward.isDefEq.respectTransparency.types false in
theorem main_region (d : Dev nD) (hO : ∀ g, O g none = 0) {α : Type}
    (k : PUnit → Prog (TpuEff nD τ sig (Elt F) (SparseCore.Sig (ΛP (F := F)) 1) .tc) α) (Q : α → sProp 𝕄) :
    iprop((iprop(boundary (T d) ∗ arrs cnt We be1 Wg bg1 x d (KIOut.outVal cnt We be1 Wg bg1 x)
              ∗ Pipeline.owesWithin d O (Rc ∪ cfg1.waitPairs none))
            -∗ wp frame (wpE ((K (F := F)).defs (D (F := F))) 𝒱 (T d) none) Set.univ (k ⟨⟩) Q)
        ∗ boundary (T d) ∗ arrs cnt We be1 Wg bg1 x d y0 ∗ Pipeline.owesWithin d O Rc
        ∗ levAts (K (F := F)).L (K (F := F)).lev ∗ KIElem.G (F := F) d)
      ⊢ wp frame (wpE ((K (F := F)).defs (D (F := F))) 𝒱 (T d) none) Set.univ
          (.op (.customCall (SparseCore.inner (Pipeline.entry 0)) ()) k) Q := by
  rw [show (Prog.op (.customCall (SparseCore.inner (Pipeline.entry 0)) ()) k
        : Prog (TpuEff nD τ sig (Elt F) (SparseCore.Sig (ΛP (F := F)) 1) .tc) α)
      = (SparseCore.liftProg (Prog.op (.customCall (Pipeline.entry 0) ()) fun _ => .ret PUnit.unit)) >>= k from rfl, wp_bind]
  unfold KIElem.G
  iintro ⟨Hk, Hb, Harr, HO, #Hlev, Hg, Ht⟩
  iapply ((K (F := F)).wp_liftProg (D (F := F)) 𝒱 (T d) Set.univ none _ _)
  iapply (Pipeline.RegionSeg.wp (pcfgs (F := F)) adm (pdats cnt We be1 Wg bg1 x y0 O Rc) (none : HIx 1) cellOf_inj EP defs₀ 𝒱₀
    (K (F := F)).L (K (F := F)).lev (reg cnt We be1 Wg bg1 x y0 O Rc hO (K (F := F)).lev (by sl_refines_lev)) d none
    (fun u hu => by cases hu) (fun _ => .ret PUnit.unit) _)
  rw [reg_pre, reg_post]
  isplitl [Hk]
  · iintro ⟨Hb, Harr, HO⟩
    rw [wp_ret]
    imodintro
    iapply Hk
    isplitl [Hb]; · iexact Hb
    isplitl [Harr]; · iexact Harr
    iexact HO
  isplitl [Hb]; · iexact Hb
  isplitl [Harr HO]
  · isplitl [Harr]; · iexact Harr
    iexact HO
  isplitr; · iexact Hlev
  isplitl [Hg]; · iexact Hg
  iexact Ht

end Step

end Cert.Proof.KIMainRegion

end
-- ==== Proof.KITileObl.lean ====
import proofs.«206864_g62740882260319_cont_9to1_m_949_20_alg».proof.Proof.KIHand
import proofs.«206864_g62740882260319_cont_9to1_m_949_20_alg».proof.Proof.Gen.KernelIdeal.Launch
import Idealize.ShloMosaic.Lib.SparseCore.Launch
import Idealize.ShloMosaic.Lib.StableHlo.Run
import Idealize.ShloMosaic.Lib.Pipeline.Kit
import Idealize.ShloMosaic.Lib.Pipeline.Regions
import Idealize.ShloMosaic.Lib.Tactic

noncomputable section

namespace Cert.Proof.KITileObl

open Cert.KernelIdeal Cert.KernelIdeal.Gen
open Cert.Proof.KernelIdealCommon Cert.Proof.KIPay Cert.Proof.KIHand

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => 𝕄T F

variable (m : (ℓ : Loc nD τ sig) → Buf (Elt F) ℓ) (ρ : Dev nD → PrngReg)

variable [FloatOps F]

variable (cv : (d : Dev nD) → Buf (Elt F) (cntLoc d)) (ov : (d : Dev nD) → Buf (Elt F) (outLoc d))

def TileBody : Prop :=
  ∀ (d : Dev nD) (L : grid0.Coords) (qs qd : PosShare TreeShare) (O : CellTallies nD τ sig (HIx 1)) (W : Waits sig (HIx 1)), (∀ g, O g none = 0) →
    iprop(levAts (K (F := F)).L (K (F := F)).lev
        ∗ ((srcLoc d ↦{qs} m (srcLoc d)) ∗ (dstLoc d ↦{qd} m (dstLoc d)) ∗ (cntLoc d ↦[rowsSet L]{fullShare} m (cntLoc d)))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_edge_histogram L srcV (Memref.isWhole_whole _) dstV (Memref.isWhole_whole _) cntV (Memref.isWhole_whole _)
            s0 (Memref.isWhole_whole _) s1 (Memref.isWhole_whole _) s2 (Memref.isWhole_whole _) s3 (Memref.isWhole_whole _) cc0_scoped0 cc0_scoped1 cc0_scoped2)
          fun _ => (iprop(((srcLoc d ↦{qs} m (srcLoc d)) ∗ (dstLoc d ↦{qd} m (dstLoc d)) ∗ (cntLoc d ↦[rowsSet L]{fullShare} cv d))
            ∗ scopedBufs (V d (cV L) (jV L)) ∗ scopedSems0 (V d (cV L) (jV L))
            ∗ ∃ W', ⌜∀ p ∈ W', p ∈ W ∨ p.2 = none⌝ ∗ owes (V d (cV L) (jV L)) O W') : sProp 𝕄)

theorem defs₀_vector (c : Fin τ.nSC) (s : Fin τ.nSub) :
    defs₀ (F := F) (.scVector c s) 0 ()
      = SparseCore.onTile hcore0 hsub0 (fun c s => cc0__sc_edge_histogram (coordsV c s)
          srcV (Memref.isWhole_whole _) dstV (Memref.isWhole_whole _) cntV (Memref.isWhole_whole _)
          s0 (Memref.isWhole_whole _) s1 (Memref.isWhole_whole _) s2 (Memref.isWhole_whole _) s3 (Memref.isWhole_whole _) cc0_scoped0 cc0_scoped1 cc0_scoped2) ⟨⟩ c s := rfl

omit [FloatOps F] in
theorem obl_pre {A G B : sProp 𝕄} : iprop(A ∗ emp ∗ G ∗ B) ⊢ iprop(A ∗ G ∗ B) := by
  iintro ⟨HA, -, HG, HB⟩
  isplitl [HA]; · iexact HA
  isplitl [HG]; · iexact HG
  iexact HB

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxHeartbeats 400000 in
theorem tileObl (hbody : TileBody m cv) : (K (F := F)).TileObl (D (F := F)) 𝒱 (P m cv) v₀ 0 := by
  intro d c i O W hO _ _
  rw [P_go, P_td, P_x, tileT_eq, tileT_eq]
  simp only [show (P m cv).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  have h := hbody d (coordsV ⟨_, hc.1⟩ ⟨_, hc.2⟩) (qT (Fin.cast nCore_zero c) (Fin.cast nSub_zero i)) (qT (Fin.cast nCore_zero c) (Fin.cast nSub_zero i)) O W hO
  generalize hp : cc0__sc_edge_histogram (F := F) (coordsV ⟨_, hc.1⟩ ⟨_, hc.2⟩) srcV (Memref.isWhole_whole _) dstV (Memref.isWhole_whole _) cntV (Memref.isWhole_whole _)
            s0 (Memref.isWhole_whole _) s1 (Memref.isWhole_whole _) s2 (Memref.isWhole_whole _) s3 (Memref.isWhole_whole _) cc0_scoped0 cc0_scoped1 cc0_scoped2 = prog at h ⊢
  clear hp
  refine obl_pre.trans (BI.Entails.trans h ?_)
  apply wp_mono
  intro _
  exact obl_post

end Cert.Proof.KITileObl

end
-- ==== Proof.KITile.lean ====
import proofs.«206864_g62740882260319_cont_9to1_m_949_20_alg».proof.Proof.KernelIdealCommon
import proofs.«206864_g62740882260319_cont_9to1_m_949_20_alg».proof.Proof.Gen.KernelIdeal.Skeleton
import proofs.«206864_g62740882260319_cont_9to1_m_949_20_alg».proof.Proof.KIHist

noncomputable section

namespace Cert.Proof.KITile

open Cert.KernelIdeal Cert.KernelIdeal.Gen Cert.Proof.KernelIdealCommon

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => 𝕄T F

variable [FloatOps F]

variable (m : (ℓ : Loc nD τ sig) → Buf (Elt F) ℓ)

abbrev srcLoc (d : Dev nD) : Loc nD τ sig := (SparseCore.T d).loc main_arg5
abbrev dstLoc (d : Dev nD) : Loc nD τ sig := (SparseCore.T d).loc main_arg6
abbrev cntLoc (d : Dev nD) : Loc nD τ sig := (SparseCore.T d).loc main_v0

abbrev srcV : Memref sig .scVector .hbm S1024 .i32 := Memref.whole main_arg5_scv
abbrev dstV : Memref sig .scVector .hbm S1024 .i32 := Memref.whole main_arg6_scv
abbrev cntV : Memref sig .scVector .hbm S128x128 .f32 := Memref.whole main_v0_scv
abbrev s0 : Memref sig .scVector .vmem S1024 .i32 := Memref.whole cc0_scratch0
abbrev s1 : Memref sig .scVector .vmem S1024 .i32 := Memref.whole cc0_scratch1
abbrev s2 : Memref sig .scVector .vmem S8192 .f32 := Memref.whole cc0_scratch2
abbrev s3 : Memref sig .scVector .vmem S4x128 .f32 := Memref.whole cc0_scratch3

abbrev cV (L : grid0.Coords) : Fin τ.nSC := (L 0).castLE hcore0
abbrev jV (L : grid0.Coords) : Fin τ.nSub := (L 1).castLE hsub0

abbrev rowsR (L : grid0.Coords) : Rect S128x128 := Rect.unit (s := S128x128) (k0_off1 L) S4x128.size (k0_off1_inb L)
abbrev cntRows (L : grid0.Coords) : Memref sig .scVector .hbm S4x128 .f32 := (cntV).slice (rowsR L) (fun _ => rfl)
abbrev rowsSet (L : grid0.Coords) : Finset S128x128.Idx := (cntRows L).view.set

def PreOK : Prop := ∀ (d : Dev nD) (e : S1024.Idx), (m (srcLoc d) e).toNat < 128 ∧ (m (dstLoc d) e).toNat < 128

section Tile

variable (d : Dev nD) (L : grid0.Coords)

abbrev cA : GSem nD τ sig := (V d (cV L) (jV L), .dma cc0_scoped0.sem)
abbrev cB : GSem nD τ sig := (V d (cV L) (jV L), .dma cc0_scoped1.sem)
abbrev cC : GSem nD τ sig := (V d (cV L) (jV L), .dma cc0_scoped2.sem)

omit [FloatOps F] in
theorem ownSems0_V :
    (ownSems0 (V d (cV L) (jV L)) : sProp 𝕄)
      = iprop(semVal (cA d L) 0 ∗ semVal (cB d L) 0 ∗ semVal (cC d L) 0
          ∗ bigSep ((((ownCells (V d (cV L) (jV L))).erase (cA d L)).erase (cB d L)).erase (cC d L)) fun g => semVal g 0) := by
  unfold SparseCore.Cfg.ownSems0
  rw [SparseCore.bigSep_erase' ((mem_ownCells (g := cA d L)).mpr ⟨rfl, by
      show (SemLoc.dma cc0_scoped0.sem : SemLoc sig).isScoped .scVector = true; decide⟩),
    SparseCore.bigSep_erase' (Finset.mem_erase.mpr ⟨by simp [cA, cB]; decide, (mem_ownCells (g := cB d L)).mpr ⟨rfl, by
      show (SemLoc.dma cc0_scoped1.sem : SemLoc sig).isScoped .scVector = true; decide⟩⟩),
    SparseCore.bigSep_erase' (Finset.mem_erase.mpr ⟨by simp [cB, cC]; decide, Finset.mem_erase.mpr ⟨by simp [cA, cC]; decide,
      (mem_ownCells (g := cC d L)).mpr ⟨rfl, by show (SemLoc.dma cc0_scoped2.sem : SemLoc sig).isScoped .scVector = true; decide⟩⟩⟩)]

abbrev pV : Proc τ := Proc.scVector (cV L) (jV L)

omit [FloatOps F] in
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f) ∗ (∃ f, (V d (cV L) (jV L)).loc cc0_scratch3 ↦{fullShare} f)
          ∗ bigSep (((((ownRefs (τ := τ) (.scVector (cV L) (jV L))).erase ((pV L).devRef cc0_scratch0)).erase
              ((pV L).devRef cc0_scratch1)).erase ((pV L).devRef cc0_scratch2)).erase ((pV L).devRef cc0_scratch3))
              fun b => iprop(∃ f, ((d, b) : Loc nD τ sig) ↦{fullShare} f)) := by
  unfold SparseCore.Cfg.ownBufs
  refine (SparseCore.bigSep_erase' (SparseCore.Cfg.mem_ownRefs_of_owner (p := pV L) (b := (pV L).devRef cc0_scratch0) rfl)).trans ?_
  rw [SparseCore.bigSep_erase' (Finset.mem_erase.mpr ⟨fun e => absurd (Proc.devRef_injective _ e) (show (cc0_scratch1 : Ref sig .scVector) ≠ cc0_scratch0 by decide),
      SparseCore.Cfg.mem_ownRefs_of_owner (p := pV L) (b := (pV L).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
      SparseCore.Cfg.mem_ownRefs_of_owner (p := pV L) (b := (pV L).devRef cc0_scratch2) rfl⟩⟩),
    SparseCore.bigSep_erase' (Finset.mem_erase.mpr ⟨fun e => absurd (Proc.devRef_injective _ e) (show (cc0_scratch3 : Ref sig .scVector) ≠ cc0_scratch2 by decide),
      Finset.mem_erase.mpr ⟨fun e => absurd (Proc.devRef_injective _ e) (show (cc0_scratch3 : Ref sig .scVector) ≠ cc0_scratch1 by decide),
      Finset.mem_erase.mpr ⟨fun e => absurd (Proc.devRef_injective _ e) (show (cc0_scratch3 : Ref sig .scVector) ≠ cc0_scratch0 by decide),
      SparseCore.Cfg.mem_ownRefs_of_owner (p := pV L) (b := (pV L).devRef cc0_scratch3) rfl⟩⟩⟩)]

omit [FloatOps F] in
theorem pts_src (q : PosShare TreeShare) (f : Buf (Elt F) (srcLoc d)) :
    ((srcV).view.loc (V d (cV L) (jV L)) ↦{q} f : sProp 𝕄) = srcLoc d ↦{q} f := rfl
omit [FloatOps F] in
theorem pts_dst (q : PosShare TreeShare) (f : Buf (Elt F) (dstLoc d)) :
    ((dstV).view.loc (V d (cV L) (jV L)) ↦{q} f : sProp 𝕄) = dstLoc d ↦{q} f := rfl
omit [FloatOps F] in
theorem pts_rows (f : Buf (Elt F) (cntLoc d)) :
    ((cntRows L).view.loc (V d (cV L) (jV L)) ↦[(cntRows L).view.set]{fullShare} f : sProp 𝕄) = cntLoc d ↦[rowsSet L]{fullShare} f := rfl

omit [FloatOps F] in
theorem pts_s0 (f : Buf (Elt F) ((V d (cV L) (jV L)).loc cc0_scratch0)) :
    ((s0).view.loc (V d (cV L) (jV L)) ↦{fullShare} f : sProp 𝕄) = (V d (cV L) (jV L)).loc cc0_scratch0 ↦{fullShare} f := rfl
omit [FloatOps F] in
theorem pts_s1 (f : Buf (Elt F) ((V d (cV L) (jV L)).loc cc0_scratch1)) :
    ((s1).view.loc (V d (cV L) (jV L)) ↦{fullShare} f : sProp 𝕄) = (V d (cV L) (jV L)).loc cc0_scratch1 ↦{fullShare} f := rfl
omit [FloatOps F] in
theorem pts_s2 (f : Buf (Elt F) ((V d (cV L) (jV L)).loc cc0_scratch2)) :
    ((s2).view.loc (V d (cV L) (jV L)) ↦{fullShare} f : sProp 𝕄) = (V d (cV L) (jV L)).loc cc0_scratch2 ↦{fullShare} f := rfl
omit [FloatOps F] in
theorem pts_s3 (f : Buf (Elt F) ((V d (cV L) (jV L)).loc cc0_scratch3)) :
    ((s3).view.loc (V d (cV L) (jV L)) ↦{fullShare} f : sProp 𝕄) = (V d (cV L) (jV L)).loc cc0_scratch3 ↦{fullShare} f := rfl

abbrev loL (L : grid0.Coords) : BitVec 32 :=
  Scalar.muli (Scalar.addi (Scalar.muli (BitVec.ofNat 32 (L 1).val) 2#32) (BitVec.ofNat 32 (L 0).val)) 4#32

theorem loL_le (L : grid0.Coords) : (loL L).toNat + 4 ≤ 128 := by
  have hc : (L 0).val < 2 := (L 0).isLt
  have hs : (L 1).val < 16 := (L 1).isLt
  rw [show loL L = KIHist.loW ((L 1).val * 2 + (L 0).val) from KIHist.lo_eq _ _ hc hs, KIHist.loW_toNat _ (by omega)]
  omega

omit [FloatOps F] in
theorem read_src_lt (hpre : PreOK m) (f0 : Buf (Elt F) ((V d (cV L) (jV L)).loc cc0_scratch0))
    (off : Fin 1 → Nat) (h : ∀ a, off a + S16.size a ≤ S1024.size a) (x : S16.Idx) :
    (View.readAt (Elt F) (s0).view (Rect.unit (s := S1024) off S16.size h).toLoadRect (View.write (Elt F) (s0).view f0
      (ReadAs.same.apply (View.read (Elt F) (srcV).view (m (srcLoc d)))) Finset.univ) x).toNat < 128 := by
  rw [View.readAt_apply, View.read_write_univ]
  exact (hpre d _).1

omit [FloatOps F] in
theorem read_dst_lt (hpre : PreOK m) (f1 : Buf (Elt F) ((V d (cV L) (jV L)).loc cc0_scratch1))
    (off : Fin 1 → Nat) (h : ∀ a, off a + S16.size a ≤ S1024.size a) (x : S16.Idx) :
    (View.readAt (Elt F) (s1).view (Rect.unit (s := S1024) off S16.size h).toLoadRect (View.write (Elt F) (s1).view f1
      (ReadAs.same.apply (View.read (Elt F) (dstV).view (m (dstLoc d)))) Finset.univ) x).toNat < 128 := by
  rw [View.readAt_apply, View.read_write_univ]
  exact (hpre d _).2

end Tile

end Cert.Proof.KITile

end
-- ==== Proof.KIChain.lean ====
import proofs.«206864_g62740882260319_cont_9to1_m_949_20_alg».proof.Proof.Gen.KernelIdeal.Skeleton
import proofs.«206864_g62740882260319_cont_9to1_m_949_20_alg».proof.Proof.KIHist
import Idealize.ShloMosaic.Lib.Writes
import Idealize.ShloMosaic.Lib.Exec.Geometry

noncomputable section

namespace Cert.Proof.KIChain

open Cert.KernelIdeal Cert.KernelIdeal.Gen Cert.Proof Idealize.ShloMosaic

theorem readCov_whole_head {sg : RefSig} {κ : Kind} {sp : Space} {s : Shape} {e : EltTy} {Val : EltTy → Type} [∀ e, Nonempty (Val e)]
    (v : View sg κ sp s e) (A : (Rect.whole s).shape.Idx → Val e) (rest : List (View.Piece Val s e)) :
    v.readCov (⟨Rect.whole s, A⟩ :: rest) (LoadRect.whole s) = A := by
  funext x
  exact View.read_writes_cons_emb v v.junk (Rect.whole s) A rest x

variable {F : FTy → Type} [FloatOps F]

theorem step_last' (lo : BitVec 32) (src dst : IVec S1024 32) (k : ℕ) (hk : k < 64)
    (A : Vec F S8192 .f32) (hA : A = KIHist.accAfter F lo src dst k)
    (s16 d16 : IVec S16 32) (hs : s16 = KIHist.chunkOf src ⟨k, hk⟩) (hd : d16 = KIHist.chunkOf dst ⟨k, hk⟩)
    (idx : IVec S16 32) (hidx : idx = KIHist.chunkIdx lo KIHist.lanes s16 d16)
    (mask : IVec S16 1) (hmask : mask = KIHist.chunkMask lo d16) (h : KIHist.InRange idx) :
    storeIdx A ![idx] (k0_pay3 (F := F)) mask true h = KIHist.accAfter F lo src dst (k + 1) := by
  subst hidx hmask hs hd hA
  exact (KIHist.accAfter_succ lo src dst k hk h).symm

-- A masked indexed add over the accumulator after k chunks, read back whole, is the accumulator after k + 1.
theorem step_cov {sg : RefSig} {κ : Kind} {sp : Space} (v : View sg κ sp S8192 .f32) (lo : BitVec 32) (src dst : IVec S1024 32) (k : ℕ) (hk : k < 64)
    (A : Vec F S8192 .f32) (hA : A = KIHist.accAfter F lo src dst k)
    (s16 d16 : IVec S16 32) (hs : s16 = KIHist.chunkOf src ⟨k, hk⟩) (hd : d16 = KIHist.chunkOf dst ⟨k, hk⟩)
    (idx : IVec S16 32) (hidx : idx = KIHist.chunkIdx lo KIHist.lanes s16 d16)
    (mask : IVec S16 1) (hmask : mask = KIHist.chunkMask lo d16) (h : KIHist.InRange idx)
    (rest : List (View.Piece (Elt F) S8192 .f32)) :
    v.readCov (⟨Rect.whole S8192, storeIdx A ![idx] (k0_pay3 (F := F)) mask true h⟩ :: rest) (LoadRect.whole S8192)
      = KIHist.accAfter F lo src dst (k + 1) := by
  rw [readCov_whole_head]
  exact step_last' lo src dst k hk A hA s16 d16 hs hd idx hidx mask hmask h

end Cert.Proof.KIChain

end
-- ==== Proof.KIZero.lean ====
import proofs.«206864_g62740882260319_cont_9to1_m_949_20_alg».proof.Proof.Gen.KernelIdeal.Skeleton
import proofs.«206864_g62740882260319_cont_9to1_m_949_20_alg».proof.Proof.KIHist
import Idealize.ShloMosaic.Lib.Writes
import Idealize.ShloMosaic.Lib.Exec.Geometry

noncomputable section

namespace Cert.Proof.KIZero

open Idealize.ShloMosaic

variable {sig : RefSig} {κ : Kind} {sp : Space} {s : Shape} {e : EltTy} {Val : EltTy → Type}

theorem readAt_const (v : View sig κ sp s e) (f : v.ty.Contents Val) (z : Val e) (L : List (View.Piece Val s e)) (B : LoadRect s)
    (hp : ∀ p ∈ L, ∀ x : p.1.shape.Idx, p.2 x = z) (hc : ∀ j : B.shape.Idx, ∃ p ∈ L, B.idx j ∈ p.1.set) :
    v.readAt Val B (v.writes Val f L) = fun _ => z :=
  funext fun j => View.read_writes_apply_of_pieces v f (fun _ => z) L (fun p hm x => hp p hm x) (B.idx j) (hc j)

theorem readCov_const [∀ e, Nonempty (Val e)] (v : View sig κ sp s e) (z : Val e) (L : List (View.Piece Val s e)) (B : LoadRect s)
    (hp : ∀ p ∈ L, ∀ x : p.1.shape.Idx, p.2 x = z) (hc : ∀ j : B.shape.Idx, ∃ p ∈ L, B.idx j ∈ p.1.set) :
    v.readCov L B = fun _ => z :=
  readAt_const v v.junk z L B hp hc

-- Unit-stride pieces of one length that start at every multiple of it cover a rank-one shape.
theorem cover_rank1 {N n b : ℕ} (hb : 0 < b) (hN : N = n * b) (L : List (View.Piece Val (⟨1, ![N]⟩ : Shape) e))
    (hsz : ∀ p ∈ L, p.1.size 0 = b ∧ p.1.stride 0 = 1)
    (hoff : ∀ i < n, ∃ p ∈ L, p.1.off 0 = i * b) :
    ∀ y : (⟨1, ![N]⟩ : Shape).Idx, ∃ p ∈ L, y ∈ p.1.set := by
  intro y
  have hy : (y 0).val < N := (y 0).isLt
  have hi : (y 0).val / b < n := by
    rw [Nat.div_lt_iff_lt_mul hb]; omega
  obtain ⟨p, hp, ho⟩ := hoff _ hi
  obtain ⟨hs, hst⟩ := hsz p hp
  refine ⟨p, hp, p.1.mem_set.mpr (Fin.forall_fin_one.mpr ⟨(y 0).val % b, ?_, ?_⟩)⟩
  · rw [hs]; exact Nat.mod_lt _ hb
  · rw [ho, hst, Nat.one_mul]; exact (Nat.div_add_mod' _ _).symm

section Acc

open Cert.KernelIdeal Cert.KernelIdeal.Gen Idealize.ShloMosaic.ValueIdx

variable {sig' : RefSig} {κ' : Kind} {sp' : Space} {F : FTy → Type} [FloatOps F]

def mk (o : ℕ) (h : o + 16 ≤ 8192) : View.Piece (Elt F) S8192 .f32 :=
  ⟨Rect.unit (s := S8192) ![o] S16.size (Rect.inb₁ (d := ![8192]) (off := ![o]) (size := ![16]) h), k0_pay2⟩

def offs : List ℕ := [
    8176, 8160, 8144, 8128, 8112, 8096, 8080, 8064, 8048, 8032, 8016, 8000, 7984, 7968, 7952, 7936, 7920, 7904, 7888, 7872, 7856, 7840, 7824, 7808, 7792, 7776, 7760, 7744, 7728, 7712, 7696, 7680,
    7664, 7648, 7632, 7616, 7600, 7584, 7568, 7552, 7536, 7520, 7504, 7488, 7472, 7456, 7440, 7424, 7408, 7392, 7376, 7360, 7344, 7328, 7312, 7296, 7280, 7264, 7248, 7232, 7216, 7200, 7184, 7168,
    7152, 7136, 7120, 7104, 7088, 7072, 7056, 7040, 7024, 7008, 6992, 6976, 6960, 6944, 6928, 6912, 6896, 6880, 6864, 6848, 6832, 6816, 6800, 6784, 6768, 6752, 6736, 6720, 6704, 6688, 6672, 6656,
    6640, 6624, 6608, 6592, 6576, 6560, 6544, 6528, 6512, 6496, 6480, 6464, 6448, 6432, 6416, 6400, 6384, 6368, 6352, 6336, 6320, 6304, 6288, 6272, 6256, 6240, 6224, 6208, 6192, 6176, 6160, 6144,
    6128, 6112, 6096, 6080, 6064, 6048, 6032, 6016, 6000, 5984, 5968, 5952, 5936, 5920, 5904, 5888, 5872, 5856, 5840, 5824, 5808, 5792, 5776, 5760, 5744, 5728, 5712, 5696, 5680, 5664, 5648, 5632,
    5616, 5600, 5584, 5568, 5552, 5536, 5520, 5504, 5488, 5472, 5456, 5440, 5424, 5408, 5392, 5376, 5360, 5344, 5328, 5312, 5296, 5280, 5264, 5248, 5232, 5216, 5200, 5184, 5168, 5152, 5136, 5120,
    5104, 5088, 5072, 5056, 5040, 5024, 5008, 4992, 4976, 4960, 4944, 4928, 4912, 4896, 4880, 4864, 4848, 4832, 4816, 4800, 4784, 4768, 4752, 4736, 4720, 4704, 4688, 4672, 4656, 4640, 4624, 4608,
    4592, 4576, 4560, 4544, 4528, 4512, 4496, 4480, 4464, 4448, 4432, 4416, 4400, 4384, 4368, 4352, 4336, 4320, 4304, 4288, 4272, 4256, 4240, 4224, 4208, 4192, 4176, 4160, 4144, 4128, 4112, 4096,
    4080, 4064, 4048, 4032, 4016, 4000, 3984, 3968, 3952, 3936, 3920, 3904, 3888, 3872, 3856, 3840, 3824, 3808, 3792, 3776, 3760, 3744, 3728, 3712, 3696, 3680, 3664, 3648, 3632, 3616, 3600, 3584,
    3568, 3552, 3536, 3520, 3504, 3488, 3472, 3456, 3440, 3424, 3408, 3392, 3376, 3360, 3344, 3328, 3312, 3296, 3280, 3264, 3248, 3232, 3216, 3200, 3184, 3168, 3152, 3136, 3120, 3104, 3088, 3072,
    3056, 3040, 3024, 3008, 2992, 2976, 2960, 2944, 2928, 2912, 2896, 2880, 2864, 2848, 2832, 2816, 2800, 2784, 2768, 2752, 2736, 2720, 2704, 2688, 2672, 2656, 2640, 2624, 2608, 2592, 2576, 2560,
    2544, 2528, 2512, 2496, 2480, 2464, 2448, 2432, 2416, 2400, 2384, 2368, 2352, 2336, 2320, 2304, 2288, 2272, 2256, 2240, 2224, 2208, 2192, 2176, 2160, 2144, 2128, 2112, 2096, 2080, 2064, 2048,
    2032, 2016, 2000, 1984, 1968, 1952, 1936, 1920, 1904, 1888, 1872, 1856, 1840, 1824, 1808, 1792, 1776, 1760, 1744, 1728, 1712, 1696, 1680, 1664, 1648, 1632, 1616, 1600, 1584, 1568, 1552, 1536,
    1520, 1504, 1488, 1472, 1456, 1440, 1424, 1408, 1392, 1376, 1360, 1344, 1328, 1312, 1296, 1280, 1264, 1248, 1232, 1216, 1200, 1184, 1168, 1152, 1136, 1120, 1104, 1088, 1072, 1056, 1040, 1024,
    1008, 992, 976, 960, 944, 928, 912, 896, 880, 864, 848, 832, 816, 800, 784, 768, 752, 736, 720, 704, 688, 672, 656, 640, 624, 608, 592, 576, 560, 544, 528, 512,
    496, 480, 464, 448, 432, 416, 400, 384, 368, 352, 336, 320, 304, 288, 272, 256, 240, 224, 208, 192, 176, 160, 144, 128, 112, 96, 80, 64, 48, 32, 16, 0]

theorem offs_eq : offs = (List.range 512).reverse.map (· * 16) := by decide
theorem offs_le : ∀ o ∈ offs, o + 16 ≤ 8192 := by
  rw [offs_eq]
  intro o ho
  obtain ⟨i, hi, rfl⟩ := List.mem_map.mp ho
  have := List.mem_range.mp (List.mem_reverse.mp hi)
  omega

theorem mk_payload (o : ℕ) (h : o + 16 ≤ 8192) (x : (mk (F := F) o h).1.shape.Idx) :
    (mk (F := F) o h).2 x = Scalar.ofBits .f32 0x00000000#32 := rfl

-- After stores of sixteen zeros at every multiple of 16, the whole accumulator reads zero.
theorem zero512 [∀ e, Nonempty (Elt F e)] (v : View sig' κ' sp' S8192 .f32) (Z : List (View.Piece (Elt F) S8192 .f32))
    (hZ : Z = List.pmap (mk (F := F)) offs offs_le) :
    v.readCov Z (LoadRect.whole S8192) = fun _ => Scalar.ofBits .f32 0x00000000#32 := by
  subst hZ
  refine readCov_const v _ _ (LoadRect.whole S8192) ?_ ?_
  · intro p hp x
    obtain ⟨o, ho, rfl⟩ := List.mem_pmap.mp hp
    exact mk_payload o _ x
  · have hc := cover_rank1 (Val := Elt F) (e := .f32) (N := 8192) (n := 512) (b := 16) (by decide) (by decide)
      (List.pmap (mk (F := F)) offs offs_le)
      (fun p hp => by
        obtain ⟨o, ho, rfl⟩ := List.mem_pmap.mp hp
        exact ⟨rfl, rfl⟩)
      (fun i hi => by
        have hm : i * 16 ∈ offs := by
          rw [offs_eq]
          exact List.mem_map.mpr ⟨i, List.mem_reverse.mpr (List.mem_range.mpr hi), rfl⟩
        exact ⟨mk (i * 16) (offs_le _ hm), List.mem_pmap.mpr ⟨i * 16, hm, rfl⟩, rfl⟩)
    intro j
    exact hc ((LoadRect.whole S8192).idx j)

end Acc

end Cert.Proof.KIZero

end
-- ==== Proof.KIBlock.lean ====
import proofs.«206864_g62740882260319_cont_9to1_m_949_20_alg».proof.Proof.Gen.KernelIdeal.Skeleton
import proofs.«206864_g62740882260319_cont_9to1_m_949_20_alg».proof.Proof.KIHist
import Idealize.ShloMosaic.Lib.Pipeline.Value
import Idealize.ShloMosaic.Lib.Writes
import Idealize.ShloMosaic.Lib.Exec.Geometry
import Idealize.ShloMosaic.Lib.ValueIdx

noncomputable section

namespace Cert.Proof.KIBlock

open Cert.KernelIdeal Cert.Proof Idealize.ShloMosaic Idealize.ShloMosaic.ValueIdx

theorem shapeCast_row {α : Type} (u : S16.Idx → α) (h : S16.ShapeCasts S1x16) (x : S1x16.Idx) :
    shapeCast S1x16 u h x = u (ix1 (x 1)) :=
  shapeCast_apply u h x (ix1 (x 1)) (by
    rw [Shape.rowMajor_val_one, Shape.rowMajor_val_two]
    have h0 : (x 0).val < 1 := (x 0).isLt
    show (x 1).val = (x 0).val * 16 + (x 1).val
    omega)

theorem block_emb (r c0 : ℕ) (inb : ∀ a, (![r, c0] : Fin 2 → ℕ) a + S1x16.size a ≤ S4x128.size a) (x : S1x16.Idx) :
    (Rect.unit (s := S4x128) ![r, c0] S1x16.size inb).emb x
      = ix2 (⟨r, by have h0 : r + 1 ≤ 4 := inb 0; omega⟩ : Fin 4)
          (⟨c0 + (x 1).val, by have h1 : c0 + 16 ≤ 128 := inb 1; have hx : (x 1).val < 16 := (x 1).isLt; omega⟩ : Fin 128) := by
  funext a
  refine Fin.ext ?_
  match a with
  | ⟨0, _⟩ =>
    have h0 : (x 0).val < 1 := (x 0).isLt
    show r + 1 * (x 0).val = r
    omega
  | ⟨1, _⟩ =>
    show c0 + 1 * (x 1).val = c0 + (x 1).val
    omega

variable {F : FTy → Type} [FloatOps F]

def rowsOf (acc : Vec F S8192 .f32) : Vec F S4x128 .f32 :=
  fun i => KIHist.laneSum F acc
    ⟨(i 0).val * 8 + (i 1).val / 16, by
      have h0 := (i 0).isLt; have h1 := (i 1).isLt
      simp only [Matrix.cons_val_zero, Matrix.cons_val_one] at h0 h1; omega⟩
    (ix1 ⟨(i 1).val % 16, Nat.mod_lt _ (by decide)⟩)

theorem tileRows_eq_rowsOf (lo : BitVec 32) (src dst : IVec S1024 32) :
    KIHist.tileRows F lo src dst = rowsOf (KIHist.accAfter F lo src dst 64) := rfl

-- The block at row r, columns 16 q … 16 q + 15 of the rows is lane sum 8 r + q.
theorem block_read (acc : Vec F S8192 .f32) (r q : ℕ) (hr : r < 4) (hq : q < 8)
    (inb : ∀ a, (![r, 16 * q] : Fin 2 → ℕ) a + S1x16.size a ≤ S4x128.size a) (h : S16.ShapeCasts S1x16)
    (x : S1x16.Idx) :
    shapeCast S1x16 (KIHist.laneSum F acc ⟨8 * r + q, by omega⟩) h x
      = rowsOf acc ((Rect.unit (s := S4x128) ![r, 16 * q] S1x16.size inb).emb x) := by
  rw [shapeCast_row, block_emb]
  have hx : (x 1).val < 16 := (x 1).isLt
  unfold rowsOf
  have e1 : (⟨8 * r + q, by omega⟩ : Fin 32) = ⟨r * 8 + (16 * q + (x 1).val) / 16, by omega⟩ := Fin.ext (by
    show 8 * r + q = r * 8 + (16 * q + (x 1).val) / 16; omega)
  have e2 : (x 1 : Fin 16) = ⟨(16 * q + (x 1).val) % 16, Nat.mod_lt _ (by decide)⟩ := Fin.ext (by
    show (x 1).val = (16 * q + (x 1).val) % 16; omega)
  show KIHist.laneSum F acc ⟨8 * r + q, _⟩ (ix1 (x 1))
    = KIHist.laneSum F acc ⟨r * 8 + (16 * q + (x 1).val) / 16, _⟩ (ix1 ⟨(16 * q + (x 1).val) % 16, _⟩)
  rw [← e1]
  exact congrArg (fun t : Fin 16 => KIHist.laneSum F acc ⟨8 * r + q, by omega⟩ (ix1 t)) e2

theorem readAt_whole_slice {sig : RefSig} {κ : Kind} {sp : Space} (v : View sig κ sp S8192 .f32) (f : v.ty.Contents (Elt F))
    (acc : Vec F S8192 .f32) (rest : List (View.Piece (Elt F) S8192 .f32)) (off : ℕ) (h : off + 16 ≤ 8192)
    (inb : ∀ a, (![off] : Fin 1 → ℕ) a + S16.size a ≤ S8192.size a) :
    v.readAt (Elt F) (Rect.unit (s := S8192) ![off] S16.size inb).toLoadRect
        (v.writes (Elt F) f (⟨Rect.whole S8192, acc⟩ :: rest))
      = KIHist.accSlice acc off h := by
  funext x
  have hx : (x 0).val < 16 := (x 0).isLt
  have e : (Rect.unit (s := S8192) ![off] S16.size inb).toLoadRect.idx x
      = (Rect.whole S8192).emb (ix1 (⟨off + (x 0).val, by omega⟩ : Fin 8192)) := by
    rw [Rect.emb_whole_apply]
    funext a
    refine Fin.ext ?_
    match a with
    | ⟨0, _⟩ =>
      show off + 1 * (x 0).val = off + (x 0).val
      omega
  rw [View.readAt_apply, e, View.read_writes_cons_emb]
  rfl

theorem readCov_slice_head [∀ e, Nonempty (Elt F e)] {sig : RefSig} {κ : Kind} {sp : Space} (v : View sig κ sp S8192 .f32)
    (A : Vec F S8192 .f32) (rest : List (View.Piece (Elt F) S8192 .f32)) (off : ℕ)
    (inb : ∀ a, (![off] : Fin 1 → ℕ) a + S16.size a ≤ S8192.size a) :
    v.readCov (⟨Rect.whole S8192, A⟩ :: rest) (Rect.unit (s := S8192) ![off] S16.size inb).toLoadRect
      = KIHist.accSlice A off (inb 0) :=
  readAt_whole_slice v v.junk A rest off (inb 0) inb

theorem cover_blocks {e : EltTy} {Val : EltTy → Type} (L : List (View.Piece Val S4x128 e))
    (hsz : ∀ p ∈ L, p.1.size 0 = 1 ∧ p.1.size 1 = 16 ∧ p.1.stride 0 = 1 ∧ p.1.stride 1 = 1)
    (hoff : ∀ r < 4, ∀ q < 8, ∃ p ∈ L, p.1.off 0 = r ∧ p.1.off 1 = 16 * q) :
    ∀ y : S4x128.Idx, ∃ p ∈ L, y ∈ p.1.set := by
  intro y
  have h0 : (y 0).val < 4 := (y 0).isLt
  have h1 : (y 1).val < 128 := (y 1).isLt
  obtain ⟨p, hp, ho0, ho1⟩ := hoff (y 0).val h0 ((y 1).val / 16) (by omega)
  obtain ⟨hs0, hs1, ht0, ht1⟩ := hsz p hp
  refine ⟨p, hp, p.1.mem_set.mpr fun a => ?_⟩
  match a with
  | ⟨0, _⟩ =>
    refine ⟨0, ?_, ?_⟩
    · show 0 < p.1.size 0; omega
    · show (y 0).val = p.1.off 0 + p.1.stride 0 * 0; omega
  | ⟨1, _⟩ =>
    refine ⟨(y 1).val % 16, ?_, ?_⟩
    · show (y 1).val % 16 < p.1.size 1; omega
    · show (y 1).val = p.1.off 1 + p.1.stride 1 * ((y 1).val % 16); rw [ho1, ht1]; omega

theorem hoff_of_mem {e : EltTy} {Val : EltTy → Type} (L : List (View.Piece Val S4x128 e))
    (h : ∀ r < 4, ∀ q < 8, (r, 16 * q) ∈ L.map (fun p : View.Piece Val S4x128 e => (p.1.off 0, p.1.off 1))) :
    ∀ r < 4, ∀ q < 8, ∃ p ∈ L, p.1.off 0 = r ∧ p.1.off 1 = 16 * q := fun r hr q hq => by
  obtain ⟨p, hp, e'⟩ := List.mem_map.mp (h r hr q hq)
  exact ⟨p, hp, congrArg Prod.fst e', congrArg Prod.snd e'⟩

end Cert.Proof.KIBlock

end
-- ==== Proof.KIPieces.lean ====
import proofs.«206864_g62740882260319_cont_9to1_m_949_20_alg».proof.Proof.Gen.KernelIdeal.Skeleton
import proofs.«206864_g62740882260319_cont_9to1_m_949_20_alg».proof.Proof.KIBlock

noncomputable section

namespace Cert.Proof.KIPieces

open Cert.KernelIdeal Cert.KernelIdeal.Gen Cert.Proof Cert.Proof.KIBlock Idealize.ShloMosaic

variable {F : FTy → Type} [FloatOps F] [∀ e, Nonempty (Elt F e)]
variable {sig : RefSig} {κ : Kind} {sp : Space} (v : View sig κ sp S8192 .f32) (A : Vec F S8192 .f32)
  (rest : List (View.Piece (Elt F) S8192 .f32))

abbrev ldAt (off : ℕ) (inb : ∀ a, (![off] : Fin 1 → ℕ) a + S16.size a ≤ S8192.size a) : Vec F S16 .f32 :=
  v.readCov (⟨Rect.whole S8192, A⟩ :: rest) (Rect.unit (s := S8192) ![off] S16.size inb).toLoadRect

theorem ldAt_eq (off : ℕ) (inb : ∀ a, (![off] : Fin 1 → ℕ) a + S16.size a ≤ S8192.size a) :
    ldAt v A rest off inb = KIHist.accSlice A off (inb 0) := readCov_slice_head v A rest off inb

theorem ldAt_inb (l : Fin 16) (c : ℕ) (hc : c < 32) : ∀ a, (![l.val * 512 + c * 16] : Fin 1 → ℕ) a + S16.size a ≤ S8192.size a :=
  Rect.inb₁ (d := ![8192]) (off := ![l.val * 512 + c * 16]) (size := ![16]) (show l.val * 512 + c * 16 + 16 ≤ 8192 by have := l.isLt; omega)

-- Block 8 r + q is the left fold of the sixteen lanes' words, the lane sum the rows hold at row r, columns 16 q … 16 q + 15.
theorem piece (r q : ℕ) (hr : r < 4) (hq : q < 8) (inb : ∀ a, (![r, 16 * q] : Fin 2 → ℕ) a + S1x16.size a ≤ S4x128.size a)
    (B : Vec F S8192 .f32) (hAB : A = B) (x : S1x16.Idx) :
    shapeCast S1x16 (KIHist.fold16 k0_pay2 fun l : Fin 16 => ldAt v A rest (l.val * 512 + (8 * r + q) * 16) (ldAt_inb l (8 * r + q) (by omega)))
        shapeCasts_S16_S1x16 x
      = rowsOf B ((Rect.unit (s := S4x128) ![r, 16 * q] S1x16.size inb).emb x) := by
  subst hAB
  refine Eq.trans (congrArg (fun u => shapeCast S1x16 u shapeCasts_S16_S1x16 x) ?_) (block_read A r q hr hq inb shapeCasts_S16_S1x16 x)
  simp only [ldAt_eq]
  rfl

def R32 : List (Rect S4x128) := [
  Rect.unit (s := S4x128) ![3, 112] S1x16.size inb_S4x128_S1x16_3_112,
  Rect.unit (s := S4x128) ![3, 96] S1x16.size inb_S4x128_S1x16_3_96,
  Rect.unit (s := S4x128) ![3, 80] S1x16.size inb_S4x128_S1x16_3_80,
  Rect.unit (s := S4x128) ![3, 64] S1x16.size inb_S4x128_S1x16_3_64,
  Rect.unit (s := S4x128) ![3, 48] S1x16.size inb_S4x128_S1x16_3_48,
  Rect.unit (s := S4x128) ![3, 32] S1x16.size inb_S4x128_S1x16_3_32,
  Rect.unit (s := S4x128) ![3, 16] S1x16.size inb_S4x128_S1x16_3_16,
  Rect.unit (s := S4x128) ![3, 0] S1x16.size inb_S4x128_S1x16_3_0,
  Rect.unit (s := S4x128) ![2, 112] S1x16.size inb_S4x128_S1x16_2_112,
  Rect.unit (s := S4x128) ![2, 96] S1x16.size inb_S4x128_S1x16_2_96,
  Rect.unit (s := S4x128) ![2, 80] S1x16.size inb_S4x128_S1x16_2_80,
  Rect.unit (s := S4x128) ![2, 64] S1x16.size inb_S4x128_S1x16_2_64,
  Rect.unit (s := S4x128) ![2, 48] S1x16.size inb_S4x128_S1x16_2_48,
  Rect.unit (s := S4x128) ![2, 32] S1x16.size inb_S4x128_S1x16_2_32,
  Rect.unit (s := S4x128) ![2, 16] S1x16.size inb_S4x128_S1x16_2_16,
  Rect.unit (s := S4x128) ![2, 0] S1x16.size inb_S4x128_S1x16_2_0,
  Rect.unit (s := S4x128) ![1, 112] S1x16.size inb_S4x128_S1x16_1_112,
  Rect.unit (s := S4x128) ![1, 96] S1x16.size inb_S4x128_S1x16_1_96,
  Rect.unit (s := S4x128) ![1, 80] S1x16.size inb_S4x128_S1x16_1_80,
  Rect.unit (s := S4x128) ![1, 64] S1x16.size inb_S4x128_S1x16_1_64,
  Rect.unit (s := S4x128) ![1, 48] S1x16.size inb_S4x128_S1x16_1_48,
  Rect.unit (s := S4x128) ![1, 32] S1x16.size inb_S4x128_S1x16_1_32,
  Rect.unit (s := S4x128) ![1, 16] S1x16.size inb_S4x128_S1x16_1_16,
  Rect.unit (s := S4x128) ![1, 0] S1x16.size inb_S4x128_S1x16_1_0,
  Rect.unit (s := S4x128) ![0, 112] S1x16.size inb_S4x128_S1x16_0_112,
  Rect.unit (s := S4x128) ![0, 96] S1x16.size inb_S4x128_S1x16_0_96,
  Rect.unit (s := S4x128) ![0, 80] S1x16.size inb_S4x128_S1x16_0_80,
  Rect.unit (s := S4x128) ![0, 64] S1x16.size inb_S4x128_S1x16_0_64,
  Rect.unit (s := S4x128) ![0, 48] S1x16.size inb_S4x128_S1x16_0_48,
  Rect.unit (s := S4x128) ![0, 32] S1x16.size inb_S4x128_S1x16_0_32,
  Rect.unit (s := S4x128) ![0, 16] S1x16.size inb_S4x128_S1x16_0_16,
  Rect.unit (s := S4x128) ![0, 0] S1x16.size inb_S4x128_S1x16_0_0]

theorem R32_sz : ∀ r ∈ R32, r.size 0 = 1 ∧ r.size 1 = 16 ∧ r.stride 0 = 1 ∧ r.stride 1 = 1 := by decide

theorem R32_off : ∀ r < 4, ∀ q < 8, (r, 16 * q) ∈ R32.map (fun r : Rect S4x128 => (r.off 0, r.off 1)) := by decide

-- Thirty-two blocks of sixteen columns, eight to a row, cover the four rows.
theorem cover32 {e : EltTy} {Val : EltTy → Type} (L : List (View.Piece Val S4x128 e)) (hr : L.map (fun p => p.1) = R32) :
    ∀ y : S4x128.Idx, ∃ p ∈ L, y ∈ p.1.set := by
  refine cover_blocks L (fun p hp => R32_sz p.1 (hr ▸ List.mem_map_of_mem (f := fun p : View.Piece Val S4x128 e => p.1) hp)) (hoff_of_mem L ?_)
  have hm : L.map (fun p : View.Piece Val S4x128 e => (p.1.off 0, p.1.off 1)) = R32.map (fun r : Rect S4x128 => (r.off 0, r.off 1)) := by
    rw [← hr, List.map_map]; rfl
  rw [hm]
  exact R32_off

end Cert.Proof.KIPieces

end
-- ==== Proof.KIFinal.lean ====
import proofs.«206864_g62740882260319_cont_9to1_m_949_20_alg».proof.Proof.KIHist
import proofs.«206864_g62740882260319_cont_9to1_m_949_20_alg».proof.Proof.KIBlock
import Idealize.ShloMosaic.Lib.Writes

noncomputable section

namespace Cert.Proof.KIFinal

open Cert.KernelIdeal Cert.Proof Idealize.ShloMosaic

variable {F : FTy → Type} [FloatOps F]

theorem pieces_nil {s : Shape} {e : EltTy} {Val : EltTy → Type} (G : s.Idx → Val e) :
    ∀ q ∈ ([] : List (View.Piece Val s e)), ∀ x : q.1.shape.Idx, q.2 x = G (q.1.emb x) :=
  fun _ hq => absurd hq List.not_mem_nil

theorem pieces_cons {s : Shape} {e : EltTy} {Val : EltTy → Type} (G : s.Idx → Val e) {p : View.Piece Val s e} {L : List (View.Piece Val s e)}
    (h : ∀ x : p.1.shape.Idx, p.2 x = G (p.1.emb x)) (hL : ∀ q ∈ L, ∀ x : q.1.shape.Idx, q.2 x = G (q.1.emb x)) :
    ∀ q ∈ p :: L, ∀ x : q.1.shape.Idx, q.2 x = G (q.1.emb x) := by
  intro q hq
  rcases List.mem_cons.mp hq with rfl | hq
  · exact h
  · exact hL q hq

-- Pieces that cover the rows and agree with the lane sums make the rows the tile's rows of the count matrix.
theorem block_eq {κ : Kind} {sp : Space} (v3 : View sig κ sp S4x128 .f32) (f3 : v3.ty.Contents (Elt F))
    (L32 : List (View.Piece (Elt F) S4x128 .f32)) (A : Vec F S8192 .f32)
    (hP : ∀ p ∈ L32, ∀ x : p.1.shape.Idx, p.2 x = KIBlock.rowsOf A (p.1.emb x))
    (hC : ∀ y : S4x128.Idx, ∃ p ∈ L32, y ∈ p.1.set)
    (lo : BitVec 32) (src dst : IVec S1024 32) (hA : A = KIHist.accAfter F lo src dst 64) :
    ∀ j, (ReadAs.same : ReadAs (Elt F) S4x128 .f32 S4x128 .f32).apply (v3.read (Elt F) (v3.writes (Elt F) f3 L32)) j
      = KIHist.tileRows F lo src dst j := by
  intro j
  rw [ReadAs.apply_same, View.read_writes_apply_of_pieces v3 f3 (KIBlock.rowsOf A) L32 hP j (hC j), hA, KIBlock.tileRows_eq_rowsOf]

end Cert.Proof.KIFinal

end
-- ==== Proof.KIRows.lean ====
import proofs.«206864_g62740882260319_cont_9to1_m_949_20_alg».proof.Proof.KernelIdealCommon
import proofs.«206864_g62740882260319_cont_9to1_m_949_20_alg».proof.Proof.Gen.KernelIdeal
import proofs.«206864_g62740882260319_cont_9to1_m_949_20_alg».proof.Proof.KIHist
import Idealize.ShloMosaic.Lib.Exec.Geometry

noncomputable section

namespace Cert.Proof.KIRows

open Cert.KernelIdeal Cert.KernelIdeal.Gen Cert.Proof.KernelIdealCommon
open Idealize.ShloMosaic Idealize.ShloMosaic.ValueIdx

variable {F : FTy → Type} [FloatOps F]

abbrev cntLoc (d : Dev nD) : Loc nD τ sig := (SparseCore.T d).loc main_v0
abbrev cntV : Memref sig .scVector .hbm S128x128 .f32 := Memref.whole main_v0_scv
abbrev rowsR (L : grid0.Coords) : Rect S128x128 := Rect.unit (s := S128x128) (k0_off1 L) S4x128.size (k0_off1_inb L)
abbrev cntRows (L : grid0.Coords) : Memref sig .scVector .hbm S4x128 .f32 := (cntV).slice (rowsR L) (fun _ => rfl)
abbrev rowsSet (L : grid0.Coords) : Finset S128x128.Idx := (cntRows L).view.set
abbrev loL (L : grid0.Coords) : BitVec 32 :=
  Scalar.muli (Scalar.addi (Scalar.muli (BitVec.ofNat 32 (L 1).val) 2#32) (BitVec.ofNat 32 (L 0).val)) 4#32

abbrev wid (L : grid0.Coords) : ℕ := (L 1).val * 2 + (L 0).val

theorem wid_lt (L : grid0.Coords) : wid L < 32 := by
  have hc : (L 0).val < 2 := (L 0).isLt
  have hs : (L 1).val < 16 := (L 1).isLt
  show (L 1).val * 2 + (L 0).val < 32
  omega

theorem loL_eq (L : grid0.Coords) : loL L = KIHist.loW (wid L) :=
  KIHist.lo_eq (L 0).val (L 1).val (L 0).isLt (L 1).isLt

theorem emb_rows (L : grid0.Coords) (x : S4x128.Idx) :
    (cntRows L).view.emb x
      = ix2 (⟨4 * wid L + (x 0).val, by have := wid_lt L; have h : (x 0).val < 4 := (x 0).isLt; omega⟩ : Fin 128) (x 1) := by
  have hc : (L 0).val < 2 := (L 0).isLt
  have hs : (L 1).val < 16 := (L 1).isLt
  funext a
  apply Fin.ext
  match a with
  | ⟨0, _⟩ =>
    show k0_off1 L 0 + 1 * (x 0).val = 4 * ((L 1).val * 2 + (L 0).val) + (x 0).val
    rw [k0_off1_eq]
    show 8 * (L 1).val + 4 * (L 0).val + 1 * (x 0).val = _
    omega
  | ⟨1, _⟩ =>
    show k0_off1 L 1 + 1 * (x 1).val = (x 1).val
    rw [k0_off1_eq]
    show 0 + 1 * (x 1).val = _
    omega

theorem write_rows_eq (d : Dev nD) (L : grid0.Coords) (f : Buf (Elt F) (cntLoc d)) (src dst : IVec S1024 32)
    (g : S4x128.Idx → Elt F .f32) (hg : ∀ j, g j = KIHist.tileRows F (loL L) src dst j) :
    ∀ i ∈ rowsSet L, View.write (Elt F) (cntRows L).view f g Finset.univ i = KIHist.cntVal F src dst i := by
  intro i hi
  obtain ⟨x, -, rfl⟩ := Finset.mem_map.1 hi
  rw [View.write_emb_of_mem _ _ (Finset.mem_univ x)]
  show g x = _
  rw [hg x, emb_rows L x, loL_eq L]
  refine Eq.trans ?_ (KIHist.cntVal_rows (F := F) src dst (wid L) (wid_lt L) (x 0) (x 1)).symm
  exact congrArg _ (eq_ix2 x)

theorem writes_rows_eq (d : Dev nD) (L : grid0.Coords) (f : Buf (Elt F) (cntLoc d)) (src dst : IVec S1024 32)
    (g : S4x128.Idx → Elt F .f32) (hg : ∀ j, g j = KIHist.tileRows F (loL L) src dst j) :
    ∀ i ∈ rowsSet L, (cntRows L).view.writes (Elt F) f [⟨Rect.whole S4x128, g⟩] i = KIHist.cntVal F src dst i := by
  intro i hi
  rw [← View.write_univ_eq_writes_whole (cntRows L).view f [] g]
  exact write_rows_eq d L f src dst g hg i hi

end Cert.Proof.KIRows

end
-- ==== Proof.KITileVal.lean ====
import proofs.«206864_g62740882260319_cont_9to1_m_949_20_alg».proof.Proof.KITile
import proofs.«206864_g62740882260319_cont_9to1_m_949_20_alg».proof.Proof.KIHist
import proofs.«206864_g62740882260319_cont_9to1_m_949_20_alg».proof.Proof.KIChain
import proofs.«206864_g62740882260319_cont_9to1_m_949_20_alg».proof.Proof.KIZero
import proofs.«206864_g62740882260319_cont_9to1_m_949_20_alg».proof.Proof.KIBlock
import proofs.«206864_g62740882260319_cont_9to1_m_949_20_alg».proof.Proof.KIPieces
import proofs.«206864_g62740882260319_cont_9to1_m_949_20_alg».proof.Proof.KIFinal
import proofs.«206864_g62740882260319_cont_9to1_m_949_20_alg».proof.Proof.KIRows

noncomputable section

namespace Cert.Proof.KITile

open Cert.KernelIdeal Cert.KernelIdeal.Gen Cert.Proof.KernelIdealCommon

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => 𝕄T F

variable [FloatOps F]

variable (m : (ℓ : Loc nD τ sig) → Buf (Elt F) ℓ)

section Tile

variable (d : Dev nD) (L : grid0.Coords)

abbrev acc (k : ℕ) : Vec F S8192 .f32 := KIHist.accAfter F (loL L) (m (srcLoc d)) (m (dstLoc d)) k

abbrev srcAt (k : ℕ) (h : ∀ a, (![16 * k] : Fin 1 → Nat) a + S16.size a ≤ S1024.size a)
    (f0 : Buf (Elt F) ((V d (cV L) (jV L)).loc cc0_scratch0)) :=
  View.readAt (Elt F) (s0).view (Rect.unit (s := S1024) ![16 * k] S16.size h).toLoadRect
    (View.write (Elt F) (s0).view f0 (ReadAs.same.apply (View.read (Elt F) (srcV).view (m (srcLoc d)))) Finset.univ)

abbrev dstAt (k : ℕ) (h : ∀ a, (![16 * k] : Fin 1 → Nat) a + S16.size a ≤ S1024.size a)
    (f1 : Buf (Elt F) ((V d (cV L) (jV L)).loc cc0_scratch1)) :=
  View.readAt (Elt F) (s1).view (Rect.unit (s := S1024) ![16 * k] S16.size h).toLoadRect
    (View.write (Elt F) (s1).view f1 (ReadAs.same.apply (View.read (Elt F) (dstV).view (m (dstLoc d)))) Finset.univ)

-- Sixteen words read at 16 k from a whole copy of an index array are chunk k of that array.
omit [FloatOps F] in
theorem readAt_write_chunk {sg : RefSig} {κ : Kind} {sp : Space} (v : View sg κ sp S1024 .i32) (f : v.ty.Contents (Elt F))
    (g : IVec S1024 32) (k : ℕ) (hk : k < 64) (h : ∀ a, (![16 * k] : Fin 1 → Nat) a + S16.size a ≤ S1024.size a) :
    View.readAt (Elt F) v (Rect.unit (s := S1024) ![16 * k] S16.size h).toLoadRect (View.write (Elt F) v f g Finset.univ)
      = KIHist.chunkOf g ⟨k, hk⟩ := by
  funext x
  rw [View.readAt_apply, View.read_write_univ]
  show g _ = g _
  congr 1
  funext a
  obtain rfl : a = 0 := Fin.eq_zero a
  apply Fin.ext
  show 16 * k + 1 * (x 0).val = 16 * k + (x 0).val
  omega

-- One chunk's step, at this tile's copies of the two endpoint arrays.
theorem step {sg : RefSig} {κ : Kind} {sp : Space} (v : View sg κ sp S8192 .f32) (k : ℕ) (hk : k < 64)
    (h0 h1 : ∀ a, (![16 * k] : Fin 1 → Nat) a + S16.size a ≤ S1024.size a)
    (f0 : Buf (Elt F) ((V d (cV L) (jV L)).loc cc0_scratch0)) (f1 : Buf (Elt F) ((V d (cV L) (jV L)).loc cc0_scratch1))
    (A : Vec F S8192 .f32) (hA : A = acc m d L k)
    (idx : IVec S16 32) (hidx : idx = KIHist.chunkIdx (loL L) KIHist.lanes (srcAt m d L k h0 f0) (dstAt m d L k h1 f1))
    (mask : IVec S16 1) (hmask : mask = KIHist.chunkMask (loL L) (dstAt m d L k h1 f1)) (h : KIHist.InRange idx)
    (rest : List (View.Piece (Elt F) S8192 .f32)) :
    v.readCov (⟨Rect.whole S8192, storeIdx A ![idx] (k0_pay3 (F := F)) mask true h⟩ :: rest) (LoadRect.whole S8192)
      = acc m d L (k + 1) :=
  KIChain.step_cov v _ _ _ k hk A hA _ _ (readAt_write_chunk _ _ _ k hk h0) (readAt_write_chunk _ _ _ k hk h1) idx hidx mask hmask h rest

abbrev Rows (Q : List (View.Piece (Elt F) S4x128 .f32)) : Prop :=
  ∀ q ∈ Q, ∀ x : q.1.shape.Idx, q.2 x = KIBlock.rowsOf (acc m d L 64) (q.1.emb x)

-- The task leaves in the tile's four rows the number of edges from each source into each of its four destinations.
set_option maxHeartbeats 4000000 in
theorem tile_body (hF : (K (F := F)).Facts) (hpre : PreOK m) (qs qd : PosShare TreeShare)
    (O : CellTallies nD τ sig (HIx 1)) (W : Waits sig (HIx 1)) (hO : ∀ g, O g none = 0) :
    (iprop(levAts (K (F := F)).L (K (F := F)).lev
        ∗ ((srcLoc d ↦{qs} m (srcLoc d)) ∗ (dstLoc d ↦{qd} m (dstLoc d)) ∗ (cntLoc d ↦[rowsSet L]{fullShare} m (cntLoc d)))
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ
          (cc0__sc_edge_histogram L srcV (Memref.isWhole_whole _) dstV (Memref.isWhole_whole _) cntV (Memref.isWhole_whole _)
            s0 (Memref.isWhole_whole _) s1 (Memref.isWhole_whole _) s2 (Memref.isWhole_whole _) s3 (Memref.isWhole_whole _) cc0_scoped0 cc0_scoped1 cc0_scoped2)
          fun _ => iprop(((srcLoc d ↦{qs} m (srcLoc d)) ∗ (dstLoc d ↦{qd} m (dstLoc d))
              ∗ (cntLoc d ↦[rowsSet L]{fullShare} KIHist.cntVal F (m (srcLoc d)) (m (dstLoc d))))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__sc_edge_histogram_eq_skeleton]; unfold cc0__sc_edge_histogram_skel
  rw [(K (F := F)).scopedBufs_V hF d (cV L) (jV L), SparseCore.Cfg.scopedSems0_V (Val := Elt F) d (cV L) (jV L), ownSems0_V, ownBufs_V]
  iintro ⟨#Hlv, ⟨Hsrc, Hdst, Hrows⟩, ⟨⟨%f0, H0⟩, ⟨%f1, H1⟩, ⟨%f2, H2⟩, ⟨%f3, H3⟩, Hbufs⟩, ⟨HsemA, HsemB, HsemC, Hsems⟩, HO⟩
  ihave Hmw := ((K (F := F)).mayWaits_none (thr := V d (cV L) (jV L)) hO) $$ Hlv
  ihave Hsrc' := (Entails.of_eq (pts_src (F := F) d L qs _).symm) $$ Hsrc
  ihave Hdst' := (Entails.of_eq (pts_dst (F := F) d L qd _).symm) $$ Hdst
  ihave Hrows' := (Entails.of_eq (pts_rows (F := F) d L _).symm) $$ Hrows
  ihave H0' := (Entails.of_eq (pts_s0 (F := F) d L _).symm) $$ H0
  ihave H1' := (Entails.of_eq (pts_s1 (F := F) d L _).symm) $$ H1
  ihave H2' := (Entails.of_eq (pts_s2 (F := F) d L _).symm) $$ H2
  ihave H3' := (Entails.of_eq (pts_s3 (F := F) d L _).symm) $$ H3
  iterate 64
    sl_exec_parts (disch := exact KIHist.chunkIdx_inRange' (loL L) (loL_le L) _ _ (read_src_lt m d L hpre _ _ _) (read_dst_lt m d L hpre _ _ _))
    rw [SparseCore.vectorStoreIdx_bind (c := V d (cV L) (jV L))]
  sl_exec_parts
  have hA0 : tile_body.sl.f (F := F) = acc m d L 0 := KIZero.zero512 _ _ rfl
  have hA1 : tile_body.sl.f_1 m d L hpre f0 f1 = acc m d L 1 := step m d L _ 0 (by omega) _ _ f0 f1 _ hA0 _ rfl _ rfl _ _
  have hA2 : tile_body.sl.f_2 m d L hpre f0 f1 = acc m d L 2 := step m d L _ 1 (by omega) _ _ f0 f1 _ hA1 _ rfl _ rfl _ _
  have hA3 : tile_body.sl.f_3 m d L hpre f0 f1 = acc m d L 3 := step m d L _ 2 (by omega) _ _ f0 f1 _ hA2 _ rfl _ rfl _ _
  have hA4 : tile_body.sl.f_4 m d L hpre f0 f1 = acc m d L 4 := step m d L _ 3 (by omega) _ _ f0 f1 _ hA3 _ rfl _ rfl _ _
  have hA5 : tile_body.sl.f_5 m d L hpre f0 f1 = acc m d L 5 := step m d L _ 4 (by omega) _ _ f0 f1 _ hA4 _ rfl _ rfl _ _
  have hA6 : tile_body.sl.f_6 m d L hpre f0 f1 = acc m d L 6 := step m d L _ 5 (by omega) _ _ f0 f1 _ hA5 _ rfl _ rfl _ _
  have hA7 : tile_body.sl.f_7 m d L hpre f0 f1 = acc m d L 7 := step m d L _ 6 (by omega) _ _ f0 f1 _ hA6 _ rfl _ rfl _ _
  have hA8 : tile_body.sl.f_8 m d L hpre f0 f1 = acc m d L 8 := step m d L _ 7 (by omega) _ _ f0 f1 _ hA7 _ rfl _ rfl _ _
  have hA9 : tile_body.sl.f_9 m d L hpre f0 f1 = acc m d L 9 := step m d L _ 8 (by omega) _ _ f0 f1 _ hA8 _ rfl _ rfl _ _
  have hA10 : tile_body.sl.f_10 m d L hpre f0 f1 = acc m d L 10 := step m d L _ 9 (by omega) _ _ f0 f1 _ hA9 _ rfl _ rfl _ _
  have hA11 : tile_body.sl.f_11 m d L hpre f0 f1 = acc m d L 11 := step m d L _ 10 (by omega) _ _ f0 f1 _ hA10 _ rfl _ rfl _ _
  have hA12 : tile_body.sl.f_12 m d L hpre f0 f1 = acc m d L 12 := step m d L _ 11 (by omega) _ _ f0 f1 _ hA11 _ rfl _ rfl _ _
  have hA13 : tile_body.sl.f_13 m d L hpre f0 f1 = acc m d L 13 := step m d L _ 12 (by omega) _ _ f0 f1 _ hA12 _ rfl _ rfl _ _
  have hA14 : tile_body.sl.f_14 m d L hpre f0 f1 = acc m d L 14 := step m d L _ 13 (by omega) _ _ f0 f1 _ hA13 _ rfl _ rfl _ _
  have hA15 : tile_body.sl.f_15 m d L hpre f0 f1 = acc m d L 15 := step m d L _ 14 (by omega) _ _ f0 f1 _ hA14 _ rfl _ rfl _ _
  have hA16 : tile_body.sl.f_16 m d L hpre f0 f1 = acc m d L 16 := step m d L _ 15 (by omega) _ _ f0 f1 _ hA15 _ rfl _ rfl _ _
  have hA17 : tile_body.sl.f_17 m d L hpre f0 f1 = acc m d L 17 := step m d L _ 16 (by omega) _ _ f0 f1 _ hA16 _ rfl _ rfl _ _
  have hA18 : tile_body.sl.f_18 m d L hpre f0 f1 = acc m d L 18 := step m d L _ 17 (by omega) _ _ f0 f1 _ hA17 _ rfl _ rfl _ _
  have hA19 : tile_body.sl.f_19 m d L hpre f0 f1 = acc m d L 19 := step m d L _ 18 (by omega) _ _ f0 f1 _ hA18 _ rfl _ rfl _ _
  have hA20 : tile_body.sl.f_20 m d L hpre f0 f1 = acc m d L 20 := step m d L _ 19 (by omega) _ _ f0 f1 _ hA19 _ rfl _ rfl _ _
  have hA21 : tile_body.sl.f_21 m d L hpre f0 f1 = acc m d L 21 := step m d L _ 20 (by omega) _ _ f0 f1 _ hA20 _ rfl _ rfl _ _
  have hA22 : tile_body.sl.f_22 m d L hpre f0 f1 = acc m d L 22 := step m d L _ 21 (by omega) _ _ f0 f1 _ hA21 _ rfl _ rfl _ _
  have hA23 : tile_body.sl.f_23 m d L hpre f0 f1 = acc m d L 23 := step m d L _ 22 (by omega) _ _ f0 f1 _ hA22 _ rfl _ rfl _ _
  have hA24 : tile_body.sl.f_24 m d L hpre f0 f1 = acc m d L 24 := step m d L _ 23 (by omega) _ _ f0 f1 _ hA23 _ rfl _ rfl _ _
  have hA25 : tile_body.sl.f_25 m d L hpre f0 f1 = acc m d L 25 := step m d L _ 24 (by omega) _ _ f0 f1 _ hA24 _ rfl _ rfl _ _
  have hA26 : tile_body.sl.f_26 m d L hpre f0 f1 = acc m d L 26 := step m d L _ 25 (by omega) _ _ f0 f1 _ hA25 _ rfl _ rfl _ _
  have hA27 : tile_body.sl.f_27 m d L hpre f0 f1 = acc m d L 27 := step m d L _ 26 (by omega) _ _ f0 f1 _ hA26 _ rfl _ rfl _ _
  have hA28 : tile_body.sl.f_28 m d L hpre f0 f1 = acc m d L 28 := step m d L _ 27 (by omega) _ _ f0 f1 _ hA27 _ rfl _ rfl _ _
  have hA29 : tile_body.sl.f_29 m d L hpre f0 f1 = acc m d L 29 := step m d L _ 28 (by omega) _ _ f0 f1 _ hA28 _ rfl _ rfl _ _
  have hA30 : tile_body.sl.f_30 m d L hpre f0 f1 = acc m d L 30 := step m d L _ 29 (by omega) _ _ f0 f1 _ hA29 _ rfl _ rfl _ _
  have hA31 : tile_body.sl.f_31 m d L hpre f0 f1 = acc m d L 31 := step m d L _ 30 (by omega) _ _ f0 f1 _ hA30 _ rfl _ rfl _ _
  have hA32 : tile_body.sl.f_32 m d L hpre f0 f1 = acc m d L 32 := step m d L _ 31 (by omega) _ _ f0 f1 _ hA31 _ rfl _ rfl _ _
  have hA33 : tile_body.sl.f_33 m d L hpre f0 f1 = acc m d L 33 := step m d L _ 32 (by omega) _ _ f0 f1 _ hA32 _ rfl _ rfl _ _
  have hA34 : tile_body.sl.f_34 m d L hpre f0 f1 = acc m d L 34 := step m d L _ 33 (by omega) _ _ f0 f1 _ hA33 _ rfl _ rfl _ _
  have hA35 : tile_body.sl.f_35 m d L hpre f0 f1 = acc m d L 35 := step m d L _ 34 (by omega) _ _ f0 f1 _ hA34 _ rfl _ rfl _ _
  have hA36 : tile_body.sl.f_36 m d L hpre f0 f1 = acc m d L 36 := step m d L _ 35 (by omega) _ _ f0 f1 _ hA35 _ rfl _ rfl _ _
  have hA37 : tile_body.sl.f_37 m d L hpre f0 f1 = acc m d L 37 := step m d L _ 36 (by omega) _ _ f0 f1 _ hA36 _ rfl _ rfl _ _
  have hA38 : tile_body.sl.f_38 m d L hpre f0 f1 = acc m d L 38 := step m d L _ 37 (by omega) _ _ f0 f1 _ hA37 _ rfl _ rfl _ _
  have hA39 : tile_body.sl.f_39 m d L hpre f0 f1 = acc m d L 39 := step m d L _ 38 (by omega) _ _ f0 f1 _ hA38 _ rfl _ rfl _ _
  have hA40 : tile_body.sl.f_40 m d L hpre f0 f1 = acc m d L 40 := step m d L _ 39 (by omega) _ _ f0 f1 _ hA39 _ rfl _ rfl _ _
  have hA41 : tile_body.sl.f_41 m d L hpre f0 f1 = acc m d L 41 := step m d L _ 40 (by omega) _ _ f0 f1 _ hA40 _ rfl _ rfl _ _
  have hA42 : tile_body.sl.f_42 m d L hpre f0 f1 = acc m d L 42 := step m d L _ 41 (by omega) _ _ f0 f1 _ hA41 _ rfl _ rfl _ _
  have hA43 : tile_body.sl.f_43 m d L hpre f0 f1 = acc m d L 43 := step m d L _ 42 (by omega) _ _ f0 f1 _ hA42 _ rfl _ rfl _ _
  have hA44 : tile_body.sl.f_44 m d L hpre f0 f1 = acc m d L 44 := step m d L _ 43 (by omega) _ _ f0 f1 _ hA43 _ rfl _ rfl _ _
  have hA45 : tile_body.sl.f_45 m d L hpre f0 f1 = acc m d L 45 := step m d L _ 44 (by omega) _ _ f0 f1 _ hA44 _ rfl _ rfl _ _
  have hA46 : tile_body.sl.f_46 m d L hpre f0 f1 = acc m d L 46 := step m d L _ 45 (by omega) _ _ f0 f1 _ hA45 _ rfl _ rfl _ _
  have hA47 : tile_body.sl.f_47 m d L hpre f0 f1 = acc m d L 47 := step m d L _ 46 (by omega) _ _ f0 f1 _ hA46 _ rfl _ rfl _ _
  have hA48 : tile_body.sl.f_48 m d L hpre f0 f1 = acc m d L 48 := step m d L _ 47 (by omega) _ _ f0 f1 _ hA47 _ rfl _ rfl _ _
  have hA49 : tile_body.sl.f_49 m d L hpre f0 f1 = acc m d L 49 := step m d L _ 48 (by omega) _ _ f0 f1 _ hA48 _ rfl _ rfl _ _
  have hA50 : tile_body.sl.f_50 m d L hpre f0 f1 = acc m d L 50 := step m d L _ 49 (by omega) _ _ f0 f1 _ hA49 _ rfl _ rfl _ _
  have hA51 : tile_body.sl.f_51 m d L hpre f0 f1 = acc m d L 51 := step m d L _ 50 (by omega) _ _ f0 f1 _ hA50 _ rfl _ rfl _ _
  have hA52 : tile_body.sl.f_52 m d L hpre f0 f1 = acc m d L 52 := step m d L _ 51 (by omega) _ _ f0 f1 _ hA51 _ rfl _ rfl _ _
  have hA53 : tile_body.sl.f_53 m d L hpre f0 f1 = acc m d L 53 := step m d L _ 52 (by omega) _ _ f0 f1 _ hA52 _ rfl _ rfl _ _
  have hA54 : tile_body.sl.f_54 m d L hpre f0 f1 = acc m d L 54 := step m d L _ 53 (by omega) _ _ f0 f1 _ hA53 _ rfl _ rfl _ _
  have hA55 : tile_body.sl.f_55 m d L hpre f0 f1 = acc m d L 55 := step m d L _ 54 (by omega) _ _ f0 f1 _ hA54 _ rfl _ rfl _ _
  have hA56 : tile_body.sl.f_56 m d L hpre f0 f1 = acc m d L 56 := step m d L _ 55 (by omega) _ _ f0 f1 _ hA55 _ rfl _ rfl _ _
  have hA57 : tile_body.sl.f_57 m d L hpre f0 f1 = acc m d L 57 := step m d L _ 56 (by omega) _ _ f0 f1 _ hA56 _ rfl _ rfl _ _
  have hA58 : tile_body.sl.f_58 m d L hpre f0 f1 = acc m d L 58 := step m d L _ 57 (by omega) _ _ f0 f1 _ hA57 _ rfl _ rfl _ _
  have hA59 : tile_body.sl.f_59 m d L hpre f0 f1 = acc m d L 59 := step m d L _ 58 (by omega) _ _ f0 f1 _ hA58 _ rfl _ rfl _ _
  have hA60 : tile_body.sl.f_60 m d L hpre f0 f1 = acc m d L 60 := step m d L _ 59 (by omega) _ _ f0 f1 _ hA59 _ rfl _ rfl _ _
  have hA61 : tile_body.sl.f_61 m d L hpre f0 f1 = acc m d L 61 := step m d L _ 60 (by omega) _ _ f0 f1 _ hA60 _ rfl _ rfl _ _
  have hA62 : tile_body.sl.f_62 m d L hpre f0 f1 = acc m d L 62 := step m d L _ 61 (by omega) _ _ f0 f1 _ hA61 _ rfl _ rfl _ _
  have hA63 : tile_body.sl.f_63 m d L hpre f0 f1 = acc m d L 63 := step m d L _ 62 (by omega) _ _ f0 f1 _ hA62 _ rfl _ rfl _ _
  have hP64 := KIChain.step_last' (loL L) (m (srcLoc d)) (m (dstLoc d)) 63 (by omega) _ hA63 (srcAt m d L 63 inb_S1024_S16_1008 f0) (dstAt m d L 63 inb_S1024_S16_1008 f1)
    (readAt_write_chunk _ _ _ 63 (by omega) _) (readAt_write_chunk _ _ _ 63 (by omega) _) _ rfl _ rfl
    (KIHist.chunkIdx_inRange' (loL L) (loL_le L) _ _ (read_src_lt m d L hpre _ _ _) (read_dst_lt m d L hpre _ _ _))
  have hQ1 : Rows m d L (tile_body.sl.H3'_1 m d L hpre f0 f1) :=
    KIFinal.pieces_cons _ (fun x => KIPieces.piece _ _ _ 0 0 (by decide) (by decide) inb_S4x128_S1x16_0_0 _ hP64 x) (KIFinal.pieces_nil _)
  have hQ2 : Rows m d L (tile_body.sl.H3'_2 m d L hpre f0 f1) :=
    KIFinal.pieces_cons _ (fun x => KIPieces.piece _ _ _ 0 1 (by decide) (by decide) inb_S4x128_S1x16_0_16 _ hP64 x) hQ1
  have hQ3 : Rows m d L (tile_body.sl.H3'_3 m d L hpre f0 f1) :=
    KIFinal.pieces_cons _ (fun x => KIPieces.piece _ _ _ 0 2 (by decide) (by decide) inb_S4x128_S1x16_0_32 _ hP64 x) hQ2
  have hQ4 : Rows m d L (tile_body.sl.H3'_4 m d L hpre f0 f1) :=
    KIFinal.pieces_cons _ (fun x => KIPieces.piece _ _ _ 0 3 (by decide) (by decide) inb_S4x128_S1x16_0_48 _ hP64 x) hQ3
  have hQ6 : Rows m d L (tile_body.sl.H3'_6 m d L hpre f0 f1) :=
    KIFinal.pieces_cons _ (fun x => KIPieces.piece _ _ _ 0 5 (by decide) (by decide) inb_S4x128_S1x16_0_80 _ hP64 x) (KIFinal.pieces_cons _ (fun x => KIPieces.piece _ _ _ 0 4 (by decide) (by decide) inb_S4x128_S1x16_0_64 _ hP64 x) hQ4)
  have hQ7 : Rows m d L (tile_body.sl.H3'_7 m d L hpre f0 f1) :=
    KIFinal.pieces_cons _ (fun x => KIPieces.piece _ _ _ 0 6 (by decide) (by decide) inb_S4x128_S1x16_0_96 _ hP64 x) hQ6
  have hQ8 : Rows m d L (tile_body.sl.H3'_8 m d L hpre f0 f1) :=
    KIFinal.pieces_cons _ (fun x => KIPieces.piece _ _ _ 0 7 (by decide) (by decide) inb_S4x128_S1x16_0_112 _ hP64 x) hQ7
  have hQ9 : Rows m d L (tile_body.sl.H3'_9 m d L hpre f0 f1) :=
    KIFinal.pieces_cons _ (fun x => KIPieces.piece _ _ _ 1 0 (by decide) (by decide) inb_S4x128_S1x16_1_0 _ hP64 x) hQ8
  have hQ10 : Rows m d L (tile_body.sl.H3'_10 m d L hpre f0 f1) :=
    KIFinal.pieces_cons _ (fun x => KIPieces.piece _ _ _ 1 1 (by decide) (by decide) inb_S4x128_S1x16_1_16 _ hP64 x) hQ9
  have hQ11 : Rows m d L (tile_body.sl.H3'_11 m d L hpre f0 f1) :=
    KIFinal.pieces_cons _ (fun x => KIPieces.piece _ _ _ 1 2 (by decide) (by decide) inb_S4x128_S1x16_1_32 _ hP64 x) hQ10
  have hQ12 : Rows m d L (tile_body.sl.H3'_12 m d L hpre f0 f1) :=
    KIFinal.pieces_cons _ (fun x => KIPieces.piece _ _ _ 1 3 (by decide) (by decide) inb_S4x128_S1x16_1_48 _ hP64 x) hQ11
  have hQ13 : Rows m d L (tile_body.sl.H3'_13 m d L hpre f0 f1) :=
    KIFinal.pieces_cons _ (fun x => KIPieces.piece _ _ _ 1 4 (by decide) (by decide) inb_S4x128_S1x16_1_64 _ hP64 x) hQ12
  have hQ14 : Rows m d L (tile_body.sl.H3'_14 m d L hpre f0 f1) :=
    KIFinal.pieces_cons _ (fun x => KIPieces.piece _ _ _ 1 5 (by decide) (by decide) inb_S4x128_S1x16_1_80 _ hP64 x) hQ13
  have hQ16 : Rows m d L (tile_body.sl.H3'_16 m d L hpre f0 f1) :=
    KIFinal.pieces_cons _ (fun x => KIPieces.piece _ _ _ 1 7 (by decide) (by decide) inb_S4x128_S1x16_1_112 _ hP64 x) (KIFinal.pieces_cons _ (fun x => KIPieces.piece _ _ _ 1 6 (by decide) (by decide) inb_S4x128_S1x16_1_96 _ hP64 x) hQ14)
  have hQ17 : Rows m d L (tile_body.sl.H3'_17 m d L hpre f0 f1) :=
    KIFinal.pieces_cons _ (fun x => KIPieces.piece _ _ _ 2 0 (by decide) (by decide) inb_S4x128_S1x16_2_0 _ hP64 x) hQ16
  have hQ18 : Rows m d L (tile_body.sl.H3'_18 m d L hpre f0 f1) :=
    KIFinal.pieces_cons _ (fun x => KIPieces.piece _ _ _ 2 1 (by decide) (by decide) inb_S4x128_S1x16_2_16 _ hP64 x) hQ17
  have hQ19 : Rows m d L (tile_body.sl.H3'_19 m d L hpre f0 f1) :=
    KIFinal.pieces_cons _ (fun x => KIPieces.piece _ _ _ 2 2 (by decide) (by decide) inb_S4x128_S1x16_2_32 _ hP64 x) hQ18
  have hQ20 : Rows m d L (tile_body.sl.H3'_20 m d L hpre f0 f1) :=
    KIFinal.pieces_cons _ (fun x => KIPieces.piece _ _ _ 2 3 (by decide) (by decide) inb_S4x128_S1x16_2_48 _ hP64 x) hQ19
  have hQ21 : Rows m d L (tile_body.sl.H3'_21 m d L hpre f0 f1) :=
    KIFinal.pieces_cons _ (fun x => KIPieces.piece _ _ _ 2 4 (by decide) (by decide) inb_S4x128_S1x16_2_64 _ hP64 x) hQ20
  have hQ22 : Rows m d L (tile_body.sl.H3'_22 m d L hpre f0 f1) :=
    KIFinal.pieces_cons _ (fun x => KIPieces.piece _ _ _ 2 5 (by decide) (by decide) inb_S4x128_S1x16_2_80 _ hP64 x) hQ21
  have hQ23 : Rows m d L (tile_body.sl.H3'_23 m d L hpre f0 f1) :=
    KIFinal.pieces_cons _ (fun x => KIPieces.piece _ _ _ 2 6 (by decide) (by decide) inb_S4x128_S1x16_2_96 _ hP64 x) hQ22
  have hQ24 : Rows m d L (tile_body.sl.H3'_24 m d L hpre f0 f1) :=
    KIFinal.pieces_cons _ (fun x => KIPieces.piece _ _ _ 2 7 (by decide) (by decide) inb_S4x128_S1x16_2_112 _ hP64 x) hQ23
  have hQ26 : Rows m d L (tile_body.sl.H3'_26 m d L hpre f0 f1) :=
    KIFinal.pieces_cons _ (fun x => KIPieces.piece _ _ _ 3 1 (by decide) (by decide) inb_S4x128_S1x16_3_16 _ hP64 x) (KIFinal.pieces_cons _ (fun x => KIPieces.piece _ _ _ 3 0 (by decide) (by decide) inb_S4x128_S1x16_3_0 _ hP64 x) hQ24)
  have hQ27 : Rows m d L (tile_body.sl.H3'_27 m d L hpre f0 f1) :=
    KIFinal.pieces_cons _ (fun x => KIPieces.piece _ _ _ 3 2 (by decide) (by decide) inb_S4x128_S1x16_3_32 _ hP64 x) hQ26
  have hQ28 : Rows m d L (tile_body.sl.H3'_28 m d L hpre f0 f1) :=
    KIFinal.pieces_cons _ (fun x => KIPieces.piece _ _ _ 3 3 (by decide) (by decide) inb_S4x128_S1x16_3_48 _ hP64 x) hQ27
  have hQ29 : Rows m d L (tile_body.sl.H3'_29 m d L hpre f0 f1) :=
    KIFinal.pieces_cons _ (fun x => KIPieces.piece _ _ _ 3 4 (by decide) (by decide) inb_S4x128_S1x16_3_64 _ hP64 x) hQ28
  have hQ30 : Rows m d L (tile_body.sl.H3'_30 m d L hpre f0 f1) :=
    KIFinal.pieces_cons _ (fun x => KIPieces.piece _ _ _ 3 5 (by decide) (by decide) inb_S4x128_S1x16_3_80 _ hP64 x) hQ29
  have hQ32 : Rows m d L (tile_body.sl.H3'_32 m d L hpre f0 f1) :=
    KIFinal.pieces_cons _ (fun x => KIPieces.piece _ _ _ 3 7 (by decide) (by decide) inb_S4x128_S1x16_3_112 _ hP64 x) (KIFinal.pieces_cons _ (fun x => KIPieces.piece _ _ _ 3 6 (by decide) (by decide) inb_S4x128_S1x16_3_96 _ hP64 x) hQ30)
  have hg := KIFinal.block_eq (s3).view f3 (tile_body.sl.H3'_32 m d L hpre f0 f1) (acc m d L 64) hQ32 (KIPieces.cover32 _ rfl) (loL L) (m (srcLoc d)) (m (dstLoc d)) rfl
  sl_step
  isplitl [Hsrc' Hdst' Hrows']
  · isplitl [Hsrc']
    · iapply (Entails.of_eq (pts_src (F := F) d L qs _)); iexact Hsrc'
    isplitl [Hdst']
    · iapply (Entails.of_eq (pts_dst (F := F) d L qd _)); iexact Hdst'
    iapply (Entails.of_eq (pointsTo_congr (KIRows.writes_rows_eq d L _ (m (srcLoc d)) (m (dstLoc d)) _ hg)))
    iapply (Entails.of_eq (pts_rows (F := F) d L _)); iexact Hrows'
  isplitl [H0' H1' H2' H3' Hbufs]
  · isplitl [H0']
    · iexists _; iapply (Entails.of_eq (pts_s0 (F := F) d L _)); iexact H0'
    isplitl [H1']
    · iexists _; iapply (Entails.of_eq (pts_s1 (F := F) d L _)); iexact H1'
    isplitl [H2']
    · iexists _; iapply (Entails.of_eq (pts_s2 (F := F) d L _)); iexact H2'
    isplitl [H3']
    · iexists _; iapply (Entails.of_eq (pts_s3 (F := F) d L _)); iexact H3'
    iexact Hbufs
  isplitl [HsemA HsemB HsemC Hsems]
  · isplitl [HsemA]; · iexact HsemA
    isplitl [HsemB]; · iexact HsemB
    isplitl [HsemC]; · iexact HsemC
    iexact Hsems
  iexists (insert (SemLoc.dma cc0_scoped2.sem, (default : HIx 1)) (insert (SemLoc.dma cc0_scoped1.sem, (default : HIx 1))
    (insert (SemLoc.dma cc0_scoped0.sem, (default : HIx 1)) W))); isplitr
  · ipureintro; intro p hp
    simp only [Finset.mem_insert] at hp
    rcases hp with hp | hp | hp | hp
    · exact .inr (hp ▸ rfl)
    · exact .inr (hp ▸ rfl)
    · exact .inr (hp ▸ rfl)
    · exact .inl hp
  · iexact HO

end Tile

end Cert.Proof.KITile

end
-- ==== Proof.KIRun.lean ====
import proofs.«206864_g62740882260319_cont_9to1_m_949_20_alg».proof.Proof.KILaunch
import proofs.«206864_g62740882260319_cont_9to1_m_949_20_alg».proof.Proof.KITop
import proofs.«206864_g62740882260319_cont_9to1_m_949_20_alg».proof.Proof.KIMainRegion
import proofs.«206864_g62740882260319_cont_9to1_m_949_20_alg».proof.Proof.KITileObl
import proofs.«206864_g62740882260319_cont_9to1_m_949_20_alg».proof.Proof.KITileVal
import Idealize.ShloMosaic.Lib.Tactic

noncomputable section

namespace Cert.Proof.KIRun

open Cert.KernelIdeal Cert.KernelIdeal.Gen
open Cert.Proof.KernelIdealCommon Cert.Proof.KIPay Cert.Proof.KIHand Cert.Proof.KIElem Cert.Proof.KIHost

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => 𝕄T F

variable (m : (ℓ : Loc nD τ sig) → Buf (Elt F) ℓ) (ρ : Dev nD → PrngReg)

variable [FloatOps F]

theorem regionRun : KILaunch.RegionRun m (KITop.cvF m) (KITop.ovF m) := by
  intro d y0 O Rc hO Q
  have h := KIMainRegion.main_region (F := F) (KITop.cvF m d) (m (a1Loc d)) (v1Val m d) (m (a3Loc d)) (v2Val m d) (m (a0Loc d)) y0 O Rc d hO
    (fun _ => .ret ⟨⟩) Q
  refine BIBase.Entails.trans ?_ h
  unfold KILaunch.arrs KIRegion.arrs KITop.ovF
  iintro ⟨Hk, Hb, Harr, HO, Hlev, HG⟩
  isplitl [Hk]
  · iintro ⟨Hb, Harr, HO⟩
    iapply Hk
    isplitl [Hb]; · iexact Hb
    isplitl [Harr]; · iexact Harr
    iapply (Pipeline.owesWithin_mono d O (Set.union_subset_union_right Rc KIMainRegion.waitPairs_none))
    iexact HO
  isplitl [Hb]; · iexact Hb
  isplitl [Harr]; · iexact Harr
  isplitl [HO]; · iexact HO
  isplitl [Hlev]; · iexact Hlev
  iexact HG

theorem tileBody (hpre : Cert.Proof.KITile.PreOK m) : KITileObl.TileBody m (KITop.cvF m) := by
  intro d L qs qd O W hO
  have h := KITile.tile_body m d L facts hpre qs qd O W hO
  unfold KITop.cvF
  refine BIBase.Entails.trans ?_ (BIBase.Entails.trans h ?_)
  · exact .rfl
  · apply wp_mono
    intro _
    exact .rfl

theorem run_main [∀ e, Nonempty (Elt F e)] (hpre : Cert.Proof.KITile.PreOK m) :
    θ_run (Cert.KernelIdeal.defs (F := F)) (Cert.KernelIdeal.threads (F := F)) ⟨m, fun _ => 0, ρ⟩
      (KIHand.QC m fun d => KIOut.outVal (KIHist.cntVal F (m (srcLoc d)) (m (dstLoc d))) (m (a1Loc d)) (v1Val m d) (m (a3Loc d)) (v2Val m d) (m (a0Loc d))) :=
  KITop.run_main_of m ρ
    (KITileObl.tileObl m (KITop.cvF m) (tileBody m hpre))
    (fun κ d => KILaunch.hmain m ρ (KITop.cvF m) (KITop.ovF m) (regionRun m) κ d)

end Cert.Proof.KIRun

end
-- ==== Proof.lean ====
-- One graph-convolution layer over 1024 graphs on 128 nodes that share 1024 edges: through the edge-count matrix, or edge by edge.
import proofs.«206864_g62740882260319_cont_9to1_m_949_20_alg».proof.Defs
import proofs.«206864_g62740882260319_cont_9to1_m_949_20_alg».proof.Proof.Gen.Kernel
import proofs.«206864_g62740882260319_cont_9to1_m_949_20_alg».proof.Proof.Gen.KernelIdeal
import proofs.«206864_g62740882260319_cont_9to1_m_949_20_alg».proof.Proof.Gen.ReferenceIdeal
import proofs.«206864_g62740882260319_cont_9to1_m_949_20_alg».proof.Proof.Gen.Pre_finite_inputs
import proofs.«206864_g62740882260319_cont_9to1_m_949_20_alg».proof.Proof.Spec
import proofs.«206864_g62740882260319_cont_9to1_m_949_20_alg».proof.Proof.PreDecode
import proofs.«206864_g62740882260319_cont_9to1_m_949_20_alg».proof.Proof.RefSide
import proofs.«206864_g62740882260319_cont_9to1_m_949_20_alg».proof.Proof.KIHist
import proofs.«206864_g62740882260319_cont_9to1_m_949_20_alg».proof.Proof.KIOut
import proofs.«206864_g62740882260319_cont_9to1_m_949_20_alg».proof.Proof.KIRun
import Idealize.ShloMosaic.Lib.Pipeline.Value
import Idealize.ShloMosaic.Adequacy
import Idealize.ShloMosaic.Init

noncomputable section

namespace Cert.Proof

open Idealize.ShloMosaic Idealize.SL.Sem Idealize.ShloMosaic.ValueIdx

section Claims

variable [Cert.Kernel.Facts] [Cert.KernelIdeal.Facts] [Cert.ReferenceIdeal.Facts] [Cert.Pre_finite_inputs.Facts]

-- The precondition bounds every edge endpoint by the number of nodes, at either float instance.
theorem preOK_ki {F : FTy → Type} [FloatOps F] (m : (ℓ : Loc Cert.KernelIdeal.nD Cert.KernelIdeal.τ Cert.KernelIdeal.sig) → Buf (Elt F) ℓ)
    (h : ∀ c : Dev Cert.KernelIdeal.nD, Cert.Pre_finite_inputs.fn (F := F) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) = (fun _ => 1#1)) :
    Cert.Proof.KITile.PreOK m := fun d e =>
  ⟨(Cert.PreDecode.ranges_of_pre _ _ _ _ _ _ _ (h d)).1 e, (Cert.PreDecode.ranges_of_pre _ _ _ _ _ _ _ (h d)).2 e⟩

theorem frame_ki : Cert.frame_KernelIdeal := fun m ρ hpre =>
  (θ_run Cert.KernelIdeal.defs _ _).mono (fun _ h c => (h c).2) (Cert.Proof.KIRun.run_main (F := Ideal) m ρ (preOK_ki m hpre))

-- A vector of 32 and its reshape to a 1 × 32 matrix have the same entries.
theorem row_reshape (v : Vec Ideal Cert.KernelIdeal.S32 .f32) (h : Cert.KernelIdeal.S32.ShapeCasts Cert.KernelIdeal.S1x32) (i : Fin 32) :
    shapeCast Cert.KernelIdeal.S1x32 v h (ix2 (0 : Fin 1) i) = v (ix1 i) :=
  shapeCast_apply v h _ _ (by rw [Shape.rowMajor_val_one, Shape.rowMajor_val_two]; simp)

-- Both results are the layer's value: summing edge by edge into a node equals summing over sources weighted by edge counts, on real data.
theorem algebraic : Cert.algebraic_KernelIdeal_ReferenceIdeal := by
  intro m ρ m' ρ' hpre hagree
  refine ⟨_, (θ_run Cert.KernelIdeal.defs _ _).mono (fun _ h c => h c) (Cert.Proof.KIRun.run_main (F := Ideal) m ρ (preOK_ki m hpre)), ?_⟩
  refine (θ_run Cert.ReferenceIdeal.defs _ _).mono (fun _ h c => ⟨(h c).1.trans ?_, (h c).2⟩)
    (Cert.ReferenceIdeal.Value.run (F := Ideal) m' ρ')
  have hr := Cert.PreDecode.ranges_of_pre _ _ _ _ _ _ _ (hpre c)
  have hf := Cert.PreDecode.finite_of_pre _ _ _ _ _ _ _ (hpre c)
  rw [Cert.ReferenceIdeal.Read.val_main_v52_eq, (hagree c).1, (hagree c).2.1, (hagree c).2.2.1, (hagree c).2.2.2.1,
    (hagree c).2.2.2.2.1, (hagree c).2.2.2.2.2.1, (hagree c).2.2.2.2.2.2]
  funext i
  obtain ⟨r, h', rfl⟩ : ∃ (r : Fin 131072) (h' : Fin 32), i = ix2 r h' := ⟨i 0, i 1, eq_ix2 i⟩
  obtain ⟨b, d, rfl⟩ : ∃ (b : Fin 1024) (d : Fin 128), r = ⟨b.val * 128 + d.val, by have := b.isLt; have := d.isLt; omega⟩ :=
    ⟨⟨r.val / 128, by have := r.isLt; omega⟩, ⟨r.val % 128, Nat.mod_lt _ (by decide)⟩, Fin.ext (by show r.val = r.val / 128 * 128 + r.val % 128; omega)⟩
  refine (Cert.RefSide.ref_out _ _ _ _ _ _ _ hr.1 hr.2 b d h').trans ?_
  refine (Cert.Spec.kOut_eq_rOut _ _ _ _ _ _ _ (fun b p h => hf.1 _) (fun i j => hf.2.1 _) (fun i j => hf.2.2.2.1 _)
    (fun i => hf.2.2.1 _) (fun i => hf.2.2.2.2 _) b d h').symm.trans ?_
  exact (Cert.Proof.KIOut.outVal_eq _ _ _ _ _ _ _ _ _ _ (fun d s => Cert.Proof.KIHist.cntVal_eq _ _ hr.1 hr.2 d s)
    (fun i => row_reshape _ _ i) (fun i => row_reshape _ _ i) b d h').symm

-- The idealization rewrote nothing, so the kernel as printed is the same term as its idealization, whose run was proved at every float instance.
set_option smartUnfolding false in
theorem frame_k : Cert.frame_Kernel := fun m ρ hpre =>
  (θ_run Cert.KernelIdeal.defs _ _).mono (fun _ h c => (h c).2) (Cert.Proof.KIRun.run_main (F := Bits) m ρ (preOK_ki m hpre))

end Claims

theorem claim : Cert.Claim :=
  ⟨Cert.Kernel.Gen.facts, Cert.KernelIdeal.Gen.facts, Cert.ReferenceIdeal.Gen.facts, Cert.Pre_finite_inputs.Gen.facts,
    frame_k, frame_ki, Cert.RefSide.frame_ri, trivial, algebraic⟩

end Cert.Proof

end
